-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x12 : Shape := ⟨2, ![64, 12]⟩
abbrev S12 : Shape := ⟨1, ![12]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S800000 1) (main_c_25 : IVec S_ 1) : IVec S_ 1 :=
  let main_v68 : IVec S_ 1 := (fun x v => Host.reduce IntOp.andi x v reducesTo_S800000_S_d0 h_S_) main_v67 main_c_25
  let main_v69 : IVec S_ 1 := andi main_v63 main_v68
  let main_v70 : IVec S1x800000 32 := (extractStridedSlice S1x800000 ![0, 0] · slices_S2x800000_S1x800000_0_0) main_arg1
  let main_v71 : IVec S800000 32 := shapeCast S800000 main_v70 shapeCasts_S1x800000_S800000
  let main_c_26 : IVec S_ 32 := constantI S_ 32 50000#32
  let main_v72 : IVec S800000 32 := broadcastInDim S800000 ![] bcast_S_S800000 main_c_26
  let main_v73 : IVec S800000 1 := cmpi .slt main_v71 main_v72
  let main_c_27 : IVec S_ 1 := constantI S_ 1 1#1
  let main_v74 : IVec S_ 1 := (fun x v => Host.reduce IntOp.andi x v reducesTo_S800000_S_d0 h_S_) main_v73 main_c_27
  let main_v75 : IVec S_ 1 := andi main_v69 main_v74
  main_v75

def fn_part3 {F : FTy → Type} [FloatOps F] (main_arg1 : IVec S2x800000 32) (main_arg13 : FVec F S64x12 .f32) (main_arg14 : FVec F S12 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x12 .f32 := Host.absf main_arg13
  let main_cst_20 : FVec F S_ .f32 := constant S_ .f32 0x7F800000#32
  let main_v55 : FVec F S64x12 .f32 := broadcastInDim S64x12 ![] bcast_S_S64x12 main_cst_20
  let main_v56 : IVec S64x12 1 := cmpf .olt main_v54 main_v55
  let main_c_21 : IVec S_ 1 := constantI S_ 1 1#1
  let main_v57 : IVec S_ 1 := (fun x v => Host.reduce IntOp.andi x v reducesTo_S64x12_S_d0_1 h_S_) main_v56 main_c_21
  let main_v58 : IVec S_ 1 := andi main_v53 main_v57
  let main_v59 : FVec F S12 .f32 := Host.absf main_arg14
  let main_cst_22 : FVec F S_ .f32 := constant S_ .f32 0x7F800000#32
  let main_v60 : FVec F S12 .f32 := broadcastInDim S12 ![] bcast_S_S12 main_cst_22
  let main_v61 : IVec S12 1 := cmpf .olt main_v59 main_v60
  let main_c_23 : IVec S_ 1 := constantI S_ 1 1#1
  let main_v62 : IVec S_ 1 := (fun x v => Host.reduce IntOp.andi x v reducesTo_S12_S_d0 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 0#32
  let main_v66 : IVec S800000 32 := broadcastInDim S800000 ![] bcast_S_S800000 main_c_24
  let main_v67 : IVec S800000 1 := cmpi .sge main_v65 main_v66
  let main_c_25 : IVec S_ 1 := constantI S_ 1 1#1
  fn_part4 (F := F) main_arg1 main_v63 main_v67 main_c_25

def fn_part2 {F : FTy → Type} [FloatOps F] (main_arg1 : IVec S2x800000 32) (main_arg9 : FVec F S3x128 .f32) (main_arg10 : FVec F S3x128 .f32) (main_arg11 : FVec F S128x64 .f32) (main_arg12 : FVec F S64 .f32) (main_arg13 : FVec F S64x12 .f32) (main_arg14 : FVec F S12 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_v48 main_v49 main_v50

def fn_part1 {F : FTy → Type} [FloatOps F] (main_arg1 : IVec S2x800000 32) (main_arg6 : FVec F S128 .f32) (main_arg7 : FVec F S3x128x128 .f32) (main_arg8 : FVec F S3x128 .f32) (main_arg9 : FVec F S3x128 .f32) (main_arg10 : FVec F S3x128 .f32) (main_arg11 : FVec F S128x64 .f32) (main_arg12 : FVec F S64 .f32) (main_arg13 : FVec F S64x12 .f32) (main_arg14 : FVec F S12 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128 .f32) (main_arg6 : FVec F S128 .f32) (main_arg7 : FVec F S3x128x128 .f32) (main_arg8 : FVec F S3x128 .f32) (main_arg9 : FVec F S3x128 .f32) (main_arg10 : FVec F S3x128 .f32) (main_arg11 : FVec F S128x64 .f32) (main_arg12 : FVec F S64 .f32) (main_arg13 : FVec F S64x12 .f32) (main_arg14 : FVec F S12 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x12 : Shape := ⟨2, ![64, 12]⟩
abbrev S12 : Shape := ⟨1, ![12]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128x128 : Shape := ⟨3, ![1, 128, 128]⟩
abbrev S128x128 : Shape := ⟨2, ![128, 128]⟩
abbrev S1 : Shape := ⟨1, ![1]⟩
abbrev S1x1 : Shape := ⟨2, ![1, 1]⟩
abbrev S850000x128 : Shape := ⟨2, ![850000, 128]⟩
abbrev S512 : Shape := ⟨1, ![512]⟩
abbrev S512x128 : Shape := ⟨2, ![512, 128]⟩
abbrev S512x1 : Shape := ⟨2, ![512, 1]⟩
abbrev S1x64 : Shape := ⟨2, ![1, 64]⟩
abbrev S1x12 : Shape := ⟨2, ![1, 12]⟩
abbrev S512x12 : Shape := ⟨2, ![512, 12]⟩
abbrev S512x64 : Shape := ⟨2, ![512, 64]⟩

abbrev nBuf : Space → Nat
  | .hbm => 180
  | .vmem => 68
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S128x64, .f32⟩
  | 12 => ⟨S64, .f32⟩
  | 13 => ⟨S64x12, .f32⟩
  | 14 => ⟨S12, .f32⟩
  | 15 => ⟨S1x128, .f32⟩
  | 16 => ⟨S1x128, .f32⟩
  | 17 => ⟨S1x128, .f32⟩
  | 18 => ⟨S50000x128, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S50000x1, .f32⟩
  | 41 => ⟨S1x128x128, .f32⟩
  | 42 => ⟨S128x128, .f32⟩
  | 43 => ⟨S50000x128, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S1, .i32⟩
  | 53 => ⟨S_, .i32⟩
  | 54 => ⟨S850000x1, .i32⟩
  | 55 => ⟨S850000x1, .i1⟩
  | 56 => ⟨S1x1, .i32⟩
  | 57 => ⟨S850000x1, .i32⟩
  | 58 => ⟨S850000x1, .i1⟩
  | 59 => ⟨S850000x1, .i1⟩
  | 60 => ⟨S_, .i1⟩
  | 61 => ⟨S850000, .i1⟩
  | 62 => ⟨S850000x128, .f32⟩
  | 63 => ⟨S850000x128, .i1⟩
  | 64 => ⟨S_, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S1x128, .f32⟩
  | 79 => ⟨S1x128, .f32⟩
  | 80 => ⟨S50000x128, .f32⟩
  | 81 => ⟨S1x128x128, .f32⟩
  | 82 => ⟨S128x128, .f32⟩
  | 83 => ⟨S50000x128, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S1, .i32⟩
  | 93 => ⟨S_, .i32⟩
  | 94 => ⟨S850000x1, .i32⟩
  | 95 => ⟨S850000x1, .i1⟩
  | 96 => ⟨S1x1, .i32⟩
  | 97 => ⟨S850000x1, .i32⟩
  | 98 => ⟨S850000x1, .i1⟩
  | 99 => ⟨S850000x1, .i1⟩
  | 100 => ⟨S_, .i1⟩
  | 101 => ⟨S850000, .i1⟩
  | 102 => ⟨S850000x128, .f32⟩
  | 103 => ⟨S850000x128, .i1⟩
  | 104 => ⟨S_, .f32⟩
  | 105 => ⟨S850000x128, .f32⟩
  | 106 => ⟨S850000x128, .f32⟩
  | 107 => ⟨S_, .f32⟩
  | 108 => ⟨S50000x128, .f32⟩
  | 109 => ⟨S850000x1, .i32⟩
  | 110 => ⟨S50000x128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S50000x128, .f32⟩
  | 121 => ⟨S1x128x128, .f32⟩
  | 122 => ⟨S128x128, .f32⟩
  | 123 => ⟨S50000x128, .f32⟩
  | 124 => ⟨S_, .i32⟩
  | 125 => ⟨S850000, .i32⟩
  | 126 => ⟨S850000, .i1⟩
  | 127 => ⟨S_, .i32⟩
  | _ => ⟨S50000x64, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S1, .i32⟩
  | 5 => ⟨S_, .i32⟩
  | 6 => ⟨S850000x1, .i32⟩
  | 7 => ⟨S850000x1, .i1⟩
  | 8 => ⟨S1x1, .i32⟩
  | 9 => ⟨S850000x1, .i32⟩
  | 10 => ⟨S850000x1, .i1⟩
  | 11 => ⟨S850000x1, .i1⟩
  | 12 => ⟨S_, .i1⟩
  | 13 => ⟨S850000, .i1⟩
  | 14 => ⟨S850000x128, .f32⟩
  | 15 => ⟨S850000x128, .i1⟩
  | 16 => ⟨S_, .f32⟩
  | 17 => ⟨S850000x128, .f32⟩
  | 18 => ⟨S850000x128, .f32⟩
  | 19 => ⟨S_, .f32⟩
  | 20 => ⟨S50000x128, .f32⟩
  | 21 => ⟨S850000x1, .i32⟩
  | 22 => ⟨S50000x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S50000x128, .f32⟩
  | 33 => ⟨S_, .f32⟩
  | 34 => ⟨S50000, .f32⟩
  | 35 => ⟨S_, .f32⟩
  | 36 => ⟨S512, .f32⟩
  | 37 => ⟨S50000x1, .i32⟩
  | 38 => ⟨S512, .f32⟩
  | 39 => ⟨S_, .f32⟩
  | 40 => ⟨S512x128, .f32⟩
  | 41 => ⟨S50000x1, .i32⟩
  | 42 => ⟨S512x128, .f32⟩
  | 43 => ⟨S_, .f32⟩
  | 44 => ⟨S512, .f32⟩
  | 45 => ⟨S512, .f32⟩
  | 46 => ⟨S512x1, .f32⟩
  | 47 => ⟨S512x128, .f32⟩
  | 48 => ⟨S512x128, .f32⟩
  | 49 => ⟨S1x64, .f32⟩
  | 50 => ⟨S1x12, .f32⟩
  | 51 => ⟨S512x12, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S5000x1, .f32⟩
  | .local _ .vmem, ⟨48, _⟩ => ⟨S5000x1, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x1, .f32⟩
  | .local _ .vmem, ⟨54, _⟩ => ⟨S5000x1, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S512x128, .f32⟩
  | .local _ .vmem, ⟨63, _⟩ => ⟨S128x64, .f32⟩
  | .local _ .vmem, ⟨64, _⟩ => ⟨S1x64, .f32⟩
  | .local _ .vmem, ⟨65, _⟩ => ⟨S64x12, .f32⟩
  | .local _ .vmem, ⟨66, _⟩ => ⟨S1x12, .f32⟩
  | .local _ .vmem, ⟨67, _⟩ => ⟨S512x12, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v40 : Ref sig .tc := ⟨.hbm, 106, rfl⟩
abbrev main_cst_4 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v57 : Ref sig .tc := ⟨.hbm, 146, rfl⟩
abbrev main_cst_5 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_cst_6 : Ref sig .tc := ⟨.hbm, 161, rfl⟩
abbrev main_v71 : Ref sig .tc := ⟨.hbm, 162, rfl⟩
abbrev main_cst_7 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_cst_8 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_cst_9 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg3_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc6_stg6_0 : Ref sig .tc := ⟨.vmem, 60, rfl⟩
abbrev cc6_stg6_1 : Ref sig .tc := ⟨.vmem, 61, rfl⟩
abbrev cc7_stg0_0 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem2_1 : DmaSem sig := 48
abbrev cc5_sem3_0 : DmaSem sig := 49
abbrev cc5_sem3_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc6_sem6_0 : DmaSem sig := 60
abbrev cc6_sem6_1 : DmaSem sig := 61
abbrev cc7_sem0_0 : DmaSem sig := 62
abbrev cc7_sem1_0 : DmaSem sig := 63
abbrev cc7_sem2_0 : DmaSem sig := 64
abbrev cc7_sem3_0 : DmaSem sig := 65
abbrev cc7_sem4_0 : DmaSem sig := 66
abbrev cc7_sem5_0 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x12 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x12 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x12 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S64_S1x64 : S64.ShapeCasts S1x64
  shapeCasts_S12_S1x12 : S12.ShapeCasts S1x12
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x12_S64x12_0_0 : ∀ a, (![0, 0] : Fin 2 → Nat) a + S64x12.size a ≤ S64x12.size a
  h_S64x12 : 0 < S64x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S512x12_S512x12_0_0 : ∀ a, (![0, 0] : Fin 2 → Nat) a + S512x12.size a ≤ S512x12.size a
  h_S512x12 : 0 < S512x12.numel
  dot_S5000x64_S64x128_S5000x128_1_0_0_1_n_n_wf : DotDims.WF S5000x64 S64x128 S5000x128 [1] [0] [0] [1] [] []
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x64_S512x64_1_0_0_1_n_n_wf : DotDims.WF S512x128 S128x64 S512x64 [1] [0] [0] [1] [] []
  dot_S512x64_S64x12_S512x12_1_0_0_1_n_n_wf : DotDims.WF S512x64 S64x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x12.size a ≤ S64x12.size a
  hwx7_3 : ∀ i : grid7.Coords, EltTy.bits .f32 = 32 ∨ (Rect.block (s := S64x12) S64x12.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x12.size a ≤ S1x12.size a
  hwx7_4 : ∀ i : grid7.Coords, EltTy.bits .f32 = 32 ∨ (Rect.block (s := S1x12) S1x12.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x12.size a ≤ S512x12.size a
  hwx7_5 : ∀ i : grid7.Coords, EltTy.bits .f32 = 32 ∨ (Rect.block (s := S512x12) S512x12.size (cc7_transform_5 i) (hinb7_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x12_S512x12_1_0_0_1_n_n : DotDims S512x64 S64x12 S512x12 where
  lhsContracting := [1]
  rhsContracting := [0]
  lhsNonContracting := [0]
  rhsNonContracting := [1]
  lhsBatch := []
  rhsBatch := []
  wf := dot_S512x64_S64x12_S512x12_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S5000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v53) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v53) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v19) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v60) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v68) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v69) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v53) S5000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v70) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v82) S512x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S64x12.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84) S1x12.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v85) S512x12.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x12 : Shape := ⟨2, ![64, 12]⟩
abbrev S12 : Shape := ⟨1, ![12]⟩
abbrev S50000x128 : Shape := ⟨2, ![50000, 128]⟩
abbrev S1x128 : Shape := ⟨2, ![1, 128]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S512 : Shape := ⟨1, ![512]⟩
abbrev S512x128 : Shape := ⟨2, ![512, 128]⟩
abbrev S512x1 : Shape := ⟨2, ![512, 1]⟩
abbrev S512x64 : Shape := ⟨2, ![512, 64]⟩
abbrev S1x64 : Shape := ⟨2, ![1, 64]⟩
abbrev S512x12 : Shape := ⟨2, ![512, 12]⟩
abbrev S1x12 : Shape := ⟨2, ![1, 12]⟩

abbrev nBuf : Space → Nat
  | .hbm => 301
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S128x64, .f32⟩
  | 12 => ⟨S64, .f32⟩
  | 13 => ⟨S64x12, .f32⟩
  | 14 => ⟨S12, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S50000x128, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S_, .f32⟩
  | 37 => ⟨S50000x1, .f32⟩
  | 38 => ⟨S50000x1, .f32⟩
  | 39 => ⟨S50000x1, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000, .i32⟩
  | 52 => ⟨S1x800000, .i32⟩
  | 53 => ⟨S800000, .i32⟩
  | 54 => ⟨S850000, .i32⟩
  | 55 => ⟨S1x800000, .i32⟩
  | 56 => ⟨S800000, .i32⟩
  | 57 => ⟨S850000, .i32⟩
  | 58 => ⟨S_, .f32⟩
  | 59 => ⟨S850000, .f32⟩
  | 60 => ⟨S_, .f32⟩
  | 61 => ⟨S50000, .f32⟩
  | 62 => ⟨S850000x1, .i32⟩
  | 63 => ⟨S50000, .f32⟩
  | 64 => ⟨S_, .f32⟩
  | 65 => ⟨S50000, .f32⟩
  | 66 => ⟨S50000, .i1⟩
  | 67 => ⟨S50000, .f32⟩
  | 68 => ⟨S_, .f32⟩
  | 69 => ⟨S_, .f32⟩
  | 70 => ⟨S50000, .f32⟩
  | 71 => ⟨S50000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S1x128x128, .f32⟩
  | 92 => ⟨S128x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S50000, .f32⟩
  | 121 => ⟨S50000x1, .f32⟩
  | 122 => ⟨S_, .f32⟩
  | 123 => ⟨S50000x1, .f32⟩
  | 124 => ⟨S50000x1, .f32⟩
  | 125 => ⟨S50000x128, .f32⟩
  | 126 => ⟨S50000x128, .f32⟩
  | 127 => ⟨S50000x128, .f32⟩
  | _ => ⟨S50000x64, .f32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S_, .f32⟩
  | 9 => ⟨S50000x1, .f32⟩
  | 10 => ⟨S50000x1, .f32⟩
  | 11 => ⟨S50000x1, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x128, .f32⟩
  | 36 => ⟨S850000x1, .f32⟩
  | 37 => ⟨S850000x128, .f32⟩
  | 38 => ⟨S850000x128, .f32⟩
  | 39 => ⟨S_, .f32⟩
  | 40 => ⟨S50000x128, .f32⟩
  | 41 => ⟨S850000x1, .i32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S1x128x128, .f32⟩
  | 86 => ⟨S128x128, .f32⟩
  | 87 => ⟨S50000x128, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x128, .f32⟩
  | 97 => ⟨S850000x1, .f32⟩
  | 98 => ⟨S850000x128, .f32⟩
  | 99 => ⟨S850000x128, .f32⟩
  | 100 => ⟨S_, .f32⟩
  | 101 => ⟨S50000x128, .f32⟩
  | 102 => ⟨S850000x1, .i32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S128, .f32⟩
  | 113 => ⟨S_, .f32⟩
  | 114 => ⟨S50000, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x64, .f32⟩

abbrev hbmTy0_2 (i : Nat) : BufTy := match i % 128 with
  | 0 => ⟨S50000x128, .f32⟩
  | 1 => ⟨S50000x128, .f32⟩
  | 2 => ⟨S_, .f32⟩
  | 3 => ⟨S50000x1, .f32⟩
  | 4 => ⟨S50000x1, .f32⟩
  | 5 => ⟨S50000x1, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S_, .f32⟩
  | 19 => ⟨S50000, .f32⟩
  | 20 => ⟨S_, .f32⟩
  | 21 => ⟨S512, .f32⟩
  | 22 => ⟨S50000x1, .i32⟩
  | 23 => ⟨S512, .f32⟩
  | 24 => ⟨S_, .f32⟩
  | 25 => ⟨S512x128, .f32⟩
  | 26 => ⟨S50000x1, .i32⟩
  | 27 => ⟨S512x128, .f32⟩
  | 28 => ⟨S_, .f32⟩
  | 29 => ⟨S512, .f32⟩
  | 30 => ⟨S512, .f32⟩
  | 31 => ⟨S512x1, .f32⟩
  | 32 => ⟨S512x128, .f32⟩
  | 33 => ⟨S512x128, .f32⟩
  | 34 => ⟨S512x64, .f32⟩
  | 35 => ⟨S1x64, .f32⟩
  | 36 => ⟨S512x64, .f32⟩
  | 37 => ⟨S512x64, .f32⟩
  | 38 => ⟨S_, .f32⟩
  | 39 => ⟨S512x64, .f32⟩
  | 40 => ⟨S512x64, .f32⟩
  | 41 => ⟨S512x12, .f32⟩
  | 42 => ⟨S1x12, .f32⟩
  | 43 => ⟨S512x12, .f32⟩
  | 44 => ⟨S512x12, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_v43 : Ref sig .tc := ⟨.hbm, 71, rfl⟩
abbrev main_c : Ref sig .tc := ⟨.hbm, 72, rfl⟩
abbrev main_v44 : Ref sig .tc := ⟨.hbm, 73, rfl⟩
abbrev main_v45 : Ref sig .tc := ⟨.hbm, 74, rfl⟩
abbrev main_c_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_14 : Ref sig .tc := ⟨.hbm, 119, rfl⟩
abbrev main_v84 : Ref sig .tc := ⟨.hbm, 120, rfl⟩
abbrev main_v85 : Ref sig .tc := ⟨.hbm, 121, rfl⟩
abbrev main_cst_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_16 : Ref sig .tc := ⟨.hbm, 128, rfl⟩
abbrev main_v91 : Ref sig .tc := ⟨.hbm, 129, rfl⟩
abbrev main_v92 : Ref sig .tc := ⟨.hbm, 130, rfl⟩
abbrev main_cst_17 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_call2_cst : Ref sig .tc := ⟨.hbm, 148, rfl⟩
abbrev main_call2_v0 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_19 : Ref sig .tc := ⟨.hbm, 155, rfl⟩
abbrev main_v113 : Ref sig .tc := ⟨.hbm, 156, rfl⟩
abbrev main_v114 : Ref sig .tc := ⟨.hbm, 157, rfl⟩
abbrev main_c_20 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_21 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_22 : Ref sig .tc := ⟨.hbm, 180, rfl⟩
abbrev main_v135 : Ref sig .tc := ⟨.hbm, 181, rfl⟩
abbrev main_v136 : Ref sig .tc := ⟨.hbm, 182, rfl⟩
abbrev main_cst_23 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_24 : Ref sig .tc := ⟨.hbm, 189, rfl⟩
abbrev main_v142 : Ref sig .tc := ⟨.hbm, 190, rfl⟩
abbrev main_v143 : Ref sig .tc := ⟨.hbm, 191, rfl⟩
abbrev main_cst_25 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_26 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_call3_cst : Ref sig .tc := ⟨.hbm, 209, rfl⟩
abbrev main_call3_v0 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_c_27 : Ref sig .tc := ⟨.hbm, 216, rfl⟩
abbrev main_v164 : Ref sig .tc := ⟨.hbm, 217, rfl⟩
abbrev main_v165 : Ref sig .tc := ⟨.hbm, 218, rfl⟩
abbrev main_c_28 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_29 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_30 : Ref sig .tc := ⟨.hbm, 241, rfl⟩
abbrev main_v186 : Ref sig .tc := ⟨.hbm, 242, rfl⟩
abbrev main_v187 : Ref sig .tc := ⟨.hbm, 243, rfl⟩
abbrev main_cst_31 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_32 : Ref sig .tc := ⟨.hbm, 250, rfl⟩
abbrev main_v193 : Ref sig .tc := ⟨.hbm, 251, rfl⟩
abbrev main_v194 : Ref sig .tc := ⟨.hbm, 252, rfl⟩
abbrev main_cst_33 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_34 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_call4_cst : Ref sig .tc := ⟨.hbm, 270, rfl⟩
abbrev main_call4_v0 : Ref sig .tc := ⟨.hbm, 271, rfl⟩
abbrev main_v210 : Ref sig .tc := ⟨.hbm, 272, rfl⟩
abbrev main_v211 : Ref sig .tc := ⟨.hbm, 273, rfl⟩
abbrev main_cst_35 : Ref sig .tc := ⟨.hbm, 274, rfl⟩
abbrev main_v212 : Ref sig .tc := ⟨.hbm, 275, rfl⟩
abbrev main_cst_36 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_cst_37 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_cst_38 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_call5_cst : Ref sig .tc := ⟨.hbm, 294, rfl⟩
abbrev main_call5_v0 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x64_S512x64_1_0_0_1_n_n_wf : DotDims.WF S512x128 S128x64 S512x64 [1] [0] [0] [1] [] []
  dot_S512x64_S64x12_S512x12_1_0_0_1_n_n_wf : DotDims.WF S512x64 S64x12 S512x12 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x12_S512x12_1_0_0_1_n_n : DotDims S512x64 S64x12 S512x12 where
  lhsContracting := [1]
  rhsContracting := [0]
  lhsNonContracting := [0]
  rhsNonContracting := [1]
  lhsBatch := []
  rhsBatch := []
  wf := dot_S512x64_S64x12_S512x12_1_0_0_1_n_n_wf

class Facts : Prop extends Facts₀ where

variable [Facts]
-- ==== Proof.KCarry.lean ====
import proofs.«406057_j79568564126007_2_alg».proof.Proof.Gen.KernelIdeal.Frame

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

-- What the step from boundary `k` of the run to the next may change: the results of a host stretch, the output array of a region.
noncomputable def written : ℕ → List (Ref sig .tc)
  | 0 => [main_v0, main_v1, main_v2]
  | 1 => [main_v3]
  | 2 => [main_v4, main_v5, main_v6, main_v7, main_v8, main_v9, main_v10, main_cst, main_v11, main_cst_0, main_v12, main_v13, main_v14, main_cst_1, main_v15, main_v16, main_v17, main_cst_2]
  | 3 => [main_call0_v0, main_call0_v1, main_v18]
  | 4 => [main_v19, main_v20, main_v21]
  | 5 => [main_v22]
  | 6 => [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v23]
  | 7 => [main_cst_3, main_v24, main_v25, main_v26, main_v27, main_v28, main_v29, main_v30, main_v31, main_v32, main_v33, main_v34, main_v35]
  | 8 => [main_v36]
  | 9 => [main_v37, main_v38]
  | 10 => [main_v39]
  | 11 => [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v40]
  | 12 => [main_cst_4, main_v41, main_v42, main_v43, main_v44, main_v45, main_v46, main_v47, main_v48, main_v49, main_v50, main_v51, main_v52]
  | 13 => [main_v53]
  | 14 => [main_v54, main_v55]
  | 15 => [main_v56]
  | 16 => [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v57]
  | 17 => [main_cst_5, main_v58, main_v59, main_v60, main_v61, main_v62, main_v63, main_v64, main_v65, main_v66, main_v67, main_v68, main_v69]
  | 18 => [main_v70]
  | 19 => [main_cst_6, main_v71, main_cst_7, main_v72, main_v73, main_v74, main_cst_8, main_v75, main_v76, main_v77, main_cst_9, main_v78, main_v79, main_v80, main_v81, main_v82, main_v83, main_v84]
  | _ => []

-- Every line of `ops` writes inside `L`.
abbrev WritesIn (ops : List (HloOp τ sig (Elt F))) (L : List (Ref sig .tc)) : Prop :=
  ops.Forall fun op => op.writes ⊆ (L.map (Proc.devRef (τ := τ) .tc)).toFinset

-- A line whose one result is `y` writes inside any list that holds `y`.
theorem writes_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

theorem hostOps0_writes : WritesIn (F := F) hostOps0 (written 0) := by
  repeat' apply And.intro
  all_goals exact writes_sub_of_mem (by decide)
theorem hostOps1_writes : WritesIn (F := F) hostOps1 (written 2) := by
  repeat' apply And.intro
  all_goals exact writes_sub_of_mem (by decide)
theorem hostOps1_1_writes : WritesIn (F := F) hostOps1_1 (written 3) := by
  repeat' apply And.intro
  all_goals exact writes_sub_of_mem (by decide)
theorem hostOps1_2_writes : WritesIn (F := F) hostOps1_2 (written 4) := by
  repeat' apply And.intro
  all_goals exact writes_sub_of_mem (by decide)
theorem hostOps2_writes : WritesIn (F := F) hostOps2 (written 6) := by
  repeat' apply And.intro
  all_goals exact writes_sub_of_mem (by decide)
theorem hostOps2_1_writes : WritesIn (F := F) hostOps2_1 (written 7) := by
  repeat' apply And.intro
  all_goals exact writes_sub_of_mem (by decide)
theorem hostOps3_writes : WritesIn (F := F) hostOps3 (written 9) := by
  repeat' apply And.intro
  all_goals exact writes_sub_of_mem (by decide)
theorem hostOps4_writes : WritesIn (F := F) hostOps4 (written 11) := by
  repeat' apply And.intro
  all_goals exact writes_sub_of_mem (by decide)
theorem hostOps4_1_writes : WritesIn (F := F) hostOps4_1 (written 12) := by
  repeat' apply And.intro
  all_goals exact writes_sub_of_mem (by decide)
theorem hostOps5_writes : WritesIn (F := F) hostOps5 (written 14) := by
  repeat' apply And.intro
  all_goals exact writes_sub_of_mem (by decide)
theorem hostOps6_writes : WritesIn (F := F) hostOps6 (written 16) := by
  repeat' apply And.intro
  all_goals exact writes_sub_of_mem (by decide)
theorem hostOps6_1_writes : WritesIn (F := F) hostOps6_1 (written 17) := by
  repeat' apply And.intro
  all_goals exact writes_sub_of_mem (by decide)
theorem hostOps7_writes : WritesIn (F := F) hostOps7 (written 19) := by
  repeat' apply And.intro
  all_goals exact writes_sub_of_mem (by decide)

-- `keepK`: a reference outside what step `K - 1` may change holds at boundary `K` what it held at boundary `K - 1`.
-- Of a region's arrays only the output may differ at its exit.
theorem keep1 (c : Dev nD) (r : Ref sig .tc) (h : r ∉ written 0) : W1 m ρ c (Proc.devRef .tc r) = W0 m ρ c (Proc.devRef .tc r) :=
  StableHlo.after_of_writes_sub hostOps0 _ hostOps0_writes h
theorem keep2 (c : Dev nD) (r : Ref sig .tc) (h : r ∉ written 1) : W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (by revert w; decide) _).trans (A_eq0 (V1 m ρ) c w))
  · exact W2_of_ne m ρ c r fun w e => hr ⟨w, e⟩
theorem keep3 (c : Dev nD) (r : Ref sig .tc) (h : r ∉ written 2) : W3 m ρ c (Proc.devRef .tc r) = W2 m ρ c (Proc.devRef .tc r) :=
  StableHlo.after_of_writes_sub hostOps1 _ hostOps1_writes h
theorem keep4 (c : Dev nD) (r : Ref sig .tc) (h : r ∉ written 3) : W4 m ρ c (Proc.devRef .tc r) = W3 m ρ c (Proc.devRef .tc r) :=
  StableHlo.after_of_writes_sub hostOps1_1 _ hostOps1_1_writes h
theorem keep5 (c : Dev nD) (r : Ref sig .tc) (h : r ∉ written 4) : W5 m ρ c (Proc.devRef .tc r) = W4 m ρ c (Proc.devRef .tc r) :=
  StableHlo.after_of_writes_sub hostOps1_2 _ hostOps1_2_writes h
theorem keep6 (c : Dev nD) (r : Ref sig .tc) (h : r ∉ written 5) : W6 m ρ c (Proc.devRef .tc r) = W5 m ρ c (Proc.devRef .tc r) := by
  by_cases hr : ∃ w, Pipeline.arrRef spec1 w = r
  · obtain ⟨w, rfl⟩ := hr
    exact (W6_arr m ρ c w).trans (((dat1 (V5 m ρ) c).arrAt_in w (by revert w; decide) _).trans (A_eq1 (V5 m ρ) c w))
  · exact W6_of_ne m ρ c r fun w e => hr ⟨w, e⟩
theorem keep7 (c : Dev nD) (r : Ref sig .tc) (h : r ∉ written 6) : W7 m ρ c (Proc.devRef .tc r) = W6 m ρ c (Proc.devRef .tc r) :=
  StableHlo.after_of_writes_sub hostOps2 _ hostOps2_writes h
theorem keep8 (c : Dev nD) (r : Ref sig .tc) (h : r ∉ written 7) : W8 m ρ c (Proc.devRef .tc r) = W7 m ρ c (Proc.devRef .tc r) :=
  StableHlo.after_of_writes_sub hostOps2_1 _ hostOps2_1_writes h
theorem keep9 (c : Dev nD) (r : Ref sig .tc) (h : r ∉ written 8) : W9 m ρ c (Proc.devRef .tc r) = W8 m ρ c (Proc.devRef .tc r) := by
  by_cases hr : ∃ w, Pipeline.arrRef spec2 w = r
  · obtain ⟨w, rfl⟩ := hr
    exact (W9_arr m ρ c w).trans (((dat2 (V8 m ρ) c).arrAt_in w (by revert w; decide) _).trans (A_eq2 (V8 m ρ) c w))
  · exact W9_of_ne m ρ c r fun w e => hr ⟨w, e⟩
theorem keep10 (c : Dev nD) (r : Ref sig .tc) (h : r ∉ written 9) : W10 m ρ c (Proc.devRef .tc r) = W9 m ρ c (Proc.devRef .tc r) :=
  StableHlo.after_of_writes_sub hostOps3 _ hostOps3_writes h
theorem keep11 (c : Dev nD) (r : Ref sig .tc) (h : r ∉ written 10) : W11 m ρ c (Proc.devRef .tc r) = W10 m ρ c (Proc.devRef .tc r) := by
  by_cases hr : ∃ w, Pipeline.arrRef spec3 w = r
  · obtain ⟨w, rfl⟩ := hr
    exact (W11_arr m ρ c w).trans (((dat3 (V10 m ρ) c).arrAt_in w (by revert w; decide) _).trans (A_eq3 (V10 m ρ) c w))
  · exact W11_of_ne m ρ c r fun w e => hr ⟨w, e⟩
theorem keep12 (c : Dev nD) (r : Ref sig .tc) (h : r ∉ written 11) : W12 m ρ c (Proc.devRef .tc r) = W11 m ρ c (Proc.devRef .tc r) :=
  StableHlo.after_of_writes_sub hostOps4 _ hostOps4_writes h
theorem keep13 (c : Dev nD) (r : Ref sig .tc) (h : r ∉ written 12) : W13 m ρ c (Proc.devRef .tc r) = W12 m ρ c (Proc.devRef .tc r) :=
  StableHlo.after_of_writes_sub hostOps4_1 _ hostOps4_1_writes h
theorem keep14 (c : Dev nD) (r : Ref sig .tc) (h : r ∉ written 13) : W14 m ρ c (Proc.devRef .tc r) = W13 m ρ c (Proc.devRef .tc r) := by
  by_cases hr : ∃ w, Pipeline.arrRef spec4 w = r
  · obtain ⟨w, rfl⟩ := hr
    exact (W14_arr m ρ c w).trans (((dat4 (V13 m ρ) c).arrAt_in w (by revert w; decide) _).trans (A_eq4 (V13 m ρ) c w))
  · exact W14_of_ne m ρ c r fun w e => hr ⟨w, e⟩
theorem keep15 (c : Dev nD) (r : Ref sig .tc) (h : r ∉ written 14) : W15 m ρ c (Proc.devRef .tc r) = W14 m ρ c (Proc.devRef .tc r) :=
  StableHlo.after_of_writes_sub hostOps5 _ hostOps5_writes h
theorem keep16 (c : Dev nD) (r : Ref sig .tc) (h : r ∉ written 15) : W16 m ρ c (Proc.devRef .tc r) = W15 m ρ c (Proc.devRef .tc r) := by
  by_cases hr : ∃ w, Pipeline.arrRef spec5 w = r
  · obtain ⟨w, rfl⟩ := hr
    exact (W16_arr m ρ c w).trans (((dat5 (V15 m ρ) c).arrAt_in w (by revert w; decide) _).trans (A_eq5 (V15 m ρ) c w))
  · exact W16_of_ne m ρ c r fun w e => hr ⟨w, e⟩
theorem keep17 (c : Dev nD) (r : Ref sig .tc) (h : r ∉ written 16) : W17 m ρ c (Proc.devRef .tc r) = W16 m ρ c (Proc.devRef .tc r) :=
  StableHlo.after_of_writes_sub hostOps6 _ hostOps6_writes h
theorem keep18 (c : Dev nD) (r : Ref sig .tc) (h : r ∉ written 17) : W18 m ρ c (Proc.devRef .tc r) = W17 m ρ c (Proc.devRef .tc r) :=
  StableHlo.after_of_writes_sub hostOps6_1 _ hostOps6_1_writes h
theorem keep19 (c : Dev nD) (r : Ref sig .tc) (h : r ∉ written 18) : W19 m ρ c (Proc.devRef .tc r) = W18 m ρ c (Proc.devRef .tc r) := by
  by_cases hr : ∃ w, Pipeline.arrRef spec6 w = r
  · obtain ⟨w, rfl⟩ := hr
    exact (W19_arr m ρ c w).trans (((dat6 (V18 m ρ) c).arrAt_in w (by revert w; decide) _).trans (A_eq6 (V18 m ρ) c w))
  · exact W19_of_ne m ρ c r fun w e => hr ⟨w, e⟩
theorem keep20 (c : Dev nD) (r : Ref sig .tc) (h : r ∉ written 19) : W20 m ρ c (Proc.devRef .tc r) = W19 m ρ c (Proc.devRef .tc r) :=
  StableHlo.after_of_writes_sub hostOps7 _ hostOps7_writes h

-- A reference that no step may change is as launched at every boundary.
theorem launched1 (c : Dev nD) (r : Ref sig .tc) (h : ∀ i < 20, r ∉ written i) :
    W1 m ρ c (Proc.devRef .tc r) = m ((c : Thread nD τ).loc r) :=
  (keep1 m ρ c r (h 0 (by decide))).trans rfl
theorem launched2 (c : Dev nD) (r : Ref sig .tc) (h : ∀ i < 20, r ∉ written i) :
    W2 m ρ c (Proc.devRef .tc r) = m ((c : Thread nD τ).loc r) :=
  (keep2 m ρ c r (h 1 (by decide))).trans (launched1 m ρ c r h)
theorem launched6 (c : Dev nD) (r : Ref sig .tc) (h : ∀ i < 20, r ∉ written i) :
    W6 m ρ c (Proc.devRef .tc r) = m ((c : Thread nD τ).loc r) :=
  (keep6 m ρ c r (h 5 (by decide))).trans <| (keep5 m ρ c r (h 4 (by decide))).trans <| (keep4 m ρ c r (h 3 (by decide))).trans <| (keep3 m ρ c r (h 2 (by decide))).trans (launched2 m ρ c r h)
theorem launched9 (c : Dev nD) (r : Ref sig .tc) (h : ∀ i < 20, r ∉ written i) :
    W9 m ρ c (Proc.devRef .tc r) = m ((c : Thread nD τ).loc r) :=
  (keep9 m ρ c r (h 8 (by decide))).trans <| (keep8 m ρ c r (h 7 (by decide))).trans <| (keep7 m ρ c r (h 6 (by decide))).trans (launched6 m ρ c r h)
theorem launched11 (c : Dev nD) (r : Ref sig .tc) (h : ∀ i < 20, r ∉ written i) :
    W11 m ρ c (Proc.devRef .tc r) = m ((c : Thread nD τ).loc r) :=
  (keep11 m ρ c r (h 10 (by decide))).trans <| (keep10 m ρ c r (h 9 (by decide))).trans (launched9 m ρ c r h)
theorem launched14 (c : Dev nD) (r : Ref sig .tc) (h : ∀ i < 20, r ∉ written i) :
    W14 m ρ c (Proc.devRef .tc r) = m ((c : Thread nD τ).loc r) :=
  (keep14 m ρ c r (h 13 (by decide))).trans <| (keep13 m ρ c r (h 12 (by decide))).trans <| (keep12 m ρ c r (h 11 (by decide))).trans (launched11 m ρ c r h)
theorem launched16 (c : Dev nD) (r : Ref sig .tc) (h : ∀ i < 20, r ∉ written i) :
    W16 m ρ c (Proc.devRef .tc r) = m ((c : Thread nD τ).loc r) :=
  (keep16 m ρ c r (h 15 (by decide))).trans <| (keep15 m ρ c r (h 14 (by decide))).trans (launched14 m ρ c r h)
theorem launched19 (c : Dev nD) (r : Ref sig .tc) (h : ∀ i < 20, r ∉ written i) :
    W19 m ρ c (Proc.devRef .tc r) = m ((c : Thread nD τ).loc r) :=
  (keep19 m ρ c r (h 18 (by decide))).trans <| (keep18 m ρ c r (h 17 (by decide))).trans <| (keep17 m ρ c r (h 16 (by decide))).trans (launched16 m ρ c r h)
theorem launched20 (c : Dev nD) (r : Ref sig .tc) (h : ∀ i < 20, r ∉ written i) :
    W20 m ρ c (Proc.devRef .tc r) = m ((c : Thread nD τ).loc r) :=
  (keep20 m ρ c r (h 19 (by decide))).trans (launched19 m ρ c r h)

theorem arg0_at1 (c : Dev nD) : W1 m ρ c (Proc.devRef .tc main_arg0) = m ((c : Thread nD τ).loc main_arg0) :=
  launched1 m ρ c main_arg0 (by decide)

theorem arg3_at1 (c : Dev nD) : W1 m ρ c (Proc.devRef .tc main_arg3) = m ((c : Thread nD τ).loc main_arg3) :=
  launched1 m ρ c main_arg3 (by decide)

theorem arg1_at2 (c : Dev nD) : W2 m ρ c (Proc.devRef .tc main_arg1) = m ((c : Thread nD τ).loc main_arg1) :=
  launched2 m ρ c main_arg1 (by decide)

theorem arg7_at2 (c : Dev nD) : W2 m ρ c (Proc.devRef .tc main_arg7) = m ((c : Thread nD τ).loc main_arg7) :=
  launched2 m ρ c main_arg7 (by decide)

theorem arg7_at9 (c : Dev nD) : W9 m ρ c (Proc.devRef .tc main_arg7) = m ((c : Thread nD τ).loc main_arg7) :=
  launched9 m ρ c main_arg7 (by decide)

theorem arg7_at14 (c : Dev nD) : W14 m ρ c (Proc.devRef .tc main_arg7) = m ((c : Thread nD τ).loc main_arg7) :=
  launched14 m ρ c main_arg7 (by decide)

theorem arg8_at6 (c : Dev nD) : W6 m ρ c (Proc.devRef .tc main_arg8) = m ((c : Thread nD τ).loc main_arg8) :=
  launched6 m ρ c main_arg8 (by decide)

theorem arg9_at6 (c : Dev nD) : W6 m ρ c (Proc.devRef .tc main_arg9) = m ((c : Thread nD τ).loc main_arg9) :=
  launched6 m ρ c main_arg9 (by decide)

theorem arg10_at6 (c : Dev nD) : W6 m ρ c (Proc.devRef .tc main_arg10) = m ((c : Thread nD τ).loc main_arg10) :=
  launched6 m ρ c main_arg10 (by decide)

theorem arg8_at11 (c : Dev nD) : W11 m ρ c (Proc.devRef .tc main_arg8) = m ((c : Thread nD τ).loc main_arg8) :=
  launched11 m ρ c main_arg8 (by decide)

theorem arg9_at11 (c : Dev nD) : W11 m ρ c (Proc.devRef .tc main_arg9) = m ((c : Thread nD τ).loc main_arg9) :=
  launched11 m ρ c main_arg9 (by decide)

theorem arg10_at11 (c : Dev nD) : W11 m ρ c (Proc.devRef .tc main_arg10) = m ((c : Thread nD τ).loc main_arg10) :=
  launched11 m ρ c main_arg10 (by decide)

theorem arg8_at16 (c : Dev nD) : W16 m ρ c (Proc.devRef .tc main_arg8) = m ((c : Thread nD τ).loc main_arg8) :=
  launched16 m ρ c main_arg8 (by decide)

theorem arg9_at16 (c : Dev nD) : W16 m ρ c (Proc.devRef .tc main_arg9) = m ((c : Thread nD τ).loc main_arg9) :=
  launched16 m ρ c main_arg9 (by decide)

theorem arg10_at16 (c : Dev nD) : W16 m ρ c (Proc.devRef .tc main_arg10) = m ((c : Thread nD τ).loc main_arg10) :=
  launched16 m ρ c main_arg10 (by decide)

theorem arg2_at19 (c : Dev nD) : W19 m ρ c (Proc.devRef .tc main_arg2) = m ((c : Thread nD τ).loc main_arg2) :=
  launched19 m ρ c main_arg2 (by decide)

theorem arg12_at19 (c : Dev nD) : W19 m ρ c (Proc.devRef .tc main_arg12) = m ((c : Thread nD τ).loc main_arg12) :=
  launched19 m ρ c main_arg12 (by decide)

theorem arg14_at19 (c : Dev nD) : W19 m ρ c (Proc.devRef .tc main_arg14) = m ((c : Thread nD τ).loc main_arg14) :=
  launched19 m ρ c main_arg14 (by decide)

theorem arg11_at20 (c : Dev nD) : W20 m ρ c (Proc.devRef .tc main_arg11) = m ((c : Thread nD τ).loc main_arg11) :=
  launched20 m ρ c main_arg11 (by decide)

theorem arg13_at20 (c : Dev nD) : W20 m ρ c (Proc.devRef .tc main_arg13) = m ((c : Thread nD τ).loc main_arg13) :=
  launched20 m ρ c main_arg13 (by decide)

theorem v3_at5_from2 (c : Dev nD) : W5 m ρ c (Proc.devRef .tc main_v3) = W2 m ρ c (Proc.devRef .tc main_v3) :=
  (keep5 m ρ c main_v3 (by decide)).trans <| (keep4 m ρ c main_v3 (by decide)).trans (keep3 m ρ c main_v3 (by decide))

theorem v3_at8_from2 (c : Dev nD) : W8 m ρ c (Proc.devRef .tc main_v3) = W2 m ρ c (Proc.devRef .tc main_v3) :=
  (keep8 m ρ c main_v3 (by decide)).trans <| (keep7 m ρ c main_v3 (by decide)).trans <| (keep6 m ρ c main_v3 (by decide)).trans (v3_at5_from2 m ρ c)

theorem v19_at8_from5 (c : Dev nD) : W8 m ρ c (Proc.devRef .tc main_v19) = W5 m ρ c (Proc.devRef .tc main_v19) :=
  (keep8 m ρ c main_v19 (by decide)).trans <| (keep7 m ρ c main_v19 (by decide)).trans (keep6 m ρ c main_v19 (by decide))

theorem v19_at10_from5 (c : Dev nD) : W10 m ρ c (Proc.devRef .tc main_v19) = W5 m ρ c (Proc.devRef .tc main_v19) :=
  (keep10 m ρ c main_v19 (by decide)).trans <| (keep9 m ρ c main_v19 (by decide)).trans (v19_at8_from5 m ρ c)

theorem v19_at13_from5 (c : Dev nD) : W13 m ρ c (Proc.devRef .tc main_v19) = W5 m ρ c (Proc.devRef .tc main_v19) :=
  (keep13 m ρ c main_v19 (by decide)).trans <| (keep12 m ρ c main_v19 (by decide)).trans <| (keep11 m ρ c main_v19 (by decide)).trans (v19_at10_from5 m ρ c)

theorem v19_at15_from5 (c : Dev nD) : W15 m ρ c (Proc.devRef .tc main_v19) = W5 m ρ c (Proc.devRef .tc main_v19) :=
  (keep15 m ρ c main_v19 (by decide)).trans <| (keep14 m ρ c main_v19 (by decide)).trans (v19_at13_from5 m ρ c)

theorem v19_at18_from5 (c : Dev nD) : W18 m ρ c (Proc.devRef .tc main_v19) = W5 m ρ c (Proc.devRef .tc main_v19) :=
  (keep18 m ρ c main_v19 (by decide)).trans <| (keep17 m ρ c main_v19 (by decide)).trans <| (keep16 m ρ c main_v19 (by decide)).trans (v19_at15_from5 m ρ c)

theorem v7_at6_from5 (c : Dev nD) : W6 m ρ c (Proc.devRef .tc main_v7) = W5 m ρ c (Proc.devRef .tc main_v7) :=
  keep6 m ρ c main_v7 (by decide)

theorem v7_at11_from5 (c : Dev nD) : W11 m ρ c (Proc.devRef .tc main_v7) = W5 m ρ c (Proc.devRef .tc main_v7) :=
  (keep11 m ρ c main_v7 (by decide)).trans <| (keep10 m ρ c main_v7 (by decide)).trans <| (keep9 m ρ c main_v7 (by decide)).trans <| (keep8 m ρ c main_v7 (by decide)).trans <| (keep7 m ρ c main_v7 (by decide)).trans (v7_at6_from5 m ρ c)

theorem v7_at16_from5 (c : Dev nD) : W16 m ρ c (Proc.devRef .tc main_v7) = W5 m ρ c (Proc.devRef .tc main_v7) :=
  (keep16 m ρ c main_v7 (by decide)).trans <| (keep15 m ρ c main_v7 (by decide)).trans <| (keep14 m ρ c main_v7 (by decide)).trans <| (keep13 m ρ c main_v7 (by decide)).trans <| (keep12 m ρ c main_v7 (by decide)).trans (v7_at11_from5 m ρ c)

theorem v10_at6_from5 (c : Dev nD) : W6 m ρ c (Proc.devRef .tc main_v10) = W5 m ρ c (Proc.devRef .tc main_v10) :=
  keep6 m ρ c main_v10 (by decide)

theorem v10_at11_from5 (c : Dev nD) : W11 m ρ c (Proc.devRef .tc main_v10) = W5 m ρ c (Proc.devRef .tc main_v10) :=
  (keep11 m ρ c main_v10 (by decide)).trans <| (keep10 m ρ c main_v10 (by decide)).trans <| (keep9 m ρ c main_v10 (by decide)).trans <| (keep8 m ρ c main_v10 (by decide)).trans <| (keep7 m ρ c main_v10 (by decide)).trans (v10_at6_from5 m ρ c)

theorem v10_at16_from5 (c : Dev nD) : W16 m ρ c (Proc.devRef .tc main_v10) = W5 m ρ c (Proc.devRef .tc main_v10) :=
  (keep16 m ρ c main_v10 (by decide)).trans <| (keep15 m ρ c main_v10 (by decide)).trans <| (keep14 m ρ c main_v10 (by decide)).trans <| (keep13 m ρ c main_v10 (by decide)).trans <| (keep12 m ρ c main_v10 (by decide)).trans (v10_at11_from5 m ρ c)

theorem v36_at10_from9 (c : Dev nD) : W10 m ρ c (Proc.devRef .tc main_v36) = W9 m ρ c (Proc.devRef .tc main_v36) :=
  keep10 m ρ c main_v36 (by decide)

theorem v36_at13_from9 (c : Dev nD) : W13 m ρ c (Proc.devRef .tc main_v36) = W9 m ρ c (Proc.devRef .tc main_v36) :=
  (keep13 m ρ c main_v36 (by decide)).trans <| (keep12 m ρ c main_v36 (by decide)).trans <| (keep11 m ρ c main_v36 (by decide)).trans (v36_at10_from9 m ρ c)

theorem v53_at15_from14 (c : Dev nD) : W15 m ρ c (Proc.devRef .tc main_v53) = W14 m ρ c (Proc.devRef .tc main_v53) :=
  keep15 m ρ c main_v53 (by decide)

theorem v53_at18_from14 (c : Dev nD) : W18 m ρ c (Proc.devRef .tc main_v53) = W14 m ρ c (Proc.devRef .tc main_v53) :=
  (keep18 m ρ c main_v53 (by decide)).trans <| (keep17 m ρ c main_v53 (by decide)).trans <| (keep16 m ρ c main_v53 (by decide)).trans (v53_at15_from14 m ρ c)

end Cert.KernelIdeal.Carry

end
-- ==== Proof.LibRowOps.lean ====
import Idealize.ShloMosaic.PureOps.Ideal
import Idealize.ShloMosaic.Lib.ValueIdx

noncomputable section

namespace Cert.LibRowOps

open Idealize.ShloMosaic Idealize.ShloMosaic.ValueIdx

def clampRow (N : Nat) (hN : 0 < N) (z : Int) : Fin N := ⟨(min (max z 0) ((N - 1 : Nat) : Int)).toNat, by omega⟩

theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.Spec.lean ====
import Idealize.ShloMosaic.PureOps.Ideal
import Idealize.ShloMosaic.PureOps.Ideal.Laws
import Mathlib.Data.EReal.Operations
import Mathlib.Algebra.BigOperators.Group.Finset.Basic
import proofs.«406057_j79568564126007_2_alg».proof.Proof.LibRowOps

noncomputable section

namespace Cert.Gcn

open Idealize.ShloMosaic

abbrev c128 : EReal := Ideal.ofBits .f32 0x43000000#32
abbrev eps : EReal := Ideal.ofBits .f32 0x3727C5AC#32

def mean (y : Fin 128 → EReal) : EReal := Ideal.div (∑ k, y k) c128

def var (y : Fin 128 → EReal) : EReal := Ideal.div (∑ k, (y k - mean y) * (y k - mean y)) c128

def lnAff (y g be : Fin 128 → EReal) (j : Fin 128) : EReal :=
  (y j - mean y) * Ideal.rsqrt (var y + eps) * g j + be j

def embRow (x : Fin 64 → EReal) (W : Fin 64 → Fin 128 → EReal) (b g be : Fin 128 → EReal) (j : Fin 128) : EReal :=
  max (lnAff (fun j' => (∑ k, x k * W k j') + b j') g be j) 0

def linRow (h : Fin 128 → EReal) (W : Fin 128 → Fin 128 → EReal) (d : EReal) (j : Fin 128) : EReal :=
  (∑ k, h k * W k j) * d

def postRow (agg : Fin 128 → EReal) (d : EReal) (b g be hprev : Fin 128 → EReal) (j : Fin 128) : EReal :=
  max (lnAff (fun j' => agg j' * d + b j') g be j) 0 + hprev j

def postRowPre (agg : Fin 128 → EReal) (b g be hprev : Fin 128 → EReal) (j : Fin 128) : EReal :=
  max (lnAff (fun j' => agg j' + b j') g be j) 0 + hprev j

def readRow (p : Fin 128 → EReal) (W1 : Fin 128 → Fin 64 → EReal) (b1 : Fin 64 → EReal) (W2 : Fin 64 → Fin 12 → EReal)
    (b2 : Fin 12 → EReal) (j : Fin 12) : EReal :=
  (∑ k : Fin 64, max ((∑ q : Fin 128, p q * W1 q k) + b1 k) 0 * W2 k j) + b2 j

abbrev one32 : EReal := Ideal.ofBits .f32 0x3F800000#32
abbrev nan32 : EReal := Ideal.ofBits .f32 0x7FC00000#32

def withLoops (ei : Fin 800000 → BitVec 32) (e : Fin 850000) : BitVec 32 :=
  if h : e.val < 800000 then ei ⟨e.val, h⟩ else BitVec.ofNat 32 (e.val - 800000)

def wrapIdx (w : BitVec 32) : BitVec 32 := if w.toInt < 0 then w + 50000#32 else w

def rowOf (w : BitVec 32) : Fin 50000 := Cert.LibRowOps.clampRow 50000 (by decide) (wrapIdx w).toInt

def inTable (w : BitVec 32) : Prop := 0 ≤ (wrapIdx w).toInt ∧ (wrapIdx w).toInt ≤ 49999

instance (w : BitVec 32) : Decidable (inTable w) := by unfold inTable; infer_instance

def degOf (dst : Fin 850000 → BitVec 32) (i : Fin 50000) : EReal :=
  0 + ∑ e : Fin 850000, (if (dst e).toInt = (i.val : ℤ) then one32 else 0)

def scaleOf (deg : EReal) : EReal := if 0 < deg then Ideal.rsqrt deg else 0

def aggOf (dst : Fin 850000 → BitVec 32) (msg : Fin 850000 → Fin 128 → EReal) (i : Fin 50000) (j : Fin 128) : EReal :=
  0 + ∑ e : Fin 850000, (if (dst e).toInt = (i.val : ℤ) then msg e j else 0)

def takeRow (M : Fin 50000 → Fin 128 → EReal) (w : BitVec 32) (j : Fin 128) : EReal :=
  if inTable w then M (rowOf w) j else nan32

def poolOf (bid : Fin 50000 → BitVec 32) (h : Fin 50000 → Fin 128 → EReal) (g : Fin 512) (q : Fin 128) : EReal :=
  Ideal.div (0 + ∑ i : Fin 50000, (if (bid i).toInt = (g.val : ℤ) then h i q else 0))
    (max (0 + ∑ i : Fin 50000, (if (bid i).toInt = (g.val : ℤ) then one32 else 0)) one32)

theorem add_mul_nonneg (x y D : EReal) (h0 : 0 ≤ D) (ht : D ≠ ⊤) : (x + y) * D = x * D + y * D :=
  EReal.right_distrib_of_nonneg_of_ne_top h0 ht x y

theorem sum_mul_nonneg {ι : Type*} (s : Finset ι) (f : ι → EReal) (D : EReal) (h0 : 0 ≤ D) (ht : D ≠ ⊤) :
    (∑ e ∈ s, f e) * D = ∑ e ∈ s, f e * D := by
  classical
  induction s using Finset.induction_on with
  | empty => simp
  | insert a s ha ih => rw [Finset.sum_insert ha, Finset.sum_insert ha, add_mul_nonneg _ _ D h0 ht, ih]

theorem agg_scale {E : Type*} [Fintype E] (hit : E → Prop) [DecidablePred hit] (a ds : E → EReal) (D : EReal)
    (h0 : 0 ≤ D) (ht : D ≠ ⊤) :
    (0 + ∑ e, (if hit e then a e * ds e else 0)) * D = 0 + ∑ e, (if hit e then a e * (ds e * D) else 0) := by
  rw [zero_add, zero_add, sum_mul_nonneg _ _ D h0 ht]
  refine Finset.sum_congr rfl fun e _ => ?_
  split
  · rw [mul_assoc]
  · rw [zero_mul]

theorem rsqrt_of_pos (deg : EReal) (h : 0 < deg) : 0 ≤ Ideal.rsqrt deg ∧ Ideal.rsqrt deg ≠ ⊤ := by
  induction deg using EReal.rec with
  | bot => exact absurd h (by simp)
  | top => rw [Ideal.rsqrt_top]; exact ⟨le_refl _, EReal.zero_ne_top⟩
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

theorem scale_nonneg (deg : EReal) :
    0 ≤ (if 0 < deg then Ideal.rsqrt deg else 0) ∧ (if 0 < deg then Ideal.rsqrt deg else 0) ≠ ⊤ := by
  split
  · exact rsqrt_of_pos deg ‹_›
  · exact ⟨le_refl _, EReal.zero_ne_top⟩

end Cert.Gcn

end
-- ==== Proof.RegEmb.lean ====
import proofs.«406057_j79568564126007_2_alg».proof.Proof.Gen.KernelIdeal.Frame
import proofs.«406057_j79568564126007_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegEmb

open Idealize.ShloMosaic Idealize.ShloMosaic.TcCoe Idealize.ShloMosaic.ValueIdx Cert.KernelIdeal Cert.KernelIdeal.Gen

theorem mm_lhs_0 (i : S5000x128.Idx) (u : dot_S5000x64_S64x128_S5000x128_1_0_0_1_n_n.contr.Idx) :
    (dot_S5000x64_S64x128_S5000x128_1_0_0_1_n_n.lhsIdx i u 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem mm_lhs_1 (i : S5000x128.Idx) (u : dot_S5000x64_S64x128_S5000x128_1_0_0_1_n_n.contr.Idx) :
    (dot_S5000x64_S64x128_S5000x128_1_0_0_1_n_n.lhsIdx i u 1).val = (u ⟨0, by decide⟩).val :=
  dot_S5000x64_S64x128_S5000x128_1_0_0_1_n_n.lhsIdx_val_of_single rfl i u
theorem mm_rhs_0 (i : S5000x128.Idx) (u : dot_S5000x64_S64x128_S5000x128_1_0_0_1_n_n.contr.Idx) :
    (dot_S5000x64_S64x128_S5000x128_1_0_0_1_n_n.rhsIdx i u 0).val = (u ⟨0, by decide⟩).val :=
  dot_S5000x64_S64x128_S5000x128_1_0_0_1_n_n.rhsIdx_val_of_single rfl i u
theorem mm_rhs_1 (i : S5000x128.Idx) (u : dot_S5000x64_S64x128_S5000x128_1_0_0_1_n_n.contr.Idx) :
    (dot_S5000x64_S64x128_S5000x128_1_0_0_1_n_n.rhsIdx i u 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem mm_apply (a : FVec Ideal S5000x64 .bf16) (b : FVec Ideal S64x128 .bf16) (p : Fin 5000) (q : Fin 128) :
    matmul dot_S5000x64_S64x128_S5000x128_1_0_0_1_n_n none a b (constant (F := Ideal) S5000x128 .f32 0x00000000#32) (ix2 p q)
      = ∑ k : Fin 64, a (ix2 p k) * b (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun ax => Fin.ext (by
    match ax with
    | ⟨0, _⟩ => exact mm_lhs_0 _ _
    | ⟨1, _⟩ => exact (mm_lhs_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun ax => Fin.ext (by
    match ax with
    | ⟨0, _⟩ => exact (mm_rhs_0 _ _).trans hk
    | ⟨1, _⟩ => exact mm_rhs_1 _ _)
  rw [el, er]

theorem row_apply {α : Type} (v : S1x128.Idx → α) (h : S1x128.ShapeCasts S1x128) (h' : S1x128.Broadcasts S5000x128)
    (p : Fin 5000) (q : Fin 128) :
    broadcastTo S5000x128 (shapeCast S1x128 v h) h' (ix2 p q) = v (ix2 (0 : Fin 1) q) := by
  rw [shapeCast_self]
  exact broadcastTo_1b_ab_apply v h' p q

theorem col_apply {α : Type} (w : S5000x1.Idx → α) (h : S5000x1.Broadcasts S5000x128) (p : Fin 5000) (q : Fin 128) :
    broadcastTo S5000x128 w h (ix2 p q) = w (ix2 p (0 : Fin 1)) := by
  refine broadcastTo_apply w h (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

theorem keep_apply {α : Type} (v : S5000.Idx → α) (h : S5000.ShapeCasts S5000x1) (p : Fin 5000) :
    shapeCast S5000x1 v h (ix2 p (0 : Fin 1)) = v (ix1 p) :=
  shapeCast_apply v h _ _ (by
    rw [Shape.rowMajor_val_one, Shape.rowMajor_val_two]
    show p.val = p.val * 1 + 0
    omega)

theorem lane_sum_apply (src : FVec Ideal S5000x128 .f32) (h : S5000x128.Reduces [1] S5000) (hφ : FKind.Formats .f32)
    (hacc : (0x00000000#32 : BitVec FTy.f32.bits) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext ax
  apply Fin.ext
  match ax with
  | ⟨0, _⟩ => rfl
  | ⟨1, _⟩ => rfl

theorem rsqrt_apply {s : Shape} {φ : FTy} (a : FVec Ideal s φ) (i : s.Idx) : rsqrt a i = Ideal.rsqrt (a i) := rfl

theorem pay_apply (x0 : Vec Ideal S5000x64 .f32) (x1 : Vec Ideal S64x128 .f32) (x2 x3 x4 : Vec Ideal S1x128 .f32)
    (p : Fin 5000) (q : Fin 128) :
    k0_pay1 x0 x1 x2 x3 x4 (ix2 p q)
      = Cert.Gcn.embRow (fun k : Fin 64 => x0 (ix2 p k)) (fun (k : Fin 64) (j' : Fin 128) => x1 (ix2 k j'))
          (fun j' : Fin 128 => x2 (ix2 (0 : Fin 1) j')) (fun j' : Fin 128 => x3 (ix2 (0 : Fin 1) j'))
          (fun j' : Fin 128 => x4 (ix2 (0 : Fin 1) j')) q := by
  unfold k0_pay1
  simp only [maximumf_apply, addf_apply, mulf_apply, subf_apply, divf_apply, rsqrt_apply, broadcast_apply, col_apply,
    row_apply, keep_apply, mm_apply, truncf_apply]
  rw [lane_sum_apply, lane_sum_apply]
  simp only [maximumf_apply, addf_apply, mulf_apply, subf_apply, divf_apply, rsqrt_apply, broadcast_apply, col_apply,
    row_apply, keep_apply, mm_apply, truncf_apply]
  rw [lane_sum_apply]
  simp only [addf_apply, mm_apply, row_apply, truncf_apply]
  unfold Cert.Gcn.embRow Cert.Gcn.lnAff Cert.Gcn.var Cert.Gcn.mean
  exact congrArg (max _) Ideal.ofBits_zero_f32

theorem pay_at (x0 : Vec Ideal S5000x64 .f32) (x1 : Vec Ideal S64x128 .f32) (x2 x3 x4 : Vec Ideal S1x128 .f32)
    (j : S5000x128.Idx) :
    k0_pay1 x0 x1 x2 x3 x4 j
      = Cert.Gcn.embRow (fun k : Fin 64 => x0 (ix2 (⟨(j 0).val, idx2_lt0 j⟩ : Fin 5000) k))
          (fun (k : Fin 64) (j' : Fin 128) => x1 (ix2 k j'))
          (fun j' : Fin 128 => x2 (ix2 (0 : Fin 1) j')) (fun j' : Fin 128 => x3 (ix2 (0 : Fin 1) j'))
          (fun j' : Fin 128 => x4 (ix2 (0 : Fin 1) j')) (⟨(j 1).val, idx2_lt1 j⟩ : Fin 128) := by
  obtain ⟨p, q, rfl⟩ : ∃ (p : Fin 5000) (q : Fin 128), j = ix2 p q := ⟨j 0, j 1, eq_ix2 j⟩
  exact pay_apply x0 x1 x2 x3 x4 p q

section Blocks

variable (V : (c : Dev nD) → (b : Ref sig .tc) → Buf (Elt Ideal) ((c : Thread nD τ).loc b))

theorem zero_off : (![0, 0] : Fin 2 → Nat) = fun _ => 0 :=
  funext fun a => match a with | ⟨0, _⟩ => rfl | ⟨1, _⟩ => rfl

abbrev embAll (A : S50000x64.Idx → EReal) (W : S64x128.Idx → EReal) (b g be : S1x128.Idx → EReal) :
    S50000x128.Idx → EReal := fun i =>
  Cert.Gcn.embRow (fun k : Fin 64 => A (ix2 (⟨(i 0).val, idx2_lt0 i⟩ : Fin 50000) k))
    (fun (k : Fin 64) (j' : Fin 128) => W (ix2 k j'))
    (fun j' : Fin 128 => b (ix2 (0 : Fin 1) j')) (fun j' : Fin 128 => g (ix2 (0 : Fin 1) j'))
    (fun j' : Fin 128 => be (ix2 (0 : Fin 1) j')) (⟨(i 1).val, idx2_lt1 i⟩ : Fin 128)

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_apply (c : Dev nD) (t : Fin cfg0.N) (p : Fin 5000) (k : Fin 64) (r : Fin 50000)
    (hr : r.val = t.val * 5000 + p.val) :
    (iblk0 (F := Ideal) V c 0 t : Vec Ideal S5000x64 .f32) (ix2 p k) = V c main_arg0 (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

theorem blk1_apply (c : Dev nD) (t : Fin cfg0.N) (k : Fin 64) (j' : Fin 128) :
    (iblk0 (F := Ideal) V c 1 t : Vec Ideal S64x128 .f32) (ix2 k j') = V c main_arg3 (ix2 k j') := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * j'.val = j'.val; rw [e1]; omega

theorem blk2_apply (c : Dev nD) (t : Fin cfg0.N) (j' : Fin 128) :
    (iblk0 (F := Ideal) V c 2 t : Vec Ideal S1x128 .f32) (ix2 (0 : Fin 1) j') = V c main_v0 (ix2 (0 : Fin 1) j') := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * j'.val = j'.val; rw [e1]; omega
theorem blk3_apply (c : Dev nD) (t : Fin cfg0.N) (j' : Fin 128) :
    (iblk0 (F := Ideal) V c 3 t : Vec Ideal S1x128 .f32) (ix2 (0 : Fin 1) j') = V c main_v1 (ix2 (0 : Fin 1) j') := by
  obtain ⟨-, -, -, -, -, -, e0, e1, -⟩ := idx_facts t
  unfold iblk0
  rw [View.read_apply]
  show V c main_v1 _ = V c main_v1 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * j'.val = j'.val; rw [e1]; omega
theorem blk4_apply (c : Dev nD) (t : Fin cfg0.N) (j' : Fin 128) :
    (iblk0 (F := Ideal) V c 4 t : Vec Ideal S1x128 .f32) (ix2 (0 : Fin 1) j') = V c main_v2 (ix2 (0 : Fin 1) j') := by
  obtain ⟨-, -, -, -, -, -, -, -, e0, e1, -⟩ := idx_facts t
  unfold iblk0
  rw [View.read_apply]
  show V c main_v2 _ = V c main_v2 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * j'.val = j'.val; rw [e1]; omega

end Blocks

section Array

variable (V : (c : Dev nD) → (b : Ref sig .tc) → Buf (Elt Ideal) ((c : Thread nD τ).loc b))

theorem embRow_congr {x x' : Fin 64 → EReal} {W W' : Fin 64 → Fin 128 → EReal} {b b' g g' be be' : Fin 128 → EReal}
    {q q' : Fin 128} (hx : x = x') (hW : W = W') (hb : b = b') (hg : g = g') (hbe : be = be') (hq : q = q') :
    Cert.Gcn.embRow x W b g be q = Cert.Gcn.embRow x' W' b' g' be' q' := by
  subst hx hW hb hg hbe hq; rfl

theorem flushed_eq (c : Dev nD) (t : Fin cfg0.N) :
    (dat0 (F := Ideal) V c).flushed 5 t
      = ((cfg0.win 5).blk t).view.read (Elt Ideal)
          (embAll (V c main_arg0) (V c main_arg3) (V c main_v0) (V c main_v1) (V c main_v2)) := by
  show (cfg0.win 5).cut (grid0.coords t) ((dat0 (F := Ideal) V c).after 5 t) = _
  rw [after0_5]
  unfold out0_5
  rw [View.canon_unit_zero zero_off]
  simp only [View.ld_unit_zero (S := S5000x64) zero_off, View.ld_unit_zero (S := S64x128) zero_off,
    View.ld_unit_zero (S := S1x128) zero_off]
  obtain ⟨-, -, -, -, -, -, -, -, -, -, e0, e1⟩ := idx_facts t
  funext y
  have hy0 : (y 0).val < 5000 := (y 0).isLt
  have hy1 : (y 1).val < 128 := (y 1).isLt
  refine (pay_at (iblk0 (F := Ideal) V c 0 t) (iblk0 (F := Ideal) V c 1 t) (iblk0 (F := Ideal) V c 2 t)
    (iblk0 (F := Ideal) V c 3 t) (iblk0 (F := Ideal) V c 4 t) _).trans ?_
  show _ = embAll (V c main_arg0) (V c main_arg3) (V c main_v0) (V c main_v1) (V c main_v2) (((cfg0.win 5).blk t).view.emb y)
  refine embRow_congr (funext fun k => blk0_apply V c t _ k _ ?_) (funext fun k => funext fun j' => blk1_apply V c t k j')
    (funext fun j' => blk2_apply V c t j') (funext fun j' => blk3_apply V c t j') (funext fun j' => blk4_apply V c t j')
    (Fin.ext ?_)
  · show win0_5.index t (0 : Fin 2) * 5000 + 1 * (y 0).val = t.val * 5000 + (y 0).val
    rw [e0]; omega
  · show (y 1).val = win0_5.index t (1 : Fin 2) * 128 + 1 * (y 1).val
    rw [e1]; omega

theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v3).slice (win0_5.rect t)).set ↔ _
  rw [View.set_slice_whole, Rect.mem_set_unit]
  exact Iff.rfl

theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  obtain ⟨-, -, -, -, -, -, -, -, -, -, e0, e1⟩ := idx_facts ⟨(i 0).val / 5000, by rw [hN]; omega⟩
  rw [mem_blk]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

theorem final_all (c : Dev nD) :
    (dat0 (F := Ideal) V c).arrAt 5 cfg0.N
      = embAll (V c main_arg0) (V c main_arg3) (V c main_v0) (V c main_v1) (V c main_v2) :=
  (dat0 (F := Ideal) V c).arrAt_eq_of_cover 5 _ (fun t _ => flushed_eq V c t) cover

theorem final (c : Dev nD) (r : Fin 50000) (j : Fin 128) :
    (dat0 (F := Ideal) V c).arrAt 5 cfg0.N (ix2 r j)
      = Cert.Gcn.embRow (fun k : Fin 64 => V c main_arg0 (ix2 r k)) (fun (k : Fin 64) (j' : Fin 128) => V c main_arg3 (ix2 k j'))
          (fun j' : Fin 128 => V c main_v0 (ix2 0 j')) (fun j' : Fin 128 => V c main_v1 (ix2 0 j')) (fun j' : Fin 128 => V c main_v2 (ix2 0 j')) j := by
  rw [final_all]

end Array

end Cert.KernelIdeal.RegEmb

end
-- ==== Proof.RegLinOps.lean ====
import proofs.«406057_j79568564126007_2_alg».proof.Proof.Gen.KernelIdeal.Frame
import proofs.«406057_j79568564126007_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLinOps

open Idealize.ShloMosaic Idealize.ShloMosaic.TcCoe Idealize.ShloMosaic.ValueIdx Cert.KernelIdeal Cert.KernelIdeal.Gen
open Idealize.ShloMosaic.Pipeline (Dat)

theorem prod_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem prod_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem prod_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem prod_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem prod_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact prod_lhs_row _ _
    | ⟨1, _⟩ => exact (prod_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (prod_rhs_row _ _).trans hk
    | ⟨1, _⟩ => exact prod_rhs_col _ _)
  rw [el, er]

theorem col_spread_apply (v : S5000x1.Idx → EReal) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ => rfl

theorem linRow_congr {h h' : Fin 128 → EReal} {W W' : Fin 128 → Fin 128 → EReal} {d d' : EReal}
    (eh : ∀ k, h k = h' k) (eW : ∀ k j', W k j' = W' k j') (ed : d = d') (j : Fin 128) :
    Cert.Gcn.linRow h W d j = Cert.Gcn.linRow h' W' d' j := by
  rw [show h = h' from funext eh, show W = W' from funext fun k => funext (eW k), ed]

theorem hz : (![0, 0] : Fin 2 → Nat) = fun _ => 0 := funext fun a => by fin_cases a <;> rfl

end Cert.KernelIdeal.RegLinOps

end
-- ==== Proof.RegLin1.lean ====
import proofs.«406057_j79568564126007_2_alg».proof.Proof.Gen.KernelIdeal.Frame
import proofs.«406057_j79568564126007_2_alg».proof.Proof.Spec
import proofs.«406057_j79568564126007_2_alg».proof.Proof.RegLinOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLin1

open Idealize.ShloMosaic Idealize.ShloMosaic.TcCoe Idealize.ShloMosaic.ValueIdx Cert.KernelIdeal Cert.KernelIdeal.Gen
open Idealize.ShloMosaic.Pipeline (Dat)
open Cert.KernelIdeal.RegLinOps

theorem pay_apply (x0 : Vec Ideal S5000x128 .f32) (x1 : Vec Ideal S128x128 .f32) (x2 : Vec Ideal S5000x1 .f32)
    (p : Fin 5000) (q : Fin 128) :
    k1_pay1 (F := Ideal) x0 x1 x2 (ix2 p q)
      = Cert.Gcn.linRow (fun k : Fin 128 => x0 (ix2 p k)) (fun (k j' : Fin 128) => x1 (ix2 k j')) (x2 (ix2 p (0 : Fin 1))) q := by
  unfold k1_pay1
  simp only [shapeCast_self]
  rw [mulf_apply, prod_apply, col_spread_apply]
  rfl

variable (V : (c : Dev nD) → (b : Ref sig .tc) → Buf (Elt Ideal) ((c : Thread nD τ).loc b))

abbrev feat (c : Dev nD) : S50000x128.Idx → EReal := V c main_v3
abbrev wts (c : Dev nD) : S128x128.Idx → EReal := V c main_v21
abbrev deg (c : Dev nD) : S50000x1.Idx → EReal := V c main_v19

abbrev rowMap (c : Dev nD) : S50000x128.Idx → EReal := fun i =>
  Cert.Gcn.linRow (fun k : Fin 128 => feat V c (ix2 (i 0 : Fin 50000) k)) (fun (k j' : Fin 128) => wts V c (ix2 k j'))
    (deg V c (ix2 (i 0 : Fin 50000) (0 : Fin 1))) (i 1 : Fin 128)

theorem idx_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem feat_blk (c : Dev nD) (t : Fin cfg1.N) (p : Fin 5000) (k : Fin 128) (r : Fin 50000) (hr : r.val = t.val * 5000 + p.val) :
    (iblk1 (F := Ideal) V c 0 t : Vec Ideal S5000x128 .f32) (ix2 p k) = feat V c (ix2 r k) := by
  obtain ⟨e0, e1, -⟩ := idx_maps t
  show feat V c (((cfg1.win 0).blk t).view.emb (ix2 p k)) = feat V c (ix2 r k)
  refine congrArg (feat V c) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem wts_blk (c : Dev nD) (t : Fin cfg1.N) (k j' : Fin 128) :
    (iblk1 (F := Ideal) V c 1 t : Vec Ideal S128x128 .f32) (ix2 k j') = wts V c (ix2 k j') := by
  obtain ⟨-, -, e0, e1, -⟩ := idx_maps t
  show wts V c (((cfg1.win 1).blk t).view.emb (ix2 k j')) = wts V c (ix2 k j')
  refine congrArg (wts V c) (funext fun a => Fin.ext ?_)
  match a with
  | ⟨0, _⟩ => show win1_1.index t (0 : Fin 2) * 128 + 1 * k.val = k.val; omega
  | ⟨1, _⟩ => show win1_1.index t (1 : Fin 2) * 128 + 1 * j'.val = j'.val; omega

theorem deg_blk (c : Dev nD) (t : Fin cfg1.N) (p : Fin 5000) (r : Fin 50000) (hr : r.val = t.val * 5000 + p.val) :
    (iblk1 (F := Ideal) V c 2 t : Vec Ideal S5000x1 .f32) (ix2 p (0 : Fin 1)) = deg V c (ix2 r (0 : Fin 1)) := by
  obtain ⟨-, -, -, -, e0, e1, -⟩ := idx_maps t
  show deg V c (((cfg1.win 2).blk t).view.emb (ix2 p (0 : Fin 1))) = deg V c (ix2 r (0 : Fin 1))
  refine congrArg (deg V c) (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

theorem out_blk_emb (t : Fin cfg1.N) (p : Fin 5000) (q : Fin 128) (r : Fin 50000) (hr : r.val = t.val * 5000 + p.val) :
    ((cfg1.win 3).blk t).view.emb (ix2 p q) = (ix2 r q : S50000x128.Idx) := by
  obtain ⟨-, -, -, -, -, -, e0, e1⟩ := idx_maps t
  funext a; apply Fin.ext
  match a with
  | ⟨0, _⟩ => show win1_3.index t (0 : Fin 2) * 5000 + 1 * p.val = r.val; omega
  | ⟨1, _⟩ => show win1_3.index t (1 : Fin 2) * 128 + 1 * q.val = q.val; omega

theorem flushed_eq (c : Dev nD) (t : Fin cfg1.N) :
    (dat1 (F := Ideal) V c).flushed 3 t = ((cfg1.win 3).blk t).view.read (Elt Ideal) (rowMap V c) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 (n0 := 5000) (n1 := 128) j⟩
  have ht : t.val < 10 := Nat.lt_of_lt_of_eq t.isLt N_1
  have hp : p.val < 5000 := p.isLt
  obtain ⟨r, hr⟩ : ∃ r : Fin 50000, r.val = t.val * 5000 + p.val := ⟨⟨t.val * 5000 + p.val, by omega⟩, rfl⟩
  refine (pay_apply (iblk1 (F := Ideal) V c 0 t) (iblk1 (F := Ideal) V c 1 t) (iblk1 (F := Ideal) V c 2 t) p q).trans ?_
  refine Eq.trans ?_ (congrArg (rowMap V c) (out_blk_emb t p q r hr)).symm
  exact linRow_congr (fun k => feat_blk V c t p k r hr) (fun k j' => wts_blk V c t k j') (deg_blk V c t p r hr) q

theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v22).slice (win1_3.rect t)).set ↔ _
  rw [View.set_slice_whole, Rect.mem_set_unit]
  exact Iff.rfl

theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e0, e1⟩ := idx_maps t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

theorem final_arr (c : Dev nD) : (dat1 (F := Ideal) V c).arrAt 3 cfg1.N = rowMap V c :=
  (dat1 (F := Ideal) V c).arrAt_eq_of_cover 3 (rowMap V c) (fun t _ => flushed_eq V c t) cover

theorem final (c : Dev nD) (r : Fin 50000) (j : Fin 128) :
    (dat1 (F := Ideal) V c).arrAt 3 cfg1.N (ix2 r j)
      = Cert.Gcn.linRow (fun k : Fin 128 => V c main_v3 (ix2 r k)) (fun (k j' : Fin 128) => V c main_v21 (ix2 k j'))
          (V c main_v19 (ix2 r 0)) j :=
  congrFun (final_arr V c) (ix2 r j)

end Cert.KernelIdeal.RegLin1

end
-- ==== Proof.RegLin3.lean ====
import proofs.«406057_j79568564126007_2_alg».proof.Proof.Gen.KernelIdeal.Frame
import proofs.«406057_j79568564126007_2_alg».proof.Proof.Spec
import proofs.«406057_j79568564126007_2_alg».proof.Proof.RegLinOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLin3

open Idealize.ShloMosaic Idealize.ShloMosaic.TcCoe Idealize.ShloMosaic.ValueIdx Cert.KernelIdeal Cert.KernelIdeal.Gen
open Idealize.ShloMosaic.Pipeline (Dat)
open Cert.KernelIdeal.RegLinOps

theorem pay_apply (x0 : Vec Ideal S5000x128 .f32) (x1 : Vec Ideal S128x128 .f32) (x2 : Vec Ideal S5000x1 .f32)
    (p : Fin 5000) (q : Fin 128) :
    k3_pay1 (F := Ideal) x0 x1 x2 (ix2 p q)
      = Cert.Gcn.linRow (fun k : Fin 128 => x0 (ix2 p k)) (fun (k j' : Fin 128) => x1 (ix2 k j')) (x2 (ix2 p (0 : Fin 1))) q := by
  unfold k3_pay1
  simp only [shapeCast_self]
  rw [mulf_apply, prod_apply, col_spread_apply]
  rfl

variable (V : (c : Dev nD) → (b : Ref sig .tc) → Buf (Elt Ideal) ((c : Thread nD τ).loc b))

abbrev feat (c : Dev nD) : S50000x128.Idx → EReal := V c main_v36
abbrev wts (c : Dev nD) : S128x128.Idx → EReal := V c main_v38
abbrev deg (c : Dev nD) : S50000x1.Idx → EReal := V c main_v19

abbrev rowMap (c : Dev nD) : S50000x128.Idx → EReal := fun i =>
  Cert.Gcn.linRow (fun k : Fin 128 => feat V c (ix2 (i 0 : Fin 50000) k)) (fun (k j' : Fin 128) => wts V c (ix2 k j'))
    (deg V c (ix2 (i 0 : Fin 50000) (0 : Fin 1))) (i 1 : Fin 128)

theorem idx_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem feat_blk (c : Dev nD) (t : Fin cfg3.N) (p : Fin 5000) (k : Fin 128) (r : Fin 50000) (hr : r.val = t.val * 5000 + p.val) :
    (iblk3 (F := Ideal) V c 0 t : Vec Ideal S5000x128 .f32) (ix2 p k) = feat V c (ix2 r k) := by
  obtain ⟨e0, e1, -⟩ := idx_maps t
  show feat V c (((cfg3.win 0).blk t).view.emb (ix2 p k)) = feat V c (ix2 r k)
  refine congrArg (feat V c) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

theorem wts_blk (c : Dev nD) (t : Fin cfg3.N) (k j' : Fin 128) :
    (iblk3 (F := Ideal) V c 1 t : Vec Ideal S128x128 .f32) (ix2 k j') = wts V c (ix2 k j') := by
  obtain ⟨-, -, e0, e1, -⟩ := idx_maps t
  show wts V c (((cfg3.win 1).blk t).view.emb (ix2 k j')) = wts V c (ix2 k j')
  refine congrArg (wts V c) (funext fun a => Fin.ext ?_)
  match a with
  | ⟨0, _⟩ => show win3_1.index t (0 : Fin 2) * 128 + 1 * k.val = k.val; omega
  | ⟨1, _⟩ => show win3_1.index t (1 : Fin 2) * 128 + 1 * j'.val = j'.val; omega

theorem deg_blk (c : Dev nD) (t : Fin cfg3.N) (p : Fin 5000) (r : Fin 50000) (hr : r.val = t.val * 5000 + p.val) :
    (iblk3 (F := Ideal) V c 2 t : Vec Ideal S5000x1 .f32) (ix2 p (0 : Fin 1)) = deg V c (ix2 r (0 : Fin 1)) := by
  obtain ⟨-, -, -, -, e0, e1, -⟩ := idx_maps t
  show deg V c (((cfg3.win 2).blk t).view.emb (ix2 p (0 : Fin 1))) = deg V c (ix2 r (0 : Fin 1))
  refine congrArg (deg V c) (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

theorem out_blk_emb (t : Fin cfg3.N) (p : Fin 5000) (q : Fin 128) (r : Fin 50000) (hr : r.val = t.val * 5000 + p.val) :
    ((cfg3.win 3).blk t).view.emb (ix2 p q) = (ix2 r q : S50000x128.Idx) := by
  obtain ⟨-, -, -, -, -, -, e0, e1⟩ := idx_maps t
  funext a; apply Fin.ext
  match a with
  | ⟨0, _⟩ => show win3_3.index t (0 : Fin 2) * 5000 + 1 * p.val = r.val; omega
  | ⟨1, _⟩ => show win3_3.index t (1 : Fin 2) * 128 + 1 * q.val = q.val; omega

theorem flushed_eq (c : Dev nD) (t : Fin cfg3.N) :
    (dat3 (F := Ideal) V c).flushed 3 t = ((cfg3.win 3).blk t).view.read (Elt Ideal) (rowMap V c) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 (n0 := 5000) (n1 := 128) j⟩
  have ht : t.val < 10 := Nat.lt_of_lt_of_eq t.isLt N_3
  have hp : p.val < 5000 := p.isLt
  obtain ⟨r, hr⟩ : ∃ r : Fin 50000, r.val = t.val * 5000 + p.val := ⟨⟨t.val * 5000 + p.val, by omega⟩, rfl⟩
  refine (pay_apply (iblk3 (F := Ideal) V c 0 t) (iblk3 (F := Ideal) V c 1 t) (iblk3 (F := Ideal) V c 2 t) p q).trans ?_
  refine Eq.trans ?_ (congrArg (rowMap V c) (out_blk_emb t p q r hr)).symm
  exact linRow_congr (fun k => feat_blk V c t p k r hr) (fun k j' => wts_blk V c t k j') (deg_blk V c t p r hr) q

theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v39).slice (win3_3.rect t)).set ↔ _
  rw [View.set_slice_whole, Rect.mem_set_unit]
  exact Iff.rfl

theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, e0, e1⟩ := idx_maps t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

theorem final_arr (c : Dev nD) : (dat3 (F := Ideal) V c).arrAt 3 cfg3.N = rowMap V c :=
  (dat3 (F := Ideal) V c).arrAt_eq_of_cover 3 (rowMap V c) (fun t _ => flushed_eq V c t) cover

theorem final (c : Dev nD) (r : Fin 50000) (j : Fin 128) :
    (dat3 (F := Ideal) V c).arrAt 3 cfg3.N (ix2 r j)
      = Cert.Gcn.linRow (fun k : Fin 128 => V c main_v36 (ix2 r k)) (fun (k j' : Fin 128) => V c main_v38 (ix2 k j'))
          (V c main_v19 (ix2 r 0)) j :=
  congrFun (final_arr V c) (ix2 r j)

end Cert.KernelIdeal.RegLin3

end
-- ==== Proof.RegLin5.lean ====
import proofs.«406057_j79568564126007_2_alg».proof.Proof.Gen.KernelIdeal.Frame
import proofs.«406057_j79568564126007_2_alg».proof.Proof.Spec
import proofs.«406057_j79568564126007_2_alg».proof.Proof.RegLinOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegLin5

open Idealize.ShloMosaic Idealize.ShloMosaic.TcCoe Idealize.ShloMosaic.ValueIdx Cert.KernelIdeal Cert.KernelIdeal.Gen
open Idealize.ShloMosaic.Pipeline (Dat)
open Cert.KernelIdeal.RegLinOps

theorem pay_apply (x0 : Vec Ideal S5000x128 .f32) (x1 : Vec Ideal S128x128 .f32) (x2 : Vec Ideal S5000x1 .f32)
    (p : Fin 5000) (q : Fin 128) :
    k5_pay1 (F := Ideal) x0 x1 x2 (ix2 p q)
      = Cert.Gcn.linRow (fun k : Fin 128 => x0 (ix2 p k)) (fun (k j' : Fin 128) => x1 (ix2 k j')) (x2 (ix2 p (0 : Fin 1))) q := by
  unfold k5_pay1
  simp only [shapeCast_self]
  rw [mulf_apply, prod_apply, col_spread_apply]
  rfl

variable (V : (c : Dev nD) → (b : Ref sig .tc) → Buf (Elt Ideal) ((c : Thread nD τ).loc b))

abbrev feat (c : Dev nD) : S50000x128.Idx → EReal := V c main_v53
abbrev wts (c : Dev nD) : S128x128.Idx → EReal := V c main_v55
abbrev deg (c : Dev nD) : S50000x1.Idx → EReal := V c main_v19

abbrev rowMap (c : Dev nD) : S50000x128.Idx → EReal := fun i =>
  Cert.Gcn.linRow (fun k : Fin 128 => feat V c (ix2 (i 0 : Fin 50000) k)) (fun (k j' : Fin 128) => wts V c (ix2 k j'))
    (deg V c (ix2 (i 0 : Fin 50000) (0 : Fin 1))) (i 1 : Fin 128)

theorem idx_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

theorem feat_blk (c : Dev nD) (t : Fin cfg5.N) (p : Fin 5000) (k : Fin 128) (r : Fin 50000) (hr : r.val = t.val * 5000 + p.val) :
    (iblk5 (F := Ideal) V c 0 t : Vec Ideal S5000x128 .f32) (ix2 p k) = feat V c (ix2 r k) := by
  obtain ⟨e0, e1, -⟩ := idx_maps t
  show feat V c (((cfg5.win 0).blk t).view.emb (ix2 p k)) = feat V c (ix2 r k)
  refine congrArg (feat V c) (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

theorem wts_blk (c : Dev nD) (t : Fin cfg5.N) (k j' : Fin 128) :
    (iblk5 (F := Ideal) V c 1 t : Vec Ideal S128x128 .f32) (ix2 k j') = wts V c (ix2 k j') := by
  obtain ⟨-, -, e0, e1, -⟩ := idx_maps t
  show wts V c (((cfg5.win 1).blk t).view.emb (ix2 k j')) = wts V c (ix2 k j')
  refine congrArg (wts V c) (funext fun a => Fin.ext ?_)
  match a with
  | ⟨0, _⟩ => show win5_1.index t (0 : Fin 2) * 128 + 1 * k.val = k.val; omega
  | ⟨1, _⟩ => show win5_1.index t (1 : Fin 2) * 128 + 1 * j'.val = j'.val; omega

theorem deg_blk (c : Dev nD) (t : Fin cfg5.N) (p : Fin 5000) (r : Fin 50000) (hr : r.val = t.val * 5000 + p.val) :
    (iblk5 (F := Ideal) V c 2 t : Vec Ideal S5000x1 .f32) (ix2 p (0 : Fin 1)) = deg V c (ix2 r (0 : Fin 1)) := by
  obtain ⟨-, -, -, -, e0, e1, -⟩ := idx_maps t
  show deg V c (((cfg5.win 2).blk t).view.emb (ix2 p (0 : Fin 1))) = deg V c (ix2 r (0 : Fin 1))
  refine congrArg (deg V c) (funext fun a => Fin.ext ?_)
  match a with
  | ⟨0, _⟩ => show win5_2.index t (0 : Fin 2) * 5000 + 1 * p.val = r.val; omega
  | ⟨1, _⟩ => show win5_2.index t (1 : Fin 2) * 1 + 1 * 0 = 0; omega

theorem out_blk_emb (t : Fin cfg5.N) (p : Fin 5000) (q : Fin 128) (r : Fin 50000) (hr : r.val = t.val * 5000 + p.val) :
    ((cfg5.win 3).blk t).view.emb (ix2 p q) = (ix2 r q : S50000x128.Idx) := by
  obtain ⟨-, -, -, -, -, -, e0, e1⟩ := idx_maps t
  funext a; apply Fin.ext
  match a with
  | ⟨0, _⟩ => show win5_3.index t (0 : Fin 2) * 5000 + 1 * p.val = r.val; omega
  | ⟨1, _⟩ => show win5_3.index t (1 : Fin 2) * 128 + 1 * q.val = q.val; omega

theorem flushed_eq (c : Dev nD) (t : Fin cfg5.N) :
    (dat5 (F := Ideal) V c).flushed 3 t = ((cfg5.win 3).blk t).view.read (Elt Ideal) (rowMap V c) := by
  show (cfg5.win 3).cut (grid5.coords t) ((dat5 (F := Ideal) V c).after 3 t) = _
  rw [after5_3]
  unfold out5_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 (n0 := 5000) (n1 := 128) j⟩
  have ht : t.val < 10 := Nat.lt_of_lt_of_eq t.isLt N_5
  have hp : p.val < 5000 := p.isLt
  obtain ⟨r, hr⟩ : ∃ r : Fin 50000, r.val = t.val * 5000 + p.val := ⟨⟨t.val * 5000 + p.val, by omega⟩, rfl⟩
  refine (pay_apply (iblk5 (F := Ideal) V c 0 t) (iblk5 (F := Ideal) V c 1 t) (iblk5 (F := Ideal) V c 2 t) p q).trans ?_
  refine Eq.trans ?_ (congrArg (rowMap V c) (out_blk_emb t p q r hr)).symm
  exact linRow_congr (fun k => feat_blk V c t p k r hr) (fun k j' => wts_blk V c t k j') (deg_blk V c t p r hr) q

theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v56).slice (win5_3.rect t)).set ↔ _
  rw [View.set_slice_whole, Rect.mem_set_unit]
  exact Iff.rfl

theorem cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, -, -, e0, e1⟩ := idx_maps t
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

theorem final_arr (c : Dev nD) : (dat5 (F := Ideal) V c).arrAt 3 cfg5.N = rowMap V c :=
  (dat5 (F := Ideal) V c).arrAt_eq_of_cover 3 (rowMap V c) (fun t _ => flushed_eq V c t) cover

theorem final (c : Dev nD) (r : Fin 50000) (j : Fin 128) :
    (dat5 (F := Ideal) V c).arrAt 3 cfg5.N (ix2 r j)
      = Cert.Gcn.linRow (fun k : Fin 128 => V c main_v53 (ix2 r k)) (fun (k j' : Fin 128) => V c main_v55 (ix2 k j'))
          (V c main_v19 (ix2 r 0)) j :=
  congrFun (final_arr V c) (ix2 r j)

end Cert.KernelIdeal.RegLin5

end
-- ==== Proof.RegPostOps.lean ====
import proofs.«406057_j79568564126007_2_alg».proof.Proof.Gen.KernelIdeal.Frame
import proofs.«406057_j79568564126007_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPostOps

open Idealize.ShloMosaic Idealize.ShloMosaic.TcCoe Idealize.ShloMosaic.ValueIdx Cert.KernelIdeal Cert.KernelIdeal.Gen

theorem bcastCol_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem castCol_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem laneSum_apply (x : FVec Ideal S5000x128 .f32) (hφ : FTy.f32 = FTy.f32 ∨ FTy.f32 = FTy.bf16)
    (hacc : (0x00000000#32 : BitVec 32) = 0x00000000#32) (p : Fin 5000) :
    multiReduction .add [1] S5000 x 0x00000000#32 reduces_S5000x128_S5000 hφ hacc (ix1 p) = ∑ k : Fin 128, x (ix2 p k) := by
  refine (Ideal.multiReduction_add_single x 0x00000000#32 reduces_S5000x128_S5000 hφ hacc (ix1 p)).trans ?_
  show ∑ k : Fin 128, x (reduces_S5000x128_S5000.lift (ix1 p) k) = _
  refine Finset.sum_congr rfl fun k _ => congrArg x ?_
  funext ax; apply Fin.ext
  match ax with
  | ⟨0, _⟩ => rfl
  | ⟨1, _⟩ => rfl

theorem rsqrt_apply {s : Shape} {φ : FTy} (a : FVec Ideal s φ) (i : s.Idx) : rsqrt a i = Ideal.rsqrt (a i) := rfl

theorem zeroOff : (![0, 0] : Fin 2 → Nat) = fun _ => 0 :=
  funext fun a => match a with | ⟨0, _⟩ => rfl | ⟨1, _⟩ => rfl

end Cert.KernelIdeal.RegPostOps

end
-- ==== Proof.RegPost2.lean ====
import proofs.«406057_j79568564126007_2_alg».proof.Proof.Gen.KernelIdeal.Frame
import proofs.«406057_j79568564126007_2_alg».proof.Proof.Spec
import proofs.«406057_j79568564126007_2_alg».proof.Proof.RegPostOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPost2

open Idealize.ShloMosaic Idealize.ShloMosaic.TcCoe Idealize.ShloMosaic.ValueIdx Cert.KernelIdeal Cert.KernelIdeal.Gen
open Cert.KernelIdeal.RegPostOps

theorem pay_apply (x0 : Vec Ideal S5000x128 .f32) (x1 : Vec Ideal S5000x1 .f32) (x2 x3 x4 : Vec Ideal S1x128 .f32)
    (x5 : Vec Ideal S5000x128 .f32) (p : Fin 5000) (q : Fin 128) :
    k2_pay1 x0 x1 x2 x3 x4 x5 (ix2 p q)
      = Cert.Gcn.postRow (fun k => x0 (ix2 p k)) (x1 (ix2 p (0 : Fin 1))) (fun k => x2 (ix2 (0 : Fin 1) k))
          (fun k => x3 (ix2 (0 : Fin 1) k)) (fun k => x4 (ix2 (0 : Fin 1) k)) (fun k => x5 (ix2 p k)) q := by
  unfold k2_pay1
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  simp only [Cert.Gcn.postRow, Cert.Gcn.lnAff, Cert.Gcn.mean, Cert.Gcn.var]
  have h0 : FloatOps.ofBits (F := Ideal) FTy.f32 0x00000000#32 = (0 : EReal) := Ideal.ofBits_zero_f32
  rw [h0]
  rfl

variable (V : (c : Dev nD) → (b : Ref sig .tc) → Buf (Elt Ideal) ((c : Thread nD τ).loc b))

theorem idxFacts : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

def rowAt (t : Fin cfg2.N) (p : Fin 5000) : Fin 50000 :=
  ⟨t.val * 5000 + p.val, by have := (idxFacts t).1; have := p.isLt; omega⟩

theorem aggBlk_apply (c : Dev nD) (t : Fin cfg2.N) (p : Fin 5000) (k : Fin 128) :
    iblk2 (F := Ideal) V c 0 t (ix2 p k) = V c main_v26 (ix2 (rowAt t p) k) := by
  show V c main_v26 (((cfg2.win 0).blk t).view.emb (ix2 p k)) = V c main_v26 (ix2 (rowAt t p) k)
  refine congrArg (V c main_v26) ?_
  obtain ⟨-, e0, e1, -⟩ := idxFacts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem degBlk_apply (c : Dev nD) (t : Fin cfg2.N) (p : Fin 5000) :
    iblk2 (F := Ideal) V c 1 t (ix2 p (0 : Fin 1)) = V c main_v19 (ix2 (rowAt t p) (0 : Fin 1)) := by
  show V c main_v19 (((cfg2.win 1).blk t).view.emb (ix2 p (0 : Fin 1))) = V c main_v19 (ix2 (rowAt t p) (0 : Fin 1))
  refine congrArg (V c main_v19) ?_
  obtain ⟨-, -, -, e0, e1, -⟩ := idxFacts t
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

theorem biasBlk_apply (c : Dev nD) (t : Fin cfg2.N) (k : Fin 128) :
    iblk2 (F := Ideal) V c 2 t (ix2 (0 : Fin 1) k) = V c main_v33 (ix2 (0 : Fin 1) k) := by
  show V c main_v33 (((cfg2.win 2).blk t).view.emb (ix2 (0 : Fin 1) k)) = V c main_v33 (ix2 (0 : Fin 1) k)
  refine congrArg (V c main_v33) ?_
  obtain ⟨-, -, -, -, -, e0, e1, -⟩ := idxFacts t
  funext a; apply Fin.ext
  match a with
  | ⟨0, _⟩ => show win2_2.index t (0 : Fin 2) * 1 + 1 * 0 = 0; omega
  | ⟨1, _⟩ => show win2_2.index t (1 : Fin 2) * 128 + 1 * k.val = k.val; omega

theorem scaleBlk_apply (c : Dev nD) (t : Fin cfg2.N) (k : Fin 128) :
    iblk2 (F := Ideal) V c 3 t (ix2 (0 : Fin 1) k) = V c main_v34 (ix2 (0 : Fin 1) k) := by
  show V c main_v34 (((cfg2.win 3).blk t).view.emb (ix2 (0 : Fin 1) k)) = V c main_v34 (ix2 (0 : Fin 1) k)
  refine congrArg (V c main_v34) ?_
  obtain ⟨-, -, -, -, -, -, -, e0, e1, -⟩ := idxFacts t
  funext a; apply Fin.ext
  match a with
  | ⟨0, _⟩ => show win2_3.index t (0 : Fin 2) * 1 + 1 * 0 = 0; omega
  | ⟨1, _⟩ => show win2_3.index t (1 : Fin 2) * 128 + 1 * k.val = k.val; omega

theorem shiftBlk_apply (c : Dev nD) (t : Fin cfg2.N) (k : Fin 128) :
    iblk2 (F := Ideal) V c 4 t (ix2 (0 : Fin 1) k) = V c main_v35 (ix2 (0 : Fin 1) k) := by
  show V c main_v35 (((cfg2.win 4).blk t).view.emb (ix2 (0 : Fin 1) k)) = V c main_v35 (ix2 (0 : Fin 1) k)
  refine congrArg (V c main_v35) ?_
  obtain ⟨-, -, -, -, -, -, -, -, -, e0, e1, -⟩ := idxFacts t
  funext a; apply Fin.ext
  match a with
  | ⟨0, _⟩ => show win2_4.index t (0 : Fin 2) * 1 + 1 * 0 = 0; omega
  | ⟨1, _⟩ => show win2_4.index t (1 : Fin 2) * 128 + 1 * k.val = k.val; omega

theorem prevBlk_apply (c : Dev nD) (t : Fin cfg2.N) (p : Fin 5000) (k : Fin 128) :
    iblk2 (F := Ideal) V c 5 t (ix2 p k) = V c main_v3 (ix2 (rowAt t p) k) := by
  show V c main_v3 (((cfg2.win 5).blk t).view.emb (ix2 p k)) = V c main_v3 (ix2 (rowAt t p) k)
  refine congrArg (V c main_v3) ?_
  obtain ⟨-, -, -, -, -, -, -, -, -, -, -, e0, e1, -⟩ := idxFacts t
  funext a; apply Fin.ext
  match a with
  | ⟨0, _⟩ => show win2_5.index t (0 : Fin 2) * 5000 + 1 * p.val = t.val * 5000 + p.val; omega
  | ⟨1, _⟩ => show win2_5.index t (1 : Fin 2) * 128 + 1 * k.val = k.val; omega

theorem outEmb (t : Fin cfg2.N) (p : Fin 5000) (q : Fin 128) :
    ((cfg2.win 6).blk t).view.emb (ix2 p q) = ix2 (rowAt t p) q := by
  obtain ⟨-, -, -, -, -, -, -, -, -, -, -, -, -, e0, e1⟩ := idxFacts t
  funext a; apply Fin.ext
  match a with
  | ⟨0, _⟩ => show win2_6.index t (0 : Fin 2) * 5000 + 1 * p.val = t.val * 5000 + p.val; omega
  | ⟨1, _⟩ => show win2_6.index t (1 : Fin 2) * 128 + 1 * q.val = q.val; omega

def postArr (c : Dev nD) : Vec Ideal S50000x128 .f32 := fun i =>
  Cert.Gcn.postRow (fun k => V c main_v26 (ix2 (i 0 : Fin 50000) k)) (V c main_v19 (ix2 (i 0 : Fin 50000) (0 : Fin 1)))
    (fun k => V c main_v33 (ix2 (0 : Fin 1) k)) (fun k => V c main_v34 (ix2 (0 : Fin 1) k))
    (fun k => V c main_v35 (ix2 (0 : Fin 1) k)) (fun k => V c main_v3 (ix2 (i 0 : Fin 50000) k)) (i 1 : Fin 128)

theorem flushed_eq (c : Dev nD) (t : Fin cfg2.N) :
    (dat2 (F := Ideal) V c).flushed 6 t = ((cfg2.win 6).blk t).view.read (Elt Ideal) (postArr V c) := by
  show (cfg2.win 6).cut (grid2.coords t) ((dat2 (F := Ideal) V c).after 6 t) = _
  rw [after2_6]
  unfold out2_6
  rw [View.canon_unit_zero zeroOff]
  simp only [View.ld_unit_zero (S := S5000x128) zeroOff, View.ld_unit_zero (S := S5000x1) zeroOff, View.ld_unit_zero (S := S1x128) zeroOff]
  funext y
  obtain ⟨p, q, rfl⟩ : ∃ (p : Fin 5000) (q : Fin 128), y = ix2 p q := ⟨y 0, y 1, eq_ix2 y⟩
  show k2_pay1 (iblk2 (F := Ideal) V c 0 t) (iblk2 (F := Ideal) V c 1 t) (iblk2 (F := Ideal) V c 2 t)
      (iblk2 (F := Ideal) V c 3 t) (iblk2 (F := Ideal) V c 4 t) (iblk2 (F := Ideal) V c 5 t) (ix2 p q)
    = postArr V c (((cfg2.win 6).blk t).view.emb (ix2 p q))
  refine (pay_apply (iblk2 (F := Ideal) V c 0 t) (iblk2 (F := Ideal) V c 1 t) (iblk2 (F := Ideal) V c 2 t)
      (iblk2 (F := Ideal) V c 3 t) (iblk2 (F := Ideal) V c 4 t) (iblk2 (F := Ideal) V c 5 t) p q).trans ?_
  rw [outEmb t p q]
  show _ = Cert.Gcn.postRow (fun k => V c main_v26 (ix2 (rowAt t p) k)) (V c main_v19 (ix2 (rowAt t p) (0 : Fin 1)))
    (fun k => V c main_v33 (ix2 (0 : Fin 1) k)) (fun k => V c main_v34 (ix2 (0 : Fin 1) k))
    (fun k => V c main_v35 (ix2 (0 : Fin 1) k)) (fun k => V c main_v3 (ix2 (rowAt t p) k)) q
  rw [degBlk_apply V c t p, funext (aggBlk_apply V c t p), funext (biasBlk_apply V c t), funext (scaleBlk_apply V c t),
    funext (shiftBlk_apply V c t), funext (prevBlk_apply V c t p)]

theorem mem_outBlk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v36).slice (win2_6.rect t)).set ↔ _
  rw [View.set_slice_whole, Rect.mem_set_unit]
  exact Iff.rfl

theorem outCover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, -, -, -, -, -, e0, e1⟩ := idxFacts ⟨(i 0).val / 5000, hlt⟩
  refine ⟨⟨(i 0).val / 5000, hlt⟩, flush2_6 _, ?_⟩
  rw [mem_outBlk]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 128 ≤ (i 1).val
      ∧ (i 1).val < win2_6.index ⟨(i 0).val / 5000, hlt⟩ (1 : Fin 2) * 128 + 128
    rw [e1]; omega

theorem arr_eq (c : Dev nD) : (dat2 (F := Ideal) V c).arrAt 6 cfg2.N = postArr V c :=
  (dat2 (F := Ideal) V c).arrAt_eq_of_cover 6 (postArr V c) (fun t _ => flushed_eq V c t) outCover

theorem final (c : Dev nD) (r : Fin 50000) (j : Fin 128) :
    (dat2 (F := Ideal) V c).arrAt 6 cfg2.N (ix2 r j)
      = Cert.Gcn.postRow (fun j' : Fin 128 => V c main_v26 (ix2 r j')) (V c main_v19 (ix2 r 0)) (fun j' : Fin 128 => V c main_v33 (ix2 0 j'))
          (fun j' : Fin 128 => V c main_v34 (ix2 0 j')) (fun j' : Fin 128 => V c main_v35 (ix2 0 j')) (fun j' : Fin 128 => V c main_v3 (ix2 r j')) j := by
  rw [arr_eq V c]
  rfl

end Cert.KernelIdeal.RegPost2

end
-- ==== Proof.RegPost4.lean ====
import proofs.«406057_j79568564126007_2_alg».proof.Proof.Gen.KernelIdeal.Frame
import proofs.«406057_j79568564126007_2_alg».proof.Proof.Spec
import proofs.«406057_j79568564126007_2_alg».proof.Proof.RegPostOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPost4

open Idealize.ShloMosaic Idealize.ShloMosaic.TcCoe Idealize.ShloMosaic.ValueIdx Cert.KernelIdeal Cert.KernelIdeal.Gen
open Cert.KernelIdeal.RegPostOps

theorem pay_apply (x0 : Vec Ideal S5000x128 .f32) (x1 : Vec Ideal S5000x1 .f32) (x2 x3 x4 : Vec Ideal S1x128 .f32)
    (x5 : Vec Ideal S5000x128 .f32) (p : Fin 5000) (q : Fin 128) :
    k4_pay1 x0 x1 x2 x3 x4 x5 (ix2 p q)
      = Cert.Gcn.postRow (fun k => x0 (ix2 p k)) (x1 (ix2 p (0 : Fin 1))) (fun k => x2 (ix2 (0 : Fin 1) k))
          (fun k => x3 (ix2 (0 : Fin 1) k)) (fun k => x4 (ix2 (0 : Fin 1) k)) (fun k => x5 (ix2 p k)) q := by
  unfold k4_pay1
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  simp only [Cert.Gcn.postRow, Cert.Gcn.lnAff, Cert.Gcn.mean, Cert.Gcn.var]
  have h0 : FloatOps.ofBits (F := Ideal) FTy.f32 0x00000000#32 = (0 : EReal) := Ideal.ofBits_zero_f32
  rw [h0]
  rfl

variable (V : (c : Dev nD) → (b : Ref sig .tc) → Buf (Elt Ideal) ((c : Thread nD τ).loc b))

theorem idxFacts : ∀ t : Fin cfg4.N, t.val < 10
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

def rowAt (t : Fin cfg4.N) (p : Fin 5000) : Fin 50000 :=
  ⟨t.val * 5000 + p.val, by have := (idxFacts t).1; have := p.isLt; omega⟩

theorem aggBlk_apply (c : Dev nD) (t : Fin cfg4.N) (p : Fin 5000) (k : Fin 128) :
    iblk4 (F := Ideal) V c 0 t (ix2 p k) = V c main_v43 (ix2 (rowAt t p) k) := by
  show V c main_v43 (((cfg4.win 0).blk t).view.emb (ix2 p k)) = V c main_v43 (ix2 (rowAt t p) k)
  refine congrArg (V c main_v43) ?_
  obtain ⟨-, e0, e1, -⟩ := idxFacts t
  funext a; apply Fin.ext
  match a with
  | ⟨0, _⟩ => show win4_0.index t (0 : Fin 2) * 5000 + 1 * p.val = t.val * 5000 + p.val; omega
  | ⟨1, _⟩ => show win4_0.index t (1 : Fin 2) * 128 + 1 * k.val = k.val; omega

theorem degBlk_apply (c : Dev nD) (t : Fin cfg4.N) (p : Fin 5000) :
    iblk4 (F := Ideal) V c 1 t (ix2 p (0 : Fin 1)) = V c main_v19 (ix2 (rowAt t p) (0 : Fin 1)) := by
  show V c main_v19 (((cfg4.win 1).blk t).view.emb (ix2 p (0 : Fin 1))) = V c main_v19 (ix2 (rowAt t p) (0 : Fin 1))
  refine congrArg (V c main_v19) ?_
  obtain ⟨-, -, -, e0, e1, -⟩ := idxFacts t
  funext a; apply Fin.ext
  match a with
  | ⟨0, _⟩ => show win4_1.index t (0 : Fin 2) * 5000 + 1 * p.val = t.val * 5000 + p.val; omega
  | ⟨1, _⟩ => show win4_1.index t (1 : Fin 2) * 1 + 1 * 0 = 0; omega

theorem biasBlk_apply (c : Dev nD) (t : Fin cfg4.N) (k : Fin 128) :
    iblk4 (F := Ideal) V c 2 t (ix2 (0 : Fin 1) k) = V c main_v50 (ix2 (0 : Fin 1) k) := by
  show V c main_v50 (((cfg4.win 2).blk t).view.emb (ix2 (0 : Fin 1) k)) = V c main_v50 (ix2 (0 : Fin 1) k)
  refine congrArg (V c main_v50) ?_
  obtain ⟨-, -, -, -, -, e0, e1, -⟩ := idxFacts t
  funext a; apply Fin.ext
  match a with
  | ⟨0, _⟩ => show win4_2.index t (0 : Fin 2) * 1 + 1 * 0 = 0; omega
  | ⟨1, _⟩ => show win4_2.index t (1 : Fin 2) * 128 + 1 * k.val = k.val; omega

theorem scaleBlk_apply (c : Dev nD) (t : Fin cfg4.N) (k : Fin 128) :
    iblk4 (F := Ideal) V c 3 t (ix2 (0 : Fin 1) k) = V c main_v51 (ix2 (0 : Fin 1) k) := by
  show V c main_v51 (((cfg4.win 3).blk t).view.emb (ix2 (0 : Fin 1) k)) = V c main_v51 (ix2 (0 : Fin 1) k)
  refine congrArg (V c main_v51) ?_
  obtain ⟨-, -, -, -, -, -, -, e0, e1, -⟩ := idxFacts t
  funext a; apply Fin.ext
  match a with
  | ⟨0, _⟩ => show win4_3.index t (0 : Fin 2) * 1 + 1 * 0 = 0; omega
  | ⟨1, _⟩ => show win4_3.index t (1 : Fin 2) * 128 + 1 * k.val = k.val; omega

theorem shiftBlk_apply (c : Dev nD) (t : Fin cfg4.N) (k : Fin 128) :
    iblk4 (F := Ideal) V c 4 t (ix2 (0 : Fin 1) k) = V c main_v52 (ix2 (0 : Fin 1) k) := by
  show V c main_v52 (((cfg4.win 4).blk t).view.emb (ix2 (0 : Fin 1) k)) = V c main_v52 (ix2 (0 : Fin 1) k)
  refine congrArg (V c main_v52) ?_
  obtain ⟨-, -, -, -, -, -, -, -, -, e0, e1, -⟩ := idxFacts t
  funext a; apply Fin.ext
  match a with
  | ⟨0, _⟩ => show win4_4.index t (0 : Fin 2) * 1 + 1 * 0 = 0; omega
  | ⟨1, _⟩ => show win4_4.index t (1 : Fin 2) * 128 + 1 * k.val = k.val; omega

theorem prevBlk_apply (c : Dev nD) (t : Fin cfg4.N) (p : Fin 5000) (k : Fin 128) :
    iblk4 (F := Ideal) V c 5 t (ix2 p k) = V c main_v36 (ix2 (rowAt t p) k) := by
  show V c main_v36 (((cfg4.win 5).blk t).view.emb (ix2 p k)) = V c main_v36 (ix2 (rowAt t p) k)
  refine congrArg (V c main_v36) ?_
  obtain ⟨-, -, -, -, -, -, -, -, -, -, -, e0, e1, -⟩ := idxFacts t
  funext a; apply Fin.ext
  match a with
  | ⟨0, _⟩ => show win4_5.index t (0 : Fin 2) * 5000 + 1 * p.val = t.val * 5000 + p.val; omega
  | ⟨1, _⟩ => show win4_5.index t (1 : Fin 2) * 128 + 1 * k.val = k.val; omega

theorem outEmb (t : Fin cfg4.N) (p : Fin 5000) (q : Fin 128) :
    ((cfg4.win 6).blk t).view.emb (ix2 p q) = ix2 (rowAt t p) q := by
  obtain ⟨-, -, -, -, -, -, -, -, -, -, -, -, -, e0, e1⟩ := idxFacts t
  funext a; apply Fin.ext
  match a with
  | ⟨0, _⟩ => show win4_6.index t (0 : Fin 2) * 5000 + 1 * p.val = t.val * 5000 + p.val; omega
  | ⟨1, _⟩ => show win4_6.index t (1 : Fin 2) * 128 + 1 * q.val = q.val; omega

def postArr (c : Dev nD) : Vec Ideal S50000x128 .f32 := fun i =>
  Cert.Gcn.postRow (fun k => V c main_v43 (ix2 (i 0 : Fin 50000) k)) (V c main_v19 (ix2 (i 0 : Fin 50000) (0 : Fin 1)))
    (fun k => V c main_v50 (ix2 (0 : Fin 1) k)) (fun k => V c main_v51 (ix2 (0 : Fin 1) k))
    (fun k => V c main_v52 (ix2 (0 : Fin 1) k)) (fun k => V c main_v36 (ix2 (i 0 : Fin 50000) k)) (i 1 : Fin 128)

theorem flushed_eq (c : Dev nD) (t : Fin cfg4.N) :
    (dat4 (F := Ideal) V c).flushed 6 t = ((cfg4.win 6).blk t).view.read (Elt Ideal) (postArr V c) := by
  show (cfg4.win 6).cut (grid4.coords t) ((dat4 (F := Ideal) V c).after 6 t) = _
  rw [after4_6]
  unfold out4_6
  rw [View.canon_unit_zero zeroOff]
  simp only [View.ld_unit_zero (S := S5000x128) zeroOff, View.ld_unit_zero (S := S5000x1) zeroOff, View.ld_unit_zero (S := S1x128) zeroOff]
  funext y
  obtain ⟨p, q, rfl⟩ : ∃ (p : Fin 5000) (q : Fin 128), y = ix2 p q := ⟨y 0, y 1, eq_ix2 y⟩
  show k4_pay1 (iblk4 (F := Ideal) V c 0 t) (iblk4 (F := Ideal) V c 1 t) (iblk4 (F := Ideal) V c 2 t)
      (iblk4 (F := Ideal) V c 3 t) (iblk4 (F := Ideal) V c 4 t) (iblk4 (F := Ideal) V c 5 t) (ix2 p q)
    = postArr V c (((cfg4.win 6).blk t).view.emb (ix2 p q))
  refine (pay_apply (iblk4 (F := Ideal) V c 0 t) (iblk4 (F := Ideal) V c 1 t) (iblk4 (F := Ideal) V c 2 t)
      (iblk4 (F := Ideal) V c 3 t) (iblk4 (F := Ideal) V c 4 t) (iblk4 (F := Ideal) V c 5 t) p q).trans ?_
  rw [outEmb t p q]
  show _ = Cert.Gcn.postRow (fun k => V c main_v43 (ix2 (rowAt t p) k)) (V c main_v19 (ix2 (rowAt t p) (0 : Fin 1)))
    (fun k => V c main_v50 (ix2 (0 : Fin 1) k)) (fun k => V c main_v51 (ix2 (0 : Fin 1) k))
    (fun k => V c main_v52 (ix2 (0 : Fin 1) k)) (fun k => V c main_v36 (ix2 (rowAt t p) k)) q
  rw [degBlk_apply V c t p, funext (aggBlk_apply V c t p), funext (biasBlk_apply V c t), funext (scaleBlk_apply V c t),
    funext (shiftBlk_apply V c t), funext (prevBlk_apply V c t p)]

theorem mem_outBlk (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v53).slice (win4_6.rect t)).set ↔ _
  rw [View.set_slice_whole, Rect.mem_set_unit]
  exact Iff.rfl

theorem outCover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  have hlt : (i 0).val / 5000 < cfg4.N := by rw [hN]; omega
  obtain ⟨-, -, -, -, -, -, -, -, -, -, -, -, -, e0, e1⟩ := idxFacts ⟨(i 0).val / 5000, hlt⟩
  refine ⟨⟨(i 0).val / 5000, hlt⟩, flush4_6 _, ?_⟩
  rw [mem_outBlk]
  intro a
  match a with
  | ⟨0, _⟩ =>
    show win4_6.index ⟨(i 0).val / 5000, hlt⟩ (0 : Fin 2) * 5000 ≤ (i 0).val
      ∧ (i 0).val < win4_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_6.index ⟨(i 0).val / 5000, hlt⟩ (1 : Fin 2) * 128 ≤ (i 1).val
      ∧ (i 1).val < win4_6.index ⟨(i 0).val / 5000, hlt⟩ (1 : Fin 2) * 128 + 128
    rw [e1]; omega

theorem arr_eq (c : Dev nD) : (dat4 (F := Ideal) V c).arrAt 6 cfg4.N = postArr V c :=
  (dat4 (F := Ideal) V c).arrAt_eq_of_cover 6 (postArr V c) (fun t _ => flushed_eq V c t) outCover

theorem final (c : Dev nD) (r : Fin 50000) (j : Fin 128) :
    (dat4 (F := Ideal) V c).arrAt 6 cfg4.N (ix2 r j)
      = Cert.Gcn.postRow (fun j' : Fin 128 => V c main_v43 (ix2 r j')) (V c main_v19 (ix2 r 0)) (fun j' : Fin 128 => V c main_v50 (ix2 0 j'))
          (fun j' : Fin 128 => V c main_v51 (ix2 0 j')) (fun j' : Fin 128 => V c main_v52 (ix2 0 j')) (fun j' : Fin 128 => V c main_v36 (ix2 r j')) j := by
  rw [arr_eq V c]
  rfl

end Cert.KernelIdeal.RegPost4

end
-- ==== Proof.RegPost6.lean ====
import proofs.«406057_j79568564126007_2_alg».proof.Proof.Gen.KernelIdeal.Frame
import proofs.«406057_j79568564126007_2_alg».proof.Proof.Spec
import proofs.«406057_j79568564126007_2_alg».proof.Proof.RegPostOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegPost6

open Idealize.ShloMosaic Idealize.ShloMosaic.TcCoe Idealize.ShloMosaic.ValueIdx Cert.KernelIdeal Cert.KernelIdeal.Gen
open Cert.KernelIdeal.RegPostOps

theorem pay_apply (x0 : Vec Ideal S5000x128 .f32) (x1 : Vec Ideal S5000x1 .f32) (x2 x3 x4 : Vec Ideal S1x128 .f32)
    (x5 : Vec Ideal S5000x128 .f32) (p : Fin 5000) (q : Fin 128) :
    k6_pay1 x0 x1 x2 x3 x4 x5 (ix2 p q)
      = Cert.Gcn.postRow (fun k => x0 (ix2 p k)) (x1 (ix2 p (0 : Fin 1))) (fun k => x2 (ix2 (0 : Fin 1) k))
          (fun k => x3 (ix2 (0 : Fin 1) k)) (fun k => x4 (ix2 (0 : Fin 1) k)) (fun k => x5 (ix2 p k)) q := by
  unfold k6_pay1
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  rw [laneSum_apply]
  simp only [addf_apply, mulf_apply, subf_apply, divf_apply, maximumf_apply, broadcast_apply, rsqrt_apply,
    shapeCast_self, bcastCol_apply, broadcastTo_1b_ab_apply, castCol_apply]
  simp only [Cert.Gcn.postRow, Cert.Gcn.lnAff, Cert.Gcn.mean, Cert.Gcn.var]
  have h0 : FloatOps.ofBits (F := Ideal) FTy.f32 0x00000000#32 = (0 : EReal) := Ideal.ofBits_zero_f32
  rw [h0]
  rfl

variable (V : (c : Dev nD) → (b : Ref sig .tc) → Buf (Elt Ideal) ((c : Thread nD τ).loc b))

theorem idxFacts : ∀ t : Fin cfg6.N, t.val < 10
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

def rowAt (t : Fin cfg6.N) (p : Fin 5000) : Fin 50000 :=
  ⟨t.val * 5000 + p.val, by have := (idxFacts t).1; have := p.isLt; omega⟩

theorem aggBlk_apply (c : Dev nD) (t : Fin cfg6.N) (p : Fin 5000) (k : Fin 128) :
    iblk6 (F := Ideal) V c 0 t (ix2 p k) = V c main_v60 (ix2 (rowAt t p) k) := by
  show V c main_v60 (((cfg6.win 0).blk t).view.emb (ix2 p k)) = V c main_v60 (ix2 (rowAt t p) k)
  refine congrArg (V c main_v60) ?_
  obtain ⟨-, e0, e1, -⟩ := idxFacts t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

theorem degBlk_apply (c : Dev nD) (t : Fin cfg6.N) (p : Fin 5000) :
    iblk6 (F := Ideal) V c 1 t (ix2 p (0 : Fin 1)) = V c main_v19 (ix2 (rowAt t p) (0 : Fin 1)) := by
  show V c main_v19 (((cfg6.win 1).blk t).view.emb (ix2 p (0 : Fin 1))) = V c main_v19 (ix2 (rowAt t p) (0 : Fin 1))
  refine congrArg (V c main_v19) ?_
  obtain ⟨-, -, -, e0, e1, -⟩ := idxFacts t
  funext a; apply Fin.ext
  match a with
  | ⟨0, _⟩ => show win6_1.index t (0 : Fin 2) * 5000 + 1 * p.val = t.val * 5000 + p.val; omega
  | ⟨1, _⟩ => show win6_1.index t (1 : Fin 2) * 1 + 1 * 0 = 0; omega

theorem biasBlk_apply (c : Dev nD) (t : Fin cfg6.N) (k : Fin 128) :
    iblk6 (F := Ideal) V c 2 t (ix2 (0 : Fin 1) k) = V c main_v67 (ix2 (0 : Fin 1) k) := by
  show V c main_v67 (((cfg6.win 2).blk t).view.emb (ix2 (0 : Fin 1) k)) = V c main_v67 (ix2 (0 : Fin 1) k)
  refine congrArg (V c main_v67) ?_
  obtain ⟨-, -, -, -, -, e0, e1, -⟩ := idxFacts t
  funext a; apply Fin.ext
  match a with
  | ⟨0, _⟩ => show win6_2.index t (0 : Fin 2) * 1 + 1 * 0 = 0; omega
  | ⟨1, _⟩ => show win6_2.index t (1 : Fin 2) * 128 + 1 * k.val = k.val; omega

theorem scaleBlk_apply (c : Dev nD) (t : Fin cfg6.N) (k : Fin 128) :
    iblk6 (F := Ideal) V c 3 t (ix2 (0 : Fin 1) k) = V c main_v68 (ix2 (0 : Fin 1) k) := by
  show V c main_v68 (((cfg6.win 3).blk t).view.emb (ix2 (0 : Fin 1) k)) = V c main_v68 (ix2 (0 : Fin 1) k)
  refine congrArg (V c main_v68) ?_
  obtain ⟨-, -, -, -, -, -, -, e0, e1, -⟩ := idxFacts t
  funext a; apply Fin.ext
  match a with
  | ⟨0, _⟩ => show win6_3.index t (0 : Fin 2) * 1 + 1 * 0 = 0; omega
  | ⟨1, _⟩ => show win6_3.index t (1 : Fin 2) * 128 + 1 * k.val = k.val; omega

theorem shiftBlk_apply (c : Dev nD) (t : Fin cfg6.N) (k : Fin 128) :
    iblk6 (F := Ideal) V c 4 t (ix2 (0 : Fin 1) k) = V c main_v69 (ix2 (0 : Fin 1) k) := by
  show V c main_v69 (((cfg6.win 4).blk t).view.emb (ix2 (0 : Fin 1) k)) = V c main_v69 (ix2 (0 : Fin 1) k)
  refine congrArg (V c main_v69) ?_
  obtain ⟨-, -, -, -, -, -, -, -, -, e0, e1, -⟩ := idxFacts t
  funext a; apply Fin.ext
  match a with
  | ⟨0, _⟩ => show win6_4.index t (0 : Fin 2) * 1 + 1 * 0 = 0; omega
  | ⟨1, _⟩ => show win6_4.index t (1 : Fin 2) * 128 + 1 * k.val = k.val; omega

theorem prevBlk_apply (c : Dev nD) (t : Fin cfg6.N) (p : Fin 5000) (k : Fin 128) :
    iblk6 (F := Ideal) V c 5 t (ix2 p k) = V c main_v53 (ix2 (rowAt t p) k) := by
  show V c main_v53 (((cfg6.win 5).blk t).view.emb (ix2 p k)) = V c main_v53 (ix2 (rowAt t p) k)
  refine congrArg (V c main_v53) ?_
  obtain ⟨-, -, -, -, -, -, -, -, -, -, -, e0, e1, -⟩ := idxFacts t
  funext a; apply Fin.ext
  match a with
  | ⟨0, _⟩ => show win6_5.index t (0 : Fin 2) * 5000 + 1 * p.val = t.val * 5000 + p.val; omega
  | ⟨1, _⟩ => show win6_5.index t (1 : Fin 2) * 128 + 1 * k.val = k.val; omega

theorem outEmb (t : Fin cfg6.N) (p : Fin 5000) (q : Fin 128) :
    ((cfg6.win 6).blk t).view.emb (ix2 p q) = ix2 (rowAt t p) q := by
  obtain ⟨-, -, -, -, -, -, -, -, -, -, -, -, -, e0, e1⟩ := idxFacts t
  funext a; apply Fin.ext
  match a with
  | ⟨0, _⟩ => show win6_6.index t (0 : Fin 2) * 5000 + 1 * p.val = t.val * 5000 + p.val; omega
  | ⟨1, _⟩ => show win6_6.index t (1 : Fin 2) * 128 + 1 * q.val = q.val; omega

def postArr (c : Dev nD) : Vec Ideal S50000x128 .f32 := fun i =>
  Cert.Gcn.postRow (fun k => V c main_v60 (ix2 (i 0 : Fin 50000) k)) (V c main_v19 (ix2 (i 0 : Fin 50000) (0 : Fin 1)))
    (fun k => V c main_v67 (ix2 (0 : Fin 1) k)) (fun k => V c main_v68 (ix2 (0 : Fin 1) k))
    (fun k => V c main_v69 (ix2 (0 : Fin 1) k)) (fun k => V c main_v53 (ix2 (i 0 : Fin 50000) k)) (i 1 : Fin 128)

theorem flushed_eq (c : Dev nD) (t : Fin cfg6.N) :
    (dat6 (F := Ideal) V c).flushed 6 t = ((cfg6.win 6).blk t).view.read (Elt Ideal) (postArr V c) := by
  show (cfg6.win 6).cut (grid6.coords t) ((dat6 (F := Ideal) V c).after 6 t) = _
  rw [after6_6]
  unfold out6_6
  rw [View.canon_unit_zero zeroOff]
  simp only [View.ld_unit_zero (S := S5000x128) zeroOff, View.ld_unit_zero (S := S5000x1) zeroOff, View.ld_unit_zero (S := S1x128) zeroOff]
  funext y
  obtain ⟨p, q, rfl⟩ : ∃ (p : Fin 5000) (q : Fin 128), y = ix2 p q := ⟨y 0, y 1, eq_ix2 y⟩
  show k6_pay1 (iblk6 (F := Ideal) V c 0 t) (iblk6 (F := Ideal) V c 1 t) (iblk6 (F := Ideal) V c 2 t)
      (iblk6 (F := Ideal) V c 3 t) (iblk6 (F := Ideal) V c 4 t) (iblk6 (F := Ideal) V c 5 t) (ix2 p q)
    = postArr V c (((cfg6.win 6).blk t).view.emb (ix2 p q))
  refine (pay_apply (iblk6 (F := Ideal) V c 0 t) (iblk6 (F := Ideal) V c 1 t) (iblk6 (F := Ideal) V c 2 t)
      (iblk6 (F := Ideal) V c 3 t) (iblk6 (F := Ideal) V c 4 t) (iblk6 (F := Ideal) V c 5 t) p q).trans ?_
  rw [outEmb t p q]
  show _ = Cert.Gcn.postRow (fun k => V c main_v60 (ix2 (rowAt t p) k)) (V c main_v19 (ix2 (rowAt t p) (0 : Fin 1)))
    (fun k => V c main_v67 (ix2 (0 : Fin 1) k)) (fun k => V c main_v68 (ix2 (0 : Fin 1) k))
    (fun k => V c main_v69 (ix2 (0 : Fin 1) k)) (fun k => V c main_v53 (ix2 (rowAt t p) k)) q
  rw [degBlk_apply V c t p, funext (aggBlk_apply V c t p), funext (biasBlk_apply V c t), funext (scaleBlk_apply V c t),
    funext (shiftBlk_apply V c t), funext (prevBlk_apply V c t p)]

theorem mem_outBlk (t : Fin cfg6.N) (i : S50000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_v70).slice (win6_6.rect t)).set ↔ _
  rw [View.set_slice_whole, Rect.mem_set_unit]
  exact Iff.rfl

theorem outCover (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := N_6
  have hlt : (i 0).val / 5000 < cfg6.N := by rw [hN]; omega
  obtain ⟨-, -, -, -, -, -, -, -, -, -, -, -, -, e0, e1⟩ := idxFacts ⟨(i 0).val / 5000, hlt⟩
  refine ⟨⟨(i 0).val / 5000, hlt⟩, flush6_6 _, ?_⟩
  rw [mem_outBlk]
  intro a
  match a with
  | ⟨0, _⟩ =>
    show win6_6.index ⟨(i 0).val / 5000, hlt⟩ (0 : Fin 2) * 5000 ≤ (i 0).val
      ∧ (i 0).val < win6_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win6_6.index ⟨(i 0).val / 5000, hlt⟩ (1 : Fin 2) * 128 ≤ (i 1).val
      ∧ (i 1).val < win6_6.index ⟨(i 0).val / 5000, hlt⟩ (1 : Fin 2) * 128 + 128
    rw [e1]; omega

theorem arr_eq (c : Dev nD) : (dat6 (F := Ideal) V c).arrAt 6 cfg6.N = postArr V c :=
  (dat6 (F := Ideal) V c).arrAt_eq_of_cover 6 (postArr V c) (fun t _ => flushed_eq V c t) outCover

theorem final (c : Dev nD) (r : Fin 50000) (j : Fin 128) :
    (dat6 (F := Ideal) V c).arrAt 6 cfg6.N (ix2 r j)
      = Cert.Gcn.postRow (fun j' : Fin 128 => V c main_v60 (ix2 r j')) (V c main_v19 (ix2 r 0)) (fun j' : Fin 128 => V c main_v67 (ix2 0 j'))
          (fun j' : Fin 128 => V c main_v68 (ix2 0 j')) (fun j' : Fin 128 => V c main_v69 (ix2 0 j')) (fun j' : Fin 128 => V c main_v53 (ix2 r j')) j := by
  rw [arr_eq V c]
  rfl

end Cert.KernelIdeal.RegPost6

end
-- ==== Proof.RegRead.lean ====
import proofs.«406057_j79568564126007_2_alg».proof.Proof.Gen.KernelIdeal.Frame
import proofs.«406057_j79568564126007_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegRead

open Idealize.ShloMosaic Idealize.ShloMosaic.TcCoe Idealize.ShloMosaic.ValueIdx Cert.KernelIdeal Cert.KernelIdeal.Gen

theorem lhsA_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl

theorem lhsA_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q

theorem rhsA_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q

theorem rhsA_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

theorem mmA_apply (a : FVec Ideal S512x128 .bf16) (b : FVec Ideal S128x64 .bf16) (g : Fin 512) (k : Fin 64) :
    matmul dot_S512x128_S128x64_S512x64_1_0_0_1_n_n none a b (constant (F := Ideal) S512x64 .f32 0x00000000#32) (ix2 g k)
      = ∑ q : Fin 128, a (ix2 g q) * b (ix2 q k) := by
  simp only [matmul]
  rw [Ideal.matmul_constant_zero_apply, ← Equiv.sum_comp (ValueIdx.contrEquiv1 dot_S512x128_S128x64_S512x64_1_0_0_1_n_n 128 rfl rfl).symm]
  refine Finset.sum_congr rfl fun q _ => ?_
  have hq := ValueIdx.contrEquiv1_symm_val dot_S512x128_S128x64_S512x64_1_0_0_1_n_n 128 rfl rfl q
  have el : dot_S512x128_S128x64_S512x64_1_0_0_1_n_n.lhsIdx (ix2 g k) ((ValueIdx.contrEquiv1 dot_S512x128_S128x64_S512x64_1_0_0_1_n_n 128 rfl rfl).symm q) = ix2 g q := funext fun ax => Fin.ext (by
    match ax with
    | ⟨0, _⟩ => exact lhsA_0 _ _
    | ⟨1, _⟩ => exact (lhsA_1 _ _).trans hq)
  have er : dot_S512x128_S128x64_S512x64_1_0_0_1_n_n.rhsIdx (ix2 g k) ((ValueIdx.contrEquiv1 dot_S512x128_S128x64_S512x64_1_0_0_1_n_n 128 rfl rfl).symm q) = ix2 q k := funext fun ax => Fin.ext (by
    match ax with
    | ⟨0, _⟩ => exact (rhsA_0 _ _).trans hq
    | ⟨1, _⟩ => exact rhsA_1 _ _)
  rw [el, er]

theorem lhsB_0 (i : S512x12.Idx) (q : dot_S512x64_S64x12_S512x12_1_0_0_1_n_n.contr.Idx) :
    (dot_S512x64_S64x12_S512x12_1_0_0_1_n_n.lhsIdx i q 0).val = (i 0).val := by
  unfold DotDims.lhsIdx
  rw [dif_neg (show ¬(0 : Fin S512x64.rank) ∈ dot_S512x64_S64x12_S512x12_1_0_0_1_n_n.lhsBatch by decide), dif_pos (show (0 : Fin S512x64.rank) ∈ dot_S512x64_S64x12_S512x12_1_0_0_1_n_n.lhsNonContracting by decide)]
  rfl

theorem lhsB_1 (i : S512x12.Idx) (q : dot_S512x64_S64x12_S512x12_1_0_0_1_n_n.contr.Idx) :
    (dot_S512x64_S64x12_S512x12_1_0_0_1_n_n.lhsIdx i q 1).val = (q ⟨0, by decide⟩).val :=
  dot_S512x64_S64x12_S512x12_1_0_0_1_n_n.lhsIdx_val_of_single rfl i q

theorem rhsB_0 (i : S512x12.Idx) (q : dot_S512x64_S64x12_S512x12_1_0_0_1_n_n.contr.Idx) :
    (dot_S512x64_S64x12_S512x12_1_0_0_1_n_n.rhsIdx i q 0).val = (q ⟨0, by decide⟩).val :=
  dot_S512x64_S64x12_S512x12_1_0_0_1_n_n.rhsIdx_val_of_single rfl i q

theorem rhsB_1 (i : S512x12.Idx) (q : dot_S512x64_S64x12_S512x12_1_0_0_1_n_n.contr.Idx) :
    (dot_S512x64_S64x12_S512x12_1_0_0_1_n_n.rhsIdx i q 1).val = (i 1).val := by
  unfold DotDims.rhsIdx
  rw [dif_neg (show ¬(1 : Fin S64x12.rank) ∈ dot_S512x64_S64x12_S512x12_1_0_0_1_n_n.rhsBatch by decide), dif_pos (show (1 : Fin S64x12.rank) ∈ dot_S512x64_S64x12_S512x12_1_0_0_1_n_n.rhsNonContracting by decide)]
  rfl

theorem mmB_apply (a : FVec Ideal S512x64 .bf16) (b : FVec Ideal S64x12 .bf16) (g : Fin 512) (o : Fin 12) :
    matmul dot_S512x64_S64x12_S512x12_1_0_0_1_n_n none a b (constant (F := Ideal) S512x12 .f32 0x00000000#32) (ix2 g o)
      = ∑ k : Fin 64, a (ix2 g k) * b (ix2 k o) := by
  simp only [matmul]
  rw [Ideal.matmul_constant_zero_apply, ← Equiv.sum_comp (ValueIdx.contrEquiv1 dot_S512x64_S64x12_S512x12_1_0_0_1_n_n 64 rfl rfl).symm]
  refine Finset.sum_congr rfl fun k _ => ?_
  have hk := ValueIdx.contrEquiv1_symm_val dot_S512x64_S64x12_S512x12_1_0_0_1_n_n 64 rfl rfl k
  have el : dot_S512x64_S64x12_S512x12_1_0_0_1_n_n.lhsIdx (ix2 g o) ((ValueIdx.contrEquiv1 dot_S512x64_S64x12_S512x12_1_0_0_1_n_n 64 rfl rfl).symm k) = ix2 g k := funext fun ax => Fin.ext (by
    match ax with
    | ⟨0, _⟩ => exact lhsB_0 _ _
    | ⟨1, _⟩ => exact (lhsB_1 _ _).trans hk)
  have er : dot_S512x64_S64x12_S512x12_1_0_0_1_n_n.rhsIdx (ix2 g o) ((ValueIdx.contrEquiv1 dot_S512x64_S64x12_S512x12_1_0_0_1_n_n 64 rfl rfl).symm k) = ix2 k o := funext fun ax => Fin.ext (by
    match ax with
    | ⟨0, _⟩ => exact (rhsB_0 _ _).trans hk
    | ⟨1, _⟩ => exact rhsB_1 _ _)
  rw [el, er]

theorem pay_apply (x0 : Vec Ideal S512x128 .f32) (x1 : Vec Ideal S128x64 .f32) (x2 : Vec Ideal S1x64 .f32)
    (x3 : Vec Ideal S64x12 .f32) (x4 : Vec Ideal S1x12 .f32) (g : Fin 512) (o : Fin 12) :
    k7_pay1 (F := Ideal) x0 x1 x2 x3 x4 (ix2 g o)
      = Cert.Gcn.readRow (fun q : Fin 128 => x0 (ix2 g q)) (fun (q : Fin 128) (k : Fin 64) => x1 (ix2 q k))
          (fun k : Fin 64 => x2 (ix2 0 k)) (fun (k : Fin 64) (o' : Fin 12) => x3 (ix2 k o'))
          (fun o' : Fin 12 => x4 (ix2 0 o')) o := by
  unfold k7_pay1 Cert.Gcn.readRow
  dsimp only
  rw [addf_apply, mmB_apply, broadcastTo_1b_ab_apply]
  refine congrArg₂ (fun a b : EReal => a + b) (Finset.sum_congr rfl fun k _ => ?_) (by rw [shapeCast_self])
  rw [truncf_apply, truncf_apply, maximumf_apply, addf_apply, broadcast_apply, mmA_apply, broadcastTo_1b_ab_apply]
  simp only [shapeCast_self, truncf_apply, Ideal.ofBits_def, Ideal.ofBits_zero_f32]

variable (V : (c : Dev nD) → (b : Ref sig .tc) → Buf (Elt Ideal) ((c : Thread nD τ).loc b))

abbrev pooled (c : Dev nD) : Vec Ideal S512x128 .f32 := V c main_v82
abbrev weight1 (c : Dev nD) : Vec Ideal S128x64 .f32 := V c main_arg11
abbrev bias1 (c : Dev nD) : Vec Ideal S1x64 .f32 := V c main_v83
abbrev weight2 (c : Dev nD) : Vec Ideal S64x12 .f32 := V c main_arg13
abbrev bias2 (c : Dev nD) : Vec Ideal S1x12 .f32 := V c main_v84

abbrev pooledBlk (c : Dev nD) (t : Fin cfg7.N) : Vec Ideal S512x128 .f32 := iblk7 V c 0 t
abbrev weight1Blk (c : Dev nD) (t : Fin cfg7.N) : Vec Ideal S128x64 .f32 := iblk7 V c 1 t
abbrev bias1Blk (c : Dev nD) (t : Fin cfg7.N) : Vec Ideal S1x64 .f32 := iblk7 V c 2 t
abbrev weight2Blk (c : Dev nD) (t : Fin cfg7.N) : Vec Ideal S64x12 .f32 := iblk7 V c 3 t
abbrev bias2Blk (c : Dev nD) (t : Fin cfg7.N) : Vec Ideal S1x12 .f32 := iblk7 V c 4 t

abbrev readout (c : Dev nD) : S512x12.Idx → EReal := fun i =>
  Cert.Gcn.readRow (fun q : Fin 128 => pooled V c (ix2 (n0 := 512) (i 0) q)) (fun (q : Fin 128) (k : Fin 64) => weight1 V c (ix2 q k))
    (fun k : Fin 64 => bias1 V c (ix2 0 k)) (fun (k : Fin 64) (o' : Fin 12) => weight2 V c (ix2 k o'))
    (fun o' : Fin 12 => bias2 V c (ix2 0 o')) (i 1)

theorem offsets_zero : (![0, 0] : Fin 2 → Nat) = fun _ => 0 := funext fun a => by fin_cases a <;> rfl

theorem index_maps : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

theorem pooledBlk_apply (c : Dev nD) (t : Fin cfg7.N) (p : Fin 512) (q : Fin 128) :
    pooledBlk V c t (ix2 p q) = pooled V c (ix2 p q) := by
  show pooled V c (((cfg7.win 0).blk t).view.emb (ix2 p q)) = pooled V c (ix2 p q)
  obtain ⟨e0, e1, -⟩ := index_maps t
  refine congrArg (pooled V c) (funext fun a => Fin.ext ?_)
  match a with
  | ⟨0, _⟩ => show win7_0.index t (0 : Fin 2) * 512 + 1 * p.val = p.val; omega
  | ⟨1, _⟩ => show win7_0.index t (1 : Fin 2) * 128 + 1 * q.val = q.val; omega

theorem weight1Blk_apply (c : Dev nD) (t : Fin cfg7.N) (p : Fin 128) (q : Fin 64) :
    weight1Blk V c t (ix2 p q) = weight1 V c (ix2 p q) := by
  show weight1 V c (((cfg7.win 1).blk t).view.emb (ix2 p q)) = weight1 V c (ix2 p q)
  obtain ⟨-, -, e0, e1, -⟩ := index_maps t
  refine congrArg (weight1 V c) (funext fun a => Fin.ext ?_)
  match a with
  | ⟨0, _⟩ => show win7_1.index t (0 : Fin 2) * 128 + 1 * p.val = p.val; omega
  | ⟨1, _⟩ => show win7_1.index t (1 : Fin 2) * 64 + 1 * q.val = q.val; omega

theorem bias1Blk_apply (c : Dev nD) (t : Fin cfg7.N) (p : Fin 1) (q : Fin 64) :
    bias1Blk V c t (ix2 p q) = bias1 V c (ix2 p q) := by
  show bias1 V c (((cfg7.win 2).blk t).view.emb (ix2 p q)) = bias1 V c (ix2 p q)
  obtain ⟨-, -, -, -, e0, e1, -⟩ := index_maps t
  refine congrArg (bias1 V c) (funext fun a => Fin.ext ?_)
  match a with
  | ⟨0, _⟩ => show win7_2.index t (0 : Fin 2) * 1 + 1 * p.val = p.val; omega
  | ⟨1, _⟩ => show win7_2.index t (1 : Fin 2) * 64 + 1 * q.val = q.val; omega

theorem weight2Blk_apply (c : Dev nD) (t : Fin cfg7.N) (p : Fin 64) (q : Fin 12) :
    weight2Blk V c t (ix2 p q) = weight2 V c (ix2 p q) := by
  show weight2 V c (((cfg7.win 3).blk t).view.emb (ix2 p q)) = weight2 V c (ix2 p q)
  obtain ⟨-, -, -, -, -, -, e0, e1, -⟩ := index_maps t
  refine congrArg (weight2 V c) (funext fun a => Fin.ext ?_)
  match a with
  | ⟨0, _⟩ => show win7_3.index t (0 : Fin 2) * 64 + 1 * p.val = p.val; omega
  | ⟨1, _⟩ => show win7_3.index t (1 : Fin 2) * 12 + 1 * q.val = q.val; omega

theorem bias2Blk_apply (c : Dev nD) (t : Fin cfg7.N) (p : Fin 1) (q : Fin 12) :
    bias2Blk V c t (ix2 p q) = bias2 V c (ix2 p q) := by
  show bias2 V c (((cfg7.win 4).blk t).view.emb (ix2 p q)) = bias2 V c (ix2 p q)
  obtain ⟨-, -, -, -, -, -, -, -, e0, e1, -⟩ := index_maps t
  refine congrArg (bias2 V c) (funext fun a => Fin.ext ?_)
  match a with
  | ⟨0, _⟩ => show win7_4.index t (0 : Fin 2) * 1 + 1 * p.val = p.val; omega
  | ⟨1, _⟩ => show win7_4.index t (1 : Fin 2) * 12 + 1 * q.val = q.val; omega

theorem outBlk_emb (t : Fin cfg7.N) (p : Fin 512) (q : Fin 12) :
    ((cfg7.win 5).blk t).view.emb (ix2 p q) = ix2 p q := by
  obtain ⟨-, -, -, -, -, -, -, -, -, -, e0, e1⟩ := index_maps t
  funext a; apply Fin.ext
  match a with
  | ⟨0, _⟩ => show win7_5.index t (0 : Fin 2) * 512 + 1 * p.val = p.val; omega
  | ⟨1, _⟩ => show win7_5.index t (1 : Fin 2) * 12 + 1 * q.val = q.val; omega

theorem flushed_eq (c : Dev nD) (t : Fin cfg7.N) :
    (dat7 V c).flushed 5 t = ((cfg7.win 5).blk t).view.read (Elt Ideal) (readout V c) := by
  show (cfg7.win 5).cut (grid7.coords t) ((dat7 V c).after 5 t) = _
  rw [after7_5]
  unfold out7_5
  rw [View.canon_unit_zero offsets_zero]
  simp only [View.ld_unit_zero (S := S512x128) offsets_zero, View.ld_unit_zero (S := S128x64) offsets_zero,
    View.ld_unit_zero (S := S1x64) offsets_zero, View.ld_unit_zero (S := S64x12) offsets_zero,
    View.ld_unit_zero (S := S1x12) offsets_zero]
  funext j
  obtain ⟨p, q, rfl⟩ : ∃ (p : Fin 512) (q : Fin 12), j = ix2 p q := ⟨j 0, j 1, eq_ix2 j⟩
  show k7_pay1 (F := Ideal) (pooledBlk V c t) (weight1Blk V c t) (bias1Blk V c t) (weight2Blk V c t) (bias2Blk V c t) (ix2 p q)
    = readout V c (((cfg7.win 5).blk t).view.emb (ix2 p q))
  refine (pay_apply (pooledBlk V c t) (weight1Blk V c t) (bias1Blk V c t) (weight2Blk V c t) (bias2Blk V c t) p q).trans ?_
  rw [outBlk_emb t p q]
  have e0 : (fun q' : Fin 128 => pooledBlk V c t (ix2 p q')) = fun q' => pooled V c (ix2 p q') :=
    funext fun q' => pooledBlk_apply V c t p q'
  have e1 : (fun (q' : Fin 128) (k : Fin 64) => weight1Blk V c t (ix2 q' k)) = fun q' k => weight1 V c (ix2 q' k) :=
    funext fun q' => funext fun k => weight1Blk_apply V c t q' k
  have e2 : (fun k : Fin 64 => bias1Blk V c t (ix2 0 k)) = fun k => bias1 V c (ix2 0 k) :=
    funext fun k => bias1Blk_apply V c t 0 k
  have e3 : (fun (k : Fin 64) (o' : Fin 12) => weight2Blk V c t (ix2 k o')) = fun k o' => weight2 V c (ix2 k o') :=
    funext fun k => funext fun o' => weight2Blk_apply V c t k o'
  have e4 : (fun o' : Fin 12 => bias2Blk V c t (ix2 0 o')) = fun o' => bias2 V c (ix2 0 o') :=
    funext fun o' => bias2Blk_apply V c t 0 o'
  rw [e0, e1, e2, e3, e4]

theorem mem_outBlk (t : Fin cfg7.N) (i : S512x12.Idx) :
    i ∈ ((cfg7.win 5).blk t).view.set ↔ ∀ a : Fin 2, win7_5.index t a * S512x12.size a ≤ (i a).val ∧ (i a).val < win7_5.index t a * S512x12.size a + S512x12.size a := by
  show i ∈ ((View.whole main_v85).slice (win7_5.rect t)).set ↔ _
  rw [View.set_slice_whole, Rect.mem_set_unit]
  exact Iff.rfl

theorem covered (i : S512x12.Idx) :
    ∃ t : Fin cfg7.N, (cfg7.win 5).flush t = true ∧ i ∈ ((cfg7.win 5).blk t).view.set := by
  refine ⟨t7_0, flush7_5 t7_0, ?_⟩
  rw [mem_outBlk]
  obtain ⟨-, -, -, -, -, -, -, -, -, -, e0, e1⟩ := index_maps t7_0
  have h0 : (i 0).val < 512 := idx2_lt0 i
  have h1 : (i 1).val < 12 := idx2_lt1 i
  intro a
  match a with
  | ⟨0, _⟩ => show win7_5.index t7_0 (0 : Fin 2) * 512 ≤ (i 0).val ∧ (i 0).val < win7_5.index t7_0 (0 : Fin 2) * 512 + 512; omega
  | ⟨1, _⟩ => show win7_5.index t7_0 (1 : Fin 2) * 12 ≤ (i 1).val ∧ (i 1).val < win7_5.index t7_0 (1 : Fin 2) * 12 + 12; omega

theorem final (c : Dev nD) (g : Fin 512) (o : Fin 12) :
    (dat7 (F := Ideal) V c).arrAt 5 cfg7.N (ix2 g o)
      = Cert.Gcn.readRow (fun q : Fin 128 => V c main_v82 (ix2 g q)) (fun (q : Fin 128) (k : Fin 64) => V c main_arg11 (ix2 q k))
          (fun k : Fin 64 => V c main_v83 (ix2 0 k)) (fun (k : Fin 64) (o' : Fin 12) => V c main_arg13 (ix2 k o'))
          (fun o' : Fin 12 => V c main_v84 (ix2 0 o')) o :=
  congrFun ((dat7 V c).arrAt_eq_of_cover 5 (readout V c) (fun t _ => flushed_eq V c t) covered) (ix2 g o)

end Cert.KernelIdeal.RegRead

end
-- ==== Proof.KHostA.lean ====
import proofs.«406057_j79568564126007_2_alg».proof.Proof.Gen.KernelIdeal.Launch
import proofs.«406057_j79568564126007_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.PureOps.Ideal.Laws

set_option maxRecDepth 16384

noncomputable section

namespace Cert.KernelIdeal.HostA

open Idealize.ShloMosaic Idealize.ShloMosaic.ValueIdx Idealize.ShloMosaic.StableHlo
open Cert.KernelIdeal Cert.KernelIdeal.Gen

theorem v0_apply (W : Valuation τ sig (Elt Ideal)) (j : Fin 128) :
    StableHlo.after hostOps0 W (Proc.devRef .tc main_v0) (ix2 0 j) = W (Proc.devRef .tc main_arg4) (ix1 j) := by
  have e : (StableHlo.after hostOps0 W (Proc.devRef .tc main_v0) : S1x128.Idx → EReal)
      = shapeCast S1x128 (W (Proc.devRef .tc main_arg4) : S128.Idx → EReal) shapeCasts_S128_S1x128 := by
    after_results; rfl
  exact (congrFun e (ix2 0 j)).trans (shapeCast_a_1a_apply _ _ 0 j)

theorem v1_apply (W : Valuation τ sig (Elt Ideal)) (j : Fin 128) :
    StableHlo.after hostOps0 W (Proc.devRef .tc main_v1) (ix2 0 j) = W (Proc.devRef .tc main_arg5) (ix1 j) := by
  have e : (StableHlo.after hostOps0 W (Proc.devRef .tc main_v1) : S1x128.Idx → EReal)
      = shapeCast S1x128 (W (Proc.devRef .tc main_arg5) : S128.Idx → EReal) shapeCasts_S128_S1x128 := by
    after_results; rfl
  exact (congrFun e (ix2 0 j)).trans (shapeCast_a_1a_apply _ _ 0 j)

theorem v2_apply (W : Valuation τ sig (Elt Ideal)) (j : Fin 128) :
    StableHlo.after hostOps0 W (Proc.devRef .tc main_v2) (ix2 0 j) = W (Proc.devRef .tc main_arg6) (ix1 j) := by
  have e : (StableHlo.after hostOps0 W (Proc.devRef .tc main_v2) : S1x128.Idx → EReal)
      = shapeCast S1x128 (W (Proc.devRef .tc main_arg6) : S128.Idx → EReal) shapeCasts_S128_S1x128 := by
    after_results; rfl
  exact (congrFun e (ix2 0 j)).trans (shapeCast_a_1a_apply _ _ 0 j)

theorem slab_apply (X : S3x128x128.Idx → EReal) (l : Fin 3) (off : Fin 3 → Nat) (hoff : off = ![l.val, 0, 0])
    (hs : S3x128x128.Slices off S1x128x128) (hc : S1x128x128.ShapeCasts S128x128) (k j : Fin 128) :
    shapeCast S128x128 (extractStridedSlice S1x128x128 off X hs) hc (ix2 k j) = X (ix3 l k j) := by
  subst hoff
  refine (shapeCast_1ab_ab_apply _ hc k j).trans ?_
  refine extractStridedSlice_apply _ X hs _ _ fun a => ?_
  match a with
  | ⟨0, _⟩ => rfl
  | ⟨1, _⟩ => exact (Nat.zero_add _).symm
  | ⟨2, _⟩ => exact (Nat.zero_add _).symm

theorem wc1_apply (W : Valuation τ sig (Elt Ideal)) (k j : Fin 128) :
    StableHlo.after hostOps3 W (Proc.devRef .tc main_v38) (ix2 k j) = W (Proc.devRef .tc main_arg7) (ix3 1 k j) := by
  have e : (StableHlo.after hostOps3 W (Proc.devRef .tc main_v38) : S128x128.Idx → EReal)
      = shapeCast S128x128 (extractStridedSlice S1x128x128 ![1, 0, 0] (W (Proc.devRef .tc main_arg7) : S3x128x128.Idx → EReal)
          slices_S3x128x128_S1x128x128_1_0_0) shapeCasts_S1x128x128_S128x128 := by
    after_results; rfl
  exact (congrFun e (ix2 k j)).trans (slab_apply _ 1 _ rfl _ _ k j)

theorem wc2_apply (W : Valuation τ sig (Elt Ideal)) (k j : Fin 128) :
    StableHlo.after hostOps5 W (Proc.devRef .tc main_v55) (ix2 k j) = W (Proc.devRef .tc main_arg7) (ix3 2 k j) := by
  have e : (StableHlo.after hostOps5 W (Proc.devRef .tc main_v55) : S128x128.Idx → EReal)
      = shapeCast S128x128 (extractStridedSlice S1x128x128 ![2, 0, 0] (W (Proc.devRef .tc main_arg7) : S3x128x128.Idx → EReal)
          slices_S3x128x128_S1x128x128_2_0_0) shapeCasts_S1x128x128_S128x128 := by
    after_results; rfl
  exact (congrFun e (ix2 k j)).trans (slab_apply _ 2 _ rfl _ _ k j)

abbrev A1 (W : Valuation τ sig (Elt Ideal)) : Valuation τ sig (Elt Ideal) :=
  StableHlo.after hostOps1_2 (StableHlo.after hostOps1_1 (StableHlo.after hostOps1 W))

theorem wc0_apply (W : Valuation τ sig (Elt Ideal)) (k j : Fin 128) :
    A1 W (Proc.devRef .tc main_v21) (ix2 k j) = W (Proc.devRef .tc main_arg7) (ix3 0 k j) := by
  have e : (A1 W (Proc.devRef .tc main_v21) : S128x128.Idx → EReal)
      = shapeCast S128x128 (extractStridedSlice S1x128x128 ![0, 0, 0] (W (Proc.devRef .tc main_arg7) : S3x128x128.Idx → EReal)
          slices_S3x128x128_S1x128x128_0_0_0) shapeCasts_S1x128x128_S128x128 := by
    after_results; rfl
  exact (congrFun e (ix2 k j)).trans (slab_apply _ 0 _ rfl _ _ k j)

theorem src_term (W : Valuation τ sig (Elt Ideal)) :
    (A1 W (Proc.devRef .tc main_v7) : S850000.Idx → BitVec 32)
      = concatenate S850000 0
          [⟨S800000, shapeCast S800000 (extractStridedSlice S1x800000 ![0, 0] (W (Proc.devRef .tc main_arg1) : S2x800000.Idx → BitVec 32)
              slices_S2x800000_S1x800000_0_0) shapeCasts_S1x800000_S800000⟩,
           ⟨S50000, iotaInDim S50000 32 0⟩] concatenates_S800000_S50000_S850000_d0 := by
  after_results; rfl

theorem dst_term (W : Valuation τ sig (Elt Ideal)) :
    (A1 W (Proc.devRef .tc main_v10) : S850000.Idx → BitVec 32)
      = concatenate S850000 0
          [⟨S800000, shapeCast S800000 (extractStridedSlice S1x800000 ![1, 0] (W (Proc.devRef .tc main_arg1) : S2x800000.Idx → BitVec 32)
              slices_S2x800000_S1x800000_1_0) shapeCasts_S1x800000_S800000⟩,
           ⟨S50000, iotaInDim S50000 32 0⟩] concatenates_S800000_S50000_S850000_d0 := by
  after_results; rfl

theorem loops_apply (X : S2x800000.Idx → BitVec 32) (r : Fin 2) (off : Fin 2 → Nat) (hoff : off = ![r.val, 0])
    (hs : S2x800000.Slices off S1x800000) (hc : S1x800000.ShapeCasts S800000)
    (hcat : Shape.Concatenates [S800000, S50000] S850000 0) (e : Fin 850000) :
    concatenate S850000 0 [⟨S800000, shapeCast S800000 (extractStridedSlice S1x800000 off X hs) hc⟩,
        ⟨S50000, iotaInDim S50000 32 0⟩] hcat (ix1 e)
      = Cert.Gcn.withLoops (fun e' : Fin 800000 => X (ix2 r e')) e := by
  subst hoff
  unfold Cert.Gcn.withLoops
  split
  · rename_i h
    refine (concatenate_pair_apply_left (t := S850000) (s₁ := S800000) (s₂ := S50000) (0 : Fin 1) _ _ hcat (ix1 e) rfl (ix1 (⟨e.val, h⟩ : Fin 800000))
      (fun b => by match b with | ⟨0, _⟩ => rfl)).trans ?_
    refine (shapeCast_1a_a_apply _ hc _).trans ?_
    refine extractStridedSlice_apply _ X hs _ _ fun a => ?_
    match a with
    | ⟨0, _⟩ => rfl
    | ⟨1, _⟩ => exact (Nat.zero_add _).symm
  · rename_i h
    have h2 : e.val - 800000 < 50000 := by have := e.isLt; omega
    refine (concatenate_pair_apply_right (t := S850000) (s₁ := S800000) (s₂ := S50000) (0 : Fin 1) _ _ hcat (ix1 e) rfl rfl (ix1 (⟨e.val - 800000, h2⟩ : Fin 50000))
      (fun b hb => absurd (Fin.ext (by have := b.isLt; change b.val < 1 at this; show b.val = 0; omega)) hb) ?_).trans ?_
    · show e.val - 800000 + 800000 = e.val
      omega
    · rfl

theorem src_apply (W : Valuation τ sig (Elt Ideal)) (e : Fin 850000) :
    A1 W (Proc.devRef .tc main_v7) (ix1 e)
      = Cert.Gcn.withLoops (fun e' : Fin 800000 => W (Proc.devRef .tc main_arg1) (ix2 0 e')) e :=
  (congrFun (src_term W) (ix1 e)).trans (loops_apply _ 0 _ rfl _ _ _ e)

theorem dst_apply (W : Valuation τ sig (Elt Ideal)) (e : Fin 850000) :
    A1 W (Proc.devRef .tc main_v10) (ix1 e)
      = Cert.Gcn.withLoops (fun e' : Fin 800000 => W (Proc.devRef .tc main_arg1) (ix2 1 e')) e :=
  (congrFun (dst_term W) (ix1 e)).trans (loops_apply _ 1 _ rfl _ _ _ e)

abbrev dstT (X : S2x800000.Idx → BitVec 32) : S850000.Idx → BitVec 32 :=
  concatenate S850000 0
    [⟨S800000, shapeCast S800000 (extractStridedSlice S1x800000 ![1, 0] X slices_S2x800000_S1x800000_1_0) shapeCasts_S1x800000_S800000⟩,
     ⟨S50000, iotaInDim S50000 32 0⟩] concatenates_S800000_S50000_S850000_d0

abbrev degT (dst : S850000.Idx → BitVec 32) : S50000.Idx → EReal :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 dst)
    (broadcastInDim S850000 ![] bcast_S_S850000 (constant (F := Ideal) S_ .f32 0x3F800000#32))

abbrev scaleT (D : S50000.Idx → EReal) : S50000x1.Idx → EReal :=
  shapeCast S50000x1
    (select (cmpf (F := Ideal) (s := S50000) (φ := .f32) .ogt D (broadcastInDim S50000 ![] bcast_S_S50000 (constant (F := Ideal) S_ .f32 0x00000000#32)))
      (Host.rsqrt (F := Ideal) (s := S50000) (φ := .f32) D)
      (broadcastInDim S50000 ![] bcast_S_S50000 (constant (F := Ideal) S_ .f32 0x00000000#32)))
    shapeCasts_S50000_S50000x1

theorem s12_v19 (W2 : Valuation τ sig (Elt Ideal)) :
    (StableHlo.after hostOps1_2 W2 (Proc.devRef .tc main_v19) : S50000x1.Idx → EReal)
      = shapeCast S50000x1 (W2 (Proc.devRef .tc main_v18) : S50000.Idx → EReal) shapeCasts_S50000_S50000x1 := by
  after_results; rfl

theorem s11_v18 (W1 : Valuation τ sig (Elt Ideal)) :
    (StableHlo.after hostOps1_1 W1 (Proc.devRef .tc main_v18) : S50000.Idx → EReal)
      = select (W1 (Proc.devRef .tc main_v16) : S50000.Idx → BitVec 1) (W1 (Proc.devRef .tc main_v17) : S50000.Idx → EReal)
          (broadcastInDim S50000 ![] bcast_S_S50000 (W1 (Proc.devRef .tc main_cst_2) : S_.Idx → EReal)) := by
  after_results; rfl

theorem s1_v14 (W : Valuation τ sig (Elt Ideal)) :
    (StableHlo.after hostOps1 W (Proc.devRef .tc main_v14) : S50000.Idx → EReal) = degT (dstT (W (Proc.devRef .tc main_arg1))) := by
  after_results; rfl

theorem s1_v16 (W : Valuation τ sig (Elt Ideal)) :
    (StableHlo.after hostOps1 W (Proc.devRef .tc main_v16) : S50000.Idx → BitVec 1)
      = cmpf (F := Ideal) (s := S50000) (φ := .f32) .ogt (degT (dstT (W (Proc.devRef .tc main_arg1))))
          (broadcastInDim S50000 ![] bcast_S_S50000 (constant (F := Ideal) S_ .f32 0x00000000#32)) := by
  after_results; rfl

theorem s1_v17 (W : Valuation τ sig (Elt Ideal)) :
    (StableHlo.after hostOps1 W (Proc.devRef .tc main_v17) : S50000.Idx → EReal)
      = Host.rsqrt (F := Ideal) (s := S50000) (φ := .f32) (degT (dstT (W (Proc.devRef .tc main_arg1)))) := by
  after_results; rfl

theorem s1_cst2 (W : Valuation τ sig (Elt Ideal)) :
    (StableHlo.after hostOps1 W (Proc.devRef .tc main_cst_2) : S_.Idx → EReal) = constant (F := Ideal) S_ .f32 0x00000000#32 := by
  after_results

theorem dinv2_term (W : Valuation τ sig (Elt Ideal)) :
    (A1 W (Proc.devRef .tc main_v19) : S50000x1.Idx → EReal)
      = scaleT (degT (dstT (W (Proc.devRef .tc main_arg1)))) := by
  show StableHlo.after hostOps1_2 _ (Proc.devRef .tc main_v19) = _
  rw [s12_v19]
  show shapeCast S50000x1 (StableHlo.after hostOps1_1 _ (Proc.devRef .tc main_v18)) _ = _
  rw [s11_v18, s1_v16, s1_v17, s1_cst2]

theorem splat_apply {T : Shape} (h : S_.BroadcastsInDim T ![]) (b : BitVec 32) (j : T.Idx) :
    broadcastInDim T ![] h (constant (F := Ideal) S_ .f32 b) j = Ideal.ofBits .f32 b :=
  broadcastInDim_scalar_apply h _ j

theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) :=
  broadcastInDim_apply _ h v _ _ fun a => by
    match a with
    | ⟨0, _⟩ =>
      show p.val = if n = 1 then 0 else p.val
      have := p.isLt
      split <;> omega

theorem count_apply {N E : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (hz : S_.BroadcastsInDim ⟨1, ![N]⟩ ![]) (hc : (⟨1, ![E]⟩ : Shape).BroadcastsInDim ⟨2, ![E, 1]⟩ ![0])
    (ho : S_.BroadcastsInDim ⟨1, ![E]⟩ ![]) (idx : (⟨1, ![E]⟩ : Shape).Idx → BitVec 32) (n : Fin N) :
    Host.scatterAdd (F := Ideal) (φ := .f32) d
        (broadcastInDim ⟨1, ![N]⟩ ![] hz (constant (F := Ideal) S_ .f32 0x00000000#32))
        (broadcastInDim ⟨2, ![E, 1]⟩ ![0] hc idx)
        (broadcastInDim ⟨1, ![E]⟩ ![] ho (constant (F := Ideal) S_ .f32 0x3F800000#32)) (ix1 n)
      = 0 + ∑ e : Fin E, (if (idx (ix1 e)).toInt = (n.val : ℤ) then Cert.Gcn.one32 else 0) := by
  unfold Host.scatterAdd
  rw [Ideal.hostScatterAdd_def, Cert.LibRowOps.scatterAdd_vec_apply d hu hi hs hv]
  rw [splat_apply, Ideal.ofBits_zero_f32]
  congr 1
  refine Finset.sum_congr rfl fun e _ => ?_
  rw [col_apply, splat_apply]

theorem deg_apply (dst : S850000.Idx → BitVec 32) (i : Fin 50000) :
    degT dst (ix1 i) = Cert.Gcn.degOf (fun e => dst (ix1 e)) i := by
  unfold Cert.Gcn.degOf
  exact count_apply scatter_S50000_S850000x1_S850000_n_0_0_1 rfl rfl rfl rfl bcast_S_S50000 bcast_S850000_S850000x1_0
    bcast_S_S850000 dst i

theorem scaleG_apply {n : Nat} (hz : S_.BroadcastsInDim ⟨1, ![n]⟩ ![]) (hc : (⟨1, ![n]⟩ : Shape).ShapeCasts ⟨2, ![n, 1]⟩)
    (D : (⟨1, ![n]⟩ : Shape).Idx → EReal) (i : Fin n) :
    shapeCast ⟨2, ![n, 1]⟩
        (select
          (cmpf (F := Ideal) (s := ⟨1, ![n]⟩) (φ := .f32) .ogt D
            (broadcastInDim ⟨1, ![n]⟩ ![] hz (constant (F := Ideal) S_ .f32 0x00000000#32)))
          (Host.rsqrt (F := Ideal) (s := ⟨1, ![n]⟩) (φ := .f32) D)
          (broadcastInDim ⟨1, ![n]⟩ ![] hz (constant (F := Ideal) S_ .f32 0x00000000#32))) hc (ix2 i 0)
      = Cert.Gcn.scaleOf (D (ix1 i)) := by
  refine (shapeCast_apply _ hc _ (ix1 i) ?_).trans ?_
  · rw [Shape.rowMajor_val_one, Shape.rowMajor_val_two]
    show i.val = i.val * 1 + 0
    omega
  · rw [select_apply, cmpf_apply, splat_apply, Ideal.ofBits_zero_f32]
    show Scalar.select (Ideal.cmp .ogt (D (ix1 i)) 0) (Ideal.rsqrt (D (ix1 i))) 0 = _
    unfold Cert.Gcn.scaleOf Scalar.select Ideal.cmp
    by_cases h : 0 < D (ix1 i)
    · simp [h]
    · simp [h]

theorem scale_apply (D : S50000.Idx → EReal) (i : Fin 50000) :
    scaleT D (ix2 i 0) = Cert.Gcn.scaleOf (D (ix1 i)) :=
  scaleG_apply bcast_S_S50000 shapeCasts_S50000_S50000x1 D i

theorem dst_term' (W : Valuation τ sig (Elt Ideal)) :
    (A1 W (Proc.devRef .tc main_v10) : S850000.Idx → BitVec 32) = dstT (W (Proc.devRef .tc main_arg1)) := dst_term W

theorem dinv2_apply (W : Valuation τ sig (Elt Ideal)) (i : Fin 50000) :
    A1 W (Proc.devRef .tc main_v19) (ix2 i 0)
      = Cert.Gcn.scaleOf (Cert.Gcn.degOf (fun e => A1 W (Proc.devRef .tc main_v10) (ix1 e)) i) := by
  rw [dst_term' W]
  exact (congrFun (dinv2_term W) (ix2 i 0)).trans ((scale_apply _ i).trans (congrArg Cert.Gcn.scaleOf (deg_apply _ i)))

end Cert.KernelIdeal.HostA

end
-- ==== Proof.KHostP.lean ====
import proofs.«406057_j79568564126007_2_alg».proof.Proof.Gen.KernelIdeal.Launch
import proofs.«406057_j79568564126007_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.HostP

open Idealize.ShloMosaic Idealize.ShloMosaic.TcCoe Idealize.ShloMosaic.ValueIdx Cert.KernelIdeal Cert.KernelIdeal.Gen

theorem ids_col_apply (bid : IVec S50000 32) (i : Fin 50000) :
    broadcastInDim S50000x1 ![0] bcast_S50000_S50000x1_0 bid (ix2 i (0 : Fin 1)) = bid (ix1 i) :=
  broadcastInDim_apply _ bcast_S50000_S50000x1_0 bid _ (ix1 i) (fun a => match a with
    | ⟨0, _⟩ => by
      show i.val = if (50000 : Nat) = 1 then 0 else i.val
      rw [if_neg (by decide)])

theorem count_apply (bid : IVec S50000 32) (g : Fin 512) :
    Host.scatterAdd (F := Ideal) scatter_S512_S50000x1_S50000_n_0_0_1
        (broadcastInDim S512 ![] bcast_S_S512 (constant (F := Ideal) S_ .f32 0x00000000#32))
        (broadcastInDim S50000x1 ![0] bcast_S50000_S50000x1_0 bid)
        (broadcastInDim S50000 ![] bcast_S_S50000 (constant (F := Ideal) S_ .f32 0x3F800000#32)) (ix1 g)
      = 0 + ∑ i : Fin 50000, (if (bid (ix1 i)).toInt = (g.val : ℤ) then Cert.Gcn.one32 else 0) := by
  refine (Cert.LibRowOps.scatterAdd_vec_apply scatter_S512_S50000x1_S50000_n_0_0_1 rfl rfl rfl rfl _ _ _ g).trans ?_
  refine congrArg₂ (fun (a b : EReal) => a + b) Ideal.ofBits_zero_f32 (Finset.sum_congr rfl fun i _ => ?_)
  rw [ids_col_apply]
  rfl

theorem sums_apply (bid : IVec S50000 32) (h : FVec Ideal S50000x128 .f32) (g : Fin 512) (q : Fin 128) :
    Host.scatterAdd (F := Ideal) scatter_S512x128_S50000x1_S50000x128_1_0_0_1
        (broadcastInDim S512x128 ![] bcast_S_S512x128 (constant (F := Ideal) S_ .f32 0x00000000#32))
        (broadcastInDim S50000x1 ![0] bcast_S50000_S50000x1_0 bid) h (ix2 g q)
      = 0 + ∑ i : Fin 50000, (if (bid (ix1 i)).toInt = (g.val : ℤ) then h (ix2 i q) else 0) := by
  refine (Cert.LibRowOps.scatterAdd_rows_apply scatter_S512x128_S50000x1_S50000x128_1_0_0_1 rfl rfl rfl rfl _ _ _ g q).trans ?_
  refine congrArg₂ (fun (a b : EReal) => a + b) Ideal.ofBits_zero_f32 (Finset.sum_congr rfl fun i _ => ?_)
  rw [ids_col_apply]

theorem spread_rows_apply (v : FVec Ideal S512 .f32) (g : Fin 512) (q : Fin 128) :
    broadcastInDim S512x128 ![0, 1] bcast_S512x1_S512x128_0_1 (broadcastInDim S512x1 ![0] bcast_S512_S512x1_0 v) (ix2 g q)
      = v (ix1 g) :=
  (broadcastInDim_apply _ bcast_S512x1_S512x128_0_1 _ (ix2 g q) (ix2 g (0 : Fin 1)) (fun a => match a with
    | ⟨0, _⟩ => by
      show g.val = if (512 : Nat) = 1 then 0 else g.val
      rw [if_neg (by decide)]
    | ⟨1, _⟩ => rfl)).trans
  (broadcastInDim_apply _ bcast_S512_S512x1_0 v (ix2 g (0 : Fin 1)) (ix1 g) (fun a => match a with
    | ⟨0, _⟩ => by
      show g.val = if (512 : Nat) = 1 then 0 else g.val
      rw [if_neg (by decide)]))

def poolTerm (bid : IVec S50000 32) (h : FVec Ideal S50000x128 .f32) : FVec Ideal S512x128 .f32 :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 bid) h)
    (broadcastInDim S512x128 ![0, 1] bcast_S512x1_S512x128_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 bid)
            (broadcastInDim S50000 ![] bcast_S_S50000 (constant S_ .f32 0x3F800000#32)))
          (broadcastInDim S512 ![] bcast_S_S512 (constant S_ .f32 0x3F800000#32)))))

theorem hostDivf_apply (x y : FVec Ideal S512x128 .f32) (j : S512x128.Idx) :
    Host.divf x y j = Ideal.div (x j) (y j) := rfl

theorem divisor_apply (bid : IVec S50000 32) (g : Fin 512) (q : Fin 128) :
    broadcastInDim S512x128 ![0, 1] bcast_S512x1_S512x128_0_1
        (broadcastInDim S512x1 ![0] bcast_S512_S512x1_0
          (maximumf
            (Host.scatterAdd (F := Ideal) scatter_S512_S50000x1_S50000_n_0_0_1
              (broadcastInDim S512 ![] bcast_S_S512 (constant (F := Ideal) S_ .f32 0x00000000#32))
              (broadcastInDim S50000x1 ![0] bcast_S50000_S50000x1_0 bid)
              (broadcastInDim S50000 ![] bcast_S_S50000 (constant (F := Ideal) S_ .f32 0x3F800000#32)))
            (broadcastInDim S512 ![] bcast_S_S512 (constant (F := Ideal) S_ .f32 0x3F800000#32)))) (ix2 g q)
      = max (0 + ∑ i : Fin 50000, (if (bid (ix1 i)).toInt = (g.val : ℤ) then Cert.Gcn.one32 else 0)) Cert.Gcn.one32 := by
  refine (spread_rows_apply _ g q).trans ?_
  rw [maximumf_apply, count_apply]
  rfl

theorem poolTerm_apply (bid : IVec S50000 32) (h : FVec Ideal S50000x128 .f32) (g : Fin 512) (q : Fin 128) :
    poolTerm bid h (ix2 g q)
      = Cert.Gcn.poolOf (fun i : Fin 50000 => bid (ix1 i)) (fun i q' => h (ix2 i q')) g q := by
  unfold poolTerm
  refine (hostDivf_apply _ _ (ix2 g q)).trans ?_
  refine (congrArg₂ Ideal.div (sums_apply bid h g q) (divisor_apply bid g q)).trans ?_
  rfl

variable (W : Valuation τ sig (Elt Ideal))

theorem pooled_eq :
    StableHlo.after hostOps7 W (Proc.devRef .tc main_v82)
      = poolTerm (W (Proc.devRef .tc main_arg2)) (W (Proc.devRef .tc main_v70)) := by
  after_results_simp <;> rfl

theorem pooled_apply (g : Fin 512) (q : Fin 128) :
    StableHlo.after hostOps7 W (Proc.devRef .tc main_v82) (ix2 g q)
      = Cert.Gcn.poolOf (fun i : Fin 50000 => W (Proc.devRef .tc main_arg2) (ix1 i))
          (fun i q' => W (Proc.devRef .tc main_v70) (ix2 i q')) g q :=
  (congrFun (pooled_eq W) (ix2 g q)).trans
    (poolTerm_apply (W (Proc.devRef .tc main_arg2)) (W (Proc.devRef .tc main_v70)) g q)

theorem v83_apply (k : Fin 64) :
    StableHlo.after hostOps7 W (Proc.devRef .tc main_v83) (ix2 0 k) = W (Proc.devRef .tc main_arg12) (ix1 k) := by
  have e : StableHlo.after hostOps7 W (Proc.devRef .tc main_v83)
      = shapeCast S1x64 (W (Proc.devRef .tc main_arg12)) shapeCasts_S64_S1x64 := by
    after_results_simp <;> rfl
  exact (congrFun e (ix2 0 k)).trans (shapeCast_a_1a_apply _ shapeCasts_S64_S1x64 0 k)

theorem v84_apply (o : Fin 12) :
    StableHlo.after hostOps7 W (Proc.devRef .tc main_v84) (ix2 0 o) = W (Proc.devRef .tc main_arg14) (ix1 o) := by
  have e : StableHlo.after hostOps7 W (Proc.devRef .tc main_v84)
      = shapeCast S1x12 (W (Proc.devRef .tc main_arg14)) shapeCasts_S12_S1x12 := by
    after_results_simp <;> rfl
  exact (congrFun e (ix2 0 o)).trans (shapeCast_a_1a_apply _ shapeCasts_S12_S1x12 0 o)

end Cert.KernelIdeal.HostP

end
-- ==== Proof.KHostBOps.lean ====
import proofs.«406057_j79568564126007_2_alg».proof.Proof.Gen.KernelIdeal.Launch
import proofs.«406057_j79568564126007_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.WordArith
import Idealize.ShloMosaic.PureOps.Ideal.Laws

set_option maxRecDepth 16384

noncomputable section

namespace Cert.KernelIdeal.HostBOps

open Cert.KernelIdeal Cert.KernelIdeal.Gen
open Idealize.ShloMosaic Idealize.ShloMosaic.ValueIdx Idealize.ShloMosaic.StableHlo

theorem wrap_word (x : BitVec 32) :
    Scalar.select (IntOp.cmpi .slt x 0#32) (IntOp.addi x 50000#32) x = Cert.Gcn.wrapIdx x := by
  unfold Scalar.select IntOp.cmpi IntOp.addi Cert.Gcn.wrapIdx
  by_cases h : x.toInt < 0
  · have hb : x.slt 0#32 = true := by
      simp only [BitVec.slt, decide_eq_true_eq]; exact h
    rw [if_pos h, hb]; rfl
  · have hb : x.slt 0#32 = false := by
      simp only [BitVec.slt, decide_eq_false_iff_not]; exact h
    rw [if_neg h, hb]; rfl

theorem mask_word (w : BitVec 32) :
    IntOp.andi (IntOp.cmpi .sge w 0#32) (IntOp.cmpi .sle w 49999#32) = 1#1 ↔ (0 ≤ w.toInt ∧ w.toInt ≤ 49999) := by
  have h0 : (0#32 : BitVec 32).toInt = 0 := by decide
  have h1 : (49999#32 : BitVec 32).toInt = 49999 := by decide
  simp only [IntOp.cmpi, WordArith.andi_ofBool, WordArith.ofBool_eq_one_iff, Bool.and_eq_true, BitVec.sle,
    decide_eq_true_eq, h0, h1]

theorem and_one_bit (b : BitVec 1) : IntOp.andi b 1#1 = b := by
  rcases BitVec.eq_zero_or_eq_one b with rfl | rfl <;> rfl

theorem fold_fin_one {α : Type} (op : α → α → α) [Std.Commutative op] [Std.Associative op] (b : α) {n : Nat} (hn : n = 1)
    (f : Fin n → α) : Finset.fold op b f Finset.univ = op (f ⟨0, by omega⟩) b := by
  subst hn
  rw [Finset.univ_unique, Finset.fold_singleton]; rfl

theorem col_apply {w : Nat} (v : IVec S850000 w) (e : Fin 850000) :
    broadcastInDim S850000x1 ![0] bcast_S850000_S850000x1_0 v (ix2 e 0) = v (ix1 e) := by
  unfold broadcastInDim
  congr 1
  funext a
  obtain rfl : a = 0 := Subsingleton.elim _ _
  rw [dif_neg (by decide)]
  rfl

theorem row_apply {α : Type} (v : S850000.Idx → α) (e : Fin 850000) (j : Fin 128) :
    broadcastInDim S850000x128 ![0] bcast_S850000_S850000x128_0 v (ix2 e j) = v (ix1 e) := by
  unfold broadcastInDim
  congr 1
  funext a
  obtain rfl : a = 0 := Subsingleton.elim _ _
  rw [dif_neg (by decide)]
  rfl

theorem reduce1_apply (m : IVec S850000x1 1) (e : Fin 850000) :
    Host.reduce IntOp.andi m (constantI S_ 1 1#1) reducesTo_S850000x1_S850000_d1 h_S_ (ix1 e) = m (ix2 e 0) := by
  have h : S850000x1.Reduces [1] S850000 := by decide
  have hl : ∀ k : Fin (S850000x1.size 1), h.lift (ix1 e) k = ix2 e 0 := by
    intro k
    have hk : k.val = 0 := by have := k.isLt; change k.val < 1 at this; omega
    funext c; apply Fin.ext; rw [h.lift_val]
    match c with
    | ⟨0, _⟩ => rfl
    | ⟨1, _⟩ => exact hk
  rw [Host.reduce_eq_fold_single IntOp.andi m _ reducesTo_S850000x1_S850000_d1 h h_S_ (ix1 e),
    fold_fin_one IntOp.andi _ (rfl : S850000x1.size 1 = 1)]
  show IntOp.andi (m (h.lift (ix1 e) _)) 1#1 = _
  rw [hl, and_one_bit]

def wrapVec (x : IVec S850000 32) : IVec S850000x1 32 :=
  broadcastInDim S850000x1 ![0] bcast_S850000_S850000x1_0
    (select (cmpi .slt x (broadcastInDim S850000 ![] bcast_S_S850000 (constantI S_ 32 0#32)))
      (addi x (broadcastInDim S850000 ![] bcast_S_S850000 (constantI S_ 32 50000#32))) x)

theorem wrapVec_apply (x : IVec S850000 32) (e : Fin 850000) : wrapVec x (ix2 e 0) = Cert.Gcn.wrapIdx (x (ix1 e)) := by
  unfold wrapVec
  rw [col_apply]
  exact wrap_word (x (ix1 e))

def maskVec (v : IVec S850000x1 32) : IVec S850000 1 :=
  Host.reduce IntOp.andi
    (andi (cmpi .sge v (broadcastInDim S850000x1 ![] bcast_S_S850000x1 (constantI S_ 32 0#32)))
      (cmpi .sle v (broadcastInDim S850000x1 ![0, 1] bcast_S1x1_S850000x1_0_1
        (broadcastInDim S1x1 ![1] bcast_S1_S1x1_1 (constantI S1 32 49999#32)))))
    (constantI S_ 1 1#1) reducesTo_S850000x1_S850000_d1 h_S_

theorem maskVec_apply (v : IVec S850000x1 32) (e : Fin 850000) :
    maskVec v (ix1 e) = IntOp.andi (IntOp.cmpi .sge (v (ix2 e 0)) 0#32) (IntOp.cmpi .sle (v (ix2 e 0)) 49999#32) := by
  unfold maskVec
  rw [reduce1_apply]
  rfl

def takeVec {F : FTy → Type} [FloatOps F] (x : IVec S850000 32) (T : FVec F S50000x128 .f32) : FVec F S850000x128 .f32 :=
  select (broadcastInDim S850000x128 ![0] bcast_S850000_S850000x128_0 (maskVec (wrapVec x)))
    (Host.gather gather_S50000x128_S850000x1_S850000x128_1_0_n_n_0_1_1128 T (wrapVec x))
    (broadcastInDim S850000x128 ![] bcast_S_S850000x128 (constant (F := F) S_ .f32 0x7FC00000#32))

theorem takeVec_apply (x : IVec S850000 32) (T : FVec Ideal S50000x128 .f32) (e : Fin 850000) (j : Fin 128) :
    takeVec (F := Ideal) x T (ix2 e j) = Cert.Gcn.takeRow (fun r j'' => T (ix2 r j'')) (x (ix1 e)) j := by
  unfold takeVec
  rw [select_apply, row_apply, maskVec_apply, wrapVec_apply,
    Cert.LibRowOps.gather_rows_apply (by decide : 0 < 50000) _ rfl rfl rfl rfl rfl rfl rfl, wrapVec_apply]
  unfold Cert.Gcn.takeRow
  by_cases hin : Cert.Gcn.inTable (x (ix1 e))
  · rw [if_pos hin, (mask_word _).mpr hin, select_one]
    rfl
  · rw [if_neg hin, eq_zero_of_ne_one (fun h => hin ((mask_word _).mp h)), select_zero]
    rfl

theorem after_app {F : FTy → Type} [FloatOps F] :
    ∀ (l₁ l₂ : List (HloOp τ sig (Elt F))) (V : Valuation τ sig (Elt F)),
      StableHlo.after (l₁ ++ l₂) V = StableHlo.after l₂ (StableHlo.after l₁ V)
  | [], _, _ => rfl
  | op :: l₁, l₂, V => by rw [List.cons_append, after_cons, after_cons, after_app l₁ l₂]

theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

end Cert.KernelIdeal.HostBOps

end
-- ==== Proof.KHostB2.lean ====
import proofs.«406057_j79568564126007_2_alg».proof.Proof.Gen.KernelIdeal.Launch
import proofs.«406057_j79568564126007_2_alg».proof.Proof.Spec
import proofs.«406057_j79568564126007_2_alg».proof.Proof.KHostBOps
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.WordArith
import Idealize.ShloMosaic.PureOps.Ideal.Laws

set_option maxRecDepth 16384

noncomputable section

namespace Cert.KernelIdeal.HostB2

open Cert.KernelIdeal Cert.KernelIdeal.Gen
open Idealize.ShloMosaic Idealize.ShloMosaic.ValueIdx Idealize.ShloMosaic.StableHlo
open Cert.KernelIdeal.HostBOps

theorem rowcast_apply {α : Type} (X : S3x128.Idx → α) (j : Fin 128) :
    shapeCast S1x128 (shapeCast S128 (extractStridedSlice S1x128 ![0, 0] X slices_S3x128_S1x128_0_0) shapeCasts_S1x128_S128)
      shapeCasts_S128_S1x128 (ix2 0 j) = X (ix2 (0 : Fin 3) j) := by
  rw [shapeCast_a_1a_apply, shapeCast_1a_a_apply, slice2_axis0_apply _ X _ 0 j (0 : Fin 3) rfl]

abbrev headOps {F : FTy → Type} [FloatOps F] : List (HloOp τ sig (Elt F)) := (hostOps2 (F := F)).take 19

abbrev tailOps {F : FTy → Type} [FloatOps F] : List (HloOp τ sig (Elt F)) := (hostOps2 (F := F)).drop 19

theorem after_cut {F : FTy → Type} [FloatOps F] (W : Valuation τ sig (Elt F)) :
    StableHlo.after hostOps2 W = StableHlo.after tailOps (StableHlo.after headOps W) := by
  rw [← after_app]
  exact congrArg (fun l => StableHlo.after l W) (List.take_append_drop 19 (hostOps2 (F := F))).symm

theorem tail_term {F : FTy → Type} [FloatOps F] (V : Valuation τ sig (Elt F)) :
    StableHlo.after tailOps V (Proc.devRef .tc main_v23)
      = select (broadcastInDim S850000x128 ![0] bcast_S850000_S850000x128_0 (V (Proc.devRef .tc main_call1_v12)))
          (V (Proc.devRef .tc main_call1_v13))
          (broadcastInDim S850000x128 ![] bcast_S_S850000x128 (constant (F := F) S_ .f32 0x7FC00000#32)) := by
  simp only [tailOps, hostOps2, List.drop_succ_cons, List.drop_zero]
  after_results_simp
  simp only [TRef.ofBuf, TRef.toBuf, cast_eq]

theorem tail_keep_bit {F : FTy → Type} [FloatOps F] (V : Valuation τ sig (Elt F)) :
    StableHlo.after tailOps V (Proc.devRef .tc main_call1_v12) = V (Proc.devRef .tc main_call1_v12) := by
  simp only [tailOps, hostOps2, List.drop_succ_cons, List.drop_zero]
  after_results_simp

theorem tail_keep_rows {F : FTy → Type} [FloatOps F] (V : Valuation τ sig (Elt F)) :
    StableHlo.after tailOps V (Proc.devRef .tc main_call1_v13) = V (Proc.devRef .tc main_call1_v13) := by
  simp only [tailOps, hostOps2, List.drop_succ_cons, List.drop_zero]
  after_results_simp

set_option maxHeartbeats 1600000 in

theorem bit_term {F : FTy → Type} [FloatOps F] (W : Valuation τ sig (Elt F)) :
    StableHlo.after hostOps2 W (Proc.devRef .tc main_call1_v12) = maskVec (wrapVec (W (Proc.devRef .tc main_v7))) := by
  after_results_simp
  simp only [TRef.ofBuf, TRef.toBuf, cast_eq]
  rfl

set_option maxHeartbeats 1600000 in

theorem rows_term {F : FTy → Type} [FloatOps F] (W : Valuation τ sig (Elt F)) :
    StableHlo.after hostOps2 W (Proc.devRef .tc main_call1_v13)
      = Host.gather gather_S50000x128_S850000x1_S850000x128_1_0_n_n_0_1_1128 (W (Proc.devRef .tc main_v22))
          (wrapVec (W (Proc.devRef .tc main_v7))) := by
  after_results_simp
  rfl

theorem take_term {F : FTy → Type} [FloatOps F] (W : Valuation τ sig (Elt F)) :
    StableHlo.after hostOps2 W (Proc.devRef .tc main_v23)
      = takeVec (W (Proc.devRef .tc main_v7)) (W (Proc.devRef .tc main_v22)) := by
  have hb : StableHlo.after headOps W (Proc.devRef .tc main_call1_v12) = maskVec (wrapVec (W (Proc.devRef .tc main_v7))) := by
    rw [← tail_keep_bit (StableHlo.after headOps W), ← after_cut]
    exact bit_term W
  have hr : StableHlo.after headOps W (Proc.devRef .tc main_call1_v13)
      = Host.gather gather_S50000x128_S850000x1_S850000x128_1_0_n_n_0_1_1128 (W (Proc.devRef .tc main_v22))
          (wrapVec (W (Proc.devRef .tc main_v7))) := by
    rw [← tail_keep_rows (StableHlo.after headOps W), ← after_cut]
    exact rows_term W
  rw [after_cut, tail_term, hb, hr]
  rfl

theorem take_apply (W : Valuation τ sig (Elt Ideal)) (e : Fin 850000) (j : Fin 128) :
    StableHlo.after hostOps2 W (Proc.devRef .tc main_v23) (ix2 e j)
      = Cert.Gcn.takeRow (fun r j'' => W (Proc.devRef .tc main_v22) (ix2 r j'')) (W (Proc.devRef .tc main_v7) (ix1 e)) j := by
  rw [take_term, takeVec_apply]

theorem agg_term {F : FTy → Type} [FloatOps F] (W' : Valuation τ sig (Elt F)) :
    StableHlo.after hostOps2_1 W' (Proc.devRef .tc main_v26)
      = Host.scatterAdd scatter_S50000x128_S850000x1_S850000x128_1_0_0_1
          (broadcastInDim S50000x128 ![] bcast_S_S50000x128 (constant (F := F) S_ .f32 0x00000000#32))
          (broadcastInDim S850000x1 ![0] bcast_S850000_S850000x1_0 (W' (Proc.devRef .tc main_v10)))
          (W' (Proc.devRef .tc main_v23)) := by
  after_results

theorem agg1_apply (W' : Valuation τ sig (Elt Ideal)) (i : Fin 50000) (j : Fin 128) :
    StableHlo.after hostOps2_1 W' (Proc.devRef .tc main_v26) (ix2 i j)
      = Cert.Gcn.aggOf (fun e : Fin 850000 => W' (Proc.devRef .tc main_v10) (ix1 e))
          (fun e j' => W' (Proc.devRef .tc main_v23) (ix2 e j')) i j := by
  have h0 : broadcastInDim S50000x128 ![] bcast_S_S50000x128 (constant (F := Ideal) S_ .f32 0x00000000#32) (ix2 i j) = 0 :=
    Ideal.ofBits_zero_f32
  rw [agg_term, scatterAdd_ideal, Cert.LibRowOps.scatterAdd_rows_apply _ rfl rfl rfl rfl, h0, Cert.Gcn.aggOf]
  refine congrArg (fun t => (0 : EReal) + t) (Finset.sum_congr rfl fun e _ => ?_)
  rw [col_apply]

theorem bias_term {F : FTy → Type} [FloatOps F] (W' : Valuation τ sig (Elt F)) :
    StableHlo.after hostOps2_1 W' (Proc.devRef .tc main_v33)
      = shapeCast S1x128 (shapeCast S128 (extractStridedSlice S1x128 ![0, 0] (W' (Proc.devRef .tc main_arg8)) slices_S3x128_S1x128_0_0)
          shapeCasts_S1x128_S128) shapeCasts_S128_S1x128 := by
  after_results
  rfl

theorem scale_term {F : FTy → Type} [FloatOps F] (W' : Valuation τ sig (Elt F)) :
    StableHlo.after hostOps2_1 W' (Proc.devRef .tc main_v34)
      = shapeCast S1x128 (shapeCast S128 (extractStridedSlice S1x128 ![0, 0] (W' (Proc.devRef .tc main_arg9)) slices_S3x128_S1x128_0_0)
          shapeCasts_S1x128_S128) shapeCasts_S128_S1x128 := by
  after_results
  rfl

theorem shift_term {F : FTy → Type} [FloatOps F] (W' : Valuation τ sig (Elt F)) :
    StableHlo.after hostOps2_1 W' (Proc.devRef .tc main_v35)
      = shapeCast S1x128 (shapeCast S128 (extractStridedSlice S1x128 ![0, 0] (W' (Proc.devRef .tc main_arg10)) slices_S3x128_S1x128_0_0)
          shapeCasts_S1x128_S128) shapeCasts_S128_S1x128 := by
  after_results
  rfl

set_option maxHeartbeats 1600000 in
theorem keep_dst {F : FTy → Type} [FloatOps F] (W : Valuation τ sig (Elt F)) :
    StableHlo.after hostOps2 W (Proc.devRef .tc main_v10) = W (Proc.devRef .tc main_v10) := by
  after_results_simp

set_option maxHeartbeats 1600000 in
theorem keep_bias {F : FTy → Type} [FloatOps F] (W : Valuation τ sig (Elt F)) :
    StableHlo.after hostOps2 W (Proc.devRef .tc main_arg8) = W (Proc.devRef .tc main_arg8) := by
  after_results_simp

set_option maxHeartbeats 1600000 in
theorem keep_scale {F : FTy → Type} [FloatOps F] (W : Valuation τ sig (Elt F)) :
    StableHlo.after hostOps2 W (Proc.devRef .tc main_arg9) = W (Proc.devRef .tc main_arg9) := by
  after_results_simp

set_option maxHeartbeats 1600000 in
theorem keep_shift {F : FTy → Type} [FloatOps F] (W : Valuation τ sig (Elt F)) :
    StableHlo.after hostOps2 W (Proc.devRef .tc main_arg10) = W (Proc.devRef .tc main_arg10) := by
  after_results_simp

abbrev A2 (W : Valuation τ sig (Elt Ideal)) : Valuation τ sig (Elt Ideal) :=
  StableHlo.after hostOps2_1 (StableHlo.after hostOps2 W)

theorem agg_apply (W : Valuation τ sig (Elt Ideal)) (i : Fin 50000) (j : Fin 128) :
    A2 W (Proc.devRef .tc main_v26) (ix2 i j) = Cert.Gcn.aggOf (fun e : Fin 850000 => W (Proc.devRef .tc main_v10) (ix1 e))
      (fun e j' => Cert.Gcn.takeRow (fun r j'' => W (Proc.devRef .tc main_v22) (ix2 r j'')) (W (Proc.devRef .tc main_v7) (ix1 e)) j') i j := by
  have ht : (fun (e : Fin 850000) (j' : Fin 128) => StableHlo.after hostOps2 W (Proc.devRef .tc main_v23) (ix2 e j'))
      = fun e j' => Cert.Gcn.takeRow (fun r j'' => W (Proc.devRef .tc main_v22) (ix2 r j'')) (W (Proc.devRef .tc main_v7) (ix1 e)) j' :=
    funext fun e => funext fun j' => take_apply W e j'
  show StableHlo.after hostOps2_1 (StableHlo.after hostOps2 W) (Proc.devRef .tc main_v26) (ix2 i j) = _
  rw [agg1_apply, keep_dst, ht]

theorem bias_apply (W : Valuation τ sig (Elt Ideal)) (j : Fin 128) :
    A2 W (Proc.devRef .tc main_v33) (ix2 0 j) = W (Proc.devRef .tc main_arg8) (ix2 (0 : Fin 3) j) := by
  show StableHlo.after hostOps2_1 (StableHlo.after hostOps2 W) (Proc.devRef .tc main_v33) (ix2 0 j) = _
  rw [bias_term, rowcast_apply, keep_bias]

theorem scale_apply (W : Valuation τ sig (Elt Ideal)) (j : Fin 128) :
    A2 W (Proc.devRef .tc main_v34) (ix2 0 j) = W (Proc.devRef .tc main_arg9) (ix2 (0 : Fin 3) j) := by
  show StableHlo.after hostOps2_1 (StableHlo.after hostOps2 W) (Proc.devRef .tc main_v34) (ix2 0 j) = _
  rw [scale_term, rowcast_apply, keep_scale]

theorem shift_apply (W : Valuation τ sig (Elt Ideal)) (j : Fin 128) :
    A2 W (Proc.devRef .tc main_v35) (ix2 0 j) = W (Proc.devRef .tc main_arg10) (ix2 (0 : Fin 3) j) := by
  show StableHlo.after hostOps2_1 (StableHlo.after hostOps2 W) (Proc.devRef .tc main_v35) (ix2 0 j) = _
  rw [shift_term, rowcast_apply, keep_shift]

end Cert.KernelIdeal.HostB2
end
-- ==== Proof.KHostB4.lean ====
import proofs.«406057_j79568564126007_2_alg».proof.Proof.Gen.KernelIdeal.Launch
import proofs.«406057_j79568564126007_2_alg».proof.Proof.Spec
import proofs.«406057_j79568564126007_2_alg».proof.Proof.KHostBOps
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.WordArith
import Idealize.ShloMosaic.PureOps.Ideal.Laws

set_option maxRecDepth 16384

noncomputable section

namespace Cert.KernelIdeal.HostB4

open Cert.KernelIdeal Cert.KernelIdeal.Gen
open Idealize.ShloMosaic Idealize.ShloMosaic.ValueIdx Idealize.ShloMosaic.StableHlo
open Cert.KernelIdeal.HostBOps

theorem rowcast_apply {α : Type} (X : S3x128.Idx → α) (j : Fin 128) :
    shapeCast S1x128 (shapeCast S128 (extractStridedSlice S1x128 ![1, 0] X slices_S3x128_S1x128_1_0) shapeCasts_S1x128_S128)
      shapeCasts_S128_S1x128 (ix2 0 j) = X (ix2 (1 : Fin 3) j) := by
  rw [shapeCast_a_1a_apply, shapeCast_1a_a_apply, slice2_axis0_apply _ X _ 0 j (1 : Fin 3) rfl]

abbrev headOps {F : FTy → Type} [FloatOps F] : List (HloOp τ sig (Elt F)) := (hostOps4 (F := F)).take 19

abbrev tailOps {F : FTy → Type} [FloatOps F] : List (HloOp τ sig (Elt F)) := (hostOps4 (F := F)).drop 19

theorem after_cut {F : FTy → Type} [FloatOps F] (W : Valuation τ sig (Elt F)) :
    StableHlo.after hostOps4 W = StableHlo.after tailOps (StableHlo.after headOps W) := by
  rw [← after_app]
  exact congrArg (fun l => StableHlo.after l W) (List.take_append_drop 19 (hostOps4 (F := F))).symm

theorem tail_term {F : FTy → Type} [FloatOps F] (V : Valuation τ sig (Elt F)) :
    StableHlo.after tailOps V (Proc.devRef .tc main_v40)
      = select (broadcastInDim S850000x128 ![0] bcast_S850000_S850000x128_0 (V (Proc.devRef .tc main_call2_v12)))
          (V (Proc.devRef .tc main_call2_v13))
          (broadcastInDim S850000x128 ![] bcast_S_S850000x128 (constant (F := F) S_ .f32 0x7FC00000#32)) := by
  simp only [tailOps, hostOps4, List.drop_succ_cons, List.drop_zero]
  after_results_simp
  simp only [TRef.ofBuf, TRef.toBuf, cast_eq]

theorem tail_keep_bit {F : FTy → Type} [FloatOps F] (V : Valuation τ sig (Elt F)) :
    StableHlo.after tailOps V (Proc.devRef .tc main_call2_v12) = V (Proc.devRef .tc main_call2_v12) := by
  simp only [tailOps, hostOps4, List.drop_succ_cons, List.drop_zero]
  after_results_simp

theorem tail_keep_rows {F : FTy → Type} [FloatOps F] (V : Valuation τ sig (Elt F)) :
    StableHlo.after tailOps V (Proc.devRef .tc main_call2_v13) = V (Proc.devRef .tc main_call2_v13) := by
  simp only [tailOps, hostOps4, List.drop_succ_cons, List.drop_zero]
  after_results_simp

set_option maxHeartbeats 1600000 in

theorem bit_term {F : FTy → Type} [FloatOps F] (W : Valuation τ sig (Elt F)) :
    StableHlo.after hostOps4 W (Proc.devRef .tc main_call2_v12) = maskVec (wrapVec (W (Proc.devRef .tc main_v7))) := by
  after_results_simp
  simp only [TRef.ofBuf, TRef.toBuf, cast_eq]
  rfl

set_option maxHeartbeats 1600000 in

theorem rows_term {F : FTy → Type} [FloatOps F] (W : Valuation τ sig (Elt F)) :
    StableHlo.after hostOps4 W (Proc.devRef .tc main_call2_v13)
      = Host.gather gather_S50000x128_S850000x1_S850000x128_1_0_n_n_0_1_1128 (W (Proc.devRef .tc main_v39))
          (wrapVec (W (Proc.devRef .tc main_v7))) := by
  after_results_simp
  rfl

theorem take_term {F : FTy → Type} [FloatOps F] (W : Valuation τ sig (Elt F)) :
    StableHlo.after hostOps4 W (Proc.devRef .tc main_v40)
      = takeVec (W (Proc.devRef .tc main_v7)) (W (Proc.devRef .tc main_v39)) := by
  have hb : StableHlo.after headOps W (Proc.devRef .tc main_call2_v12) = maskVec (wrapVec (W (Proc.devRef .tc main_v7))) := by
    rw [← tail_keep_bit (StableHlo.after headOps W), ← after_cut]
    exact bit_term W
  have hr : StableHlo.after headOps W (Proc.devRef .tc main_call2_v13)
      = Host.gather gather_S50000x128_S850000x1_S850000x128_1_0_n_n_0_1_1128 (W (Proc.devRef .tc main_v39))
          (wrapVec (W (Proc.devRef .tc main_v7))) := by
    rw [← tail_keep_rows (StableHlo.after headOps W), ← after_cut]
    exact rows_term W
  rw [after_cut, tail_term, hb, hr]
  rfl

theorem take_apply (W : Valuation τ sig (Elt Ideal)) (e : Fin 850000) (j : Fin 128) :
    StableHlo.after hostOps4 W (Proc.devRef .tc main_v40) (ix2 e j)
      = Cert.Gcn.takeRow (fun r j'' => W (Proc.devRef .tc main_v39) (ix2 r j'')) (W (Proc.devRef .tc main_v7) (ix1 e)) j := by
  rw [take_term, takeVec_apply]

theorem agg_term {F : FTy → Type} [FloatOps F] (W' : Valuation τ sig (Elt F)) :
    StableHlo.after hostOps4_1 W' (Proc.devRef .tc main_v43)
      = Host.scatterAdd scatter_S50000x128_S850000x1_S850000x128_1_0_0_1
          (broadcastInDim S50000x128 ![] bcast_S_S50000x128 (constant (F := F) S_ .f32 0x00000000#32))
          (broadcastInDim S850000x1 ![0] bcast_S850000_S850000x1_0 (W' (Proc.devRef .tc main_v10)))
          (W' (Proc.devRef .tc main_v40)) := by
  after_results

theorem agg1_apply (W' : Valuation τ sig (Elt Ideal)) (i : Fin 50000) (j : Fin 128) :
    StableHlo.after hostOps4_1 W' (Proc.devRef .tc main_v43) (ix2 i j)
      = Cert.Gcn.aggOf (fun e : Fin 850000 => W' (Proc.devRef .tc main_v10) (ix1 e))
          (fun e j' => W' (Proc.devRef .tc main_v40) (ix2 e j')) i j := by
  have h0 : broadcastInDim S50000x128 ![] bcast_S_S50000x128 (constant (F := Ideal) S_ .f32 0x00000000#32) (ix2 i j) = 0 :=
    Ideal.ofBits_zero_f32
  rw [agg_term, scatterAdd_ideal, Cert.LibRowOps.scatterAdd_rows_apply _ rfl rfl rfl rfl, h0, Cert.Gcn.aggOf]
  refine congrArg (fun t => (0 : EReal) + t) (Finset.sum_congr rfl fun e _ => ?_)
  rw [col_apply]

theorem bias_term {F : FTy → Type} [FloatOps F] (W' : Valuation τ sig (Elt F)) :
    StableHlo.after hostOps4_1 W' (Proc.devRef .tc main_v50)
      = shapeCast S1x128 (shapeCast S128 (extractStridedSlice S1x128 ![1, 0] (W' (Proc.devRef .tc main_arg8)) slices_S3x128_S1x128_1_0)
          shapeCasts_S1x128_S128) shapeCasts_S128_S1x128 := by
  after_results
  rfl

theorem scale_term {F : FTy → Type} [FloatOps F] (W' : Valuation τ sig (Elt F)) :
    StableHlo.after hostOps4_1 W' (Proc.devRef .tc main_v51)
      = shapeCast S1x128 (shapeCast S128 (extractStridedSlice S1x128 ![1, 0] (W' (Proc.devRef .tc main_arg9)) slices_S3x128_S1x128_1_0)
          shapeCasts_S1x128_S128) shapeCasts_S128_S1x128 := by
  after_results
  rfl

theorem shift_term {F : FTy → Type} [FloatOps F] (W' : Valuation τ sig (Elt F)) :
    StableHlo.after hostOps4_1 W' (Proc.devRef .tc main_v52)
      = shapeCast S1x128 (shapeCast S128 (extractStridedSlice S1x128 ![1, 0] (W' (Proc.devRef .tc main_arg10)) slices_S3x128_S1x128_1_0)
          shapeCasts_S1x128_S128) shapeCasts_S128_S1x128 := by
  after_results
  rfl

set_option maxHeartbeats 1600000 in
theorem keep_dst {F : FTy → Type} [FloatOps F] (W : Valuation τ sig (Elt F)) :
    StableHlo.after hostOps4 W (Proc.devRef .tc main_v10) = W (Proc.devRef .tc main_v10) := by
  after_results_simp

set_option maxHeartbeats 1600000 in
theorem keep_bias {F : FTy → Type} [FloatOps F] (W : Valuation τ sig (Elt F)) :
    StableHlo.after hostOps4 W (Proc.devRef .tc main_arg8) = W (Proc.devRef .tc main_arg8) := by
  after_results_simp

set_option maxHeartbeats 1600000 in
theorem keep_scale {F : FTy → Type} [FloatOps F] (W : Valuation τ sig (Elt F)) :
    StableHlo.after hostOps4 W (Proc.devRef .tc main_arg9) = W (Proc.devRef .tc main_arg9) := by
  after_results_simp

set_option maxHeartbeats 1600000 in
theorem keep_shift {F : FTy → Type} [FloatOps F] (W : Valuation τ sig (Elt F)) :
    StableHlo.after hostOps4 W (Proc.devRef .tc main_arg10) = W (Proc.devRef .tc main_arg10) := by
  after_results_simp

abbrev A2 (W : Valuation τ sig (Elt Ideal)) : Valuation τ sig (Elt Ideal) :=
  StableHlo.after hostOps4_1 (StableHlo.after hostOps4 W)

theorem agg_apply (W : Valuation τ sig (Elt Ideal)) (i : Fin 50000) (j : Fin 128) :
    A2 W (Proc.devRef .tc main_v43) (ix2 i j) = Cert.Gcn.aggOf (fun e : Fin 850000 => W (Proc.devRef .tc main_v10) (ix1 e))
      (fun e j' => Cert.Gcn.takeRow (fun r j'' => W (Proc.devRef .tc main_v39) (ix2 r j'')) (W (Proc.devRef .tc main_v7) (ix1 e)) j') i j := by
  have ht : (fun (e : Fin 850000) (j' : Fin 128) => StableHlo.after hostOps4 W (Proc.devRef .tc main_v40) (ix2 e j'))
      = fun e j' => Cert.Gcn.takeRow (fun r j'' => W (Proc.devRef .tc main_v39) (ix2 r j'')) (W (Proc.devRef .tc main_v7) (ix1 e)) j' :=
    funext fun e => funext fun j' => take_apply W e j'
  show StableHlo.after hostOps4_1 (StableHlo.after hostOps4 W) (Proc.devRef .tc main_v43) (ix2 i j) = _
  rw [agg1_apply, keep_dst, ht]

theorem bias_apply (W : Valuation τ sig (Elt Ideal)) (j : Fin 128) :
    A2 W (Proc.devRef .tc main_v50) (ix2 0 j) = W (Proc.devRef .tc main_arg8) (ix2 (1 : Fin 3) j) := by
  show StableHlo.after hostOps4_1 (StableHlo.after hostOps4 W) (Proc.devRef .tc main_v50) (ix2 0 j) = _
  rw [bias_term, rowcast_apply, keep_bias]

theorem scale_apply (W : Valuation τ sig (Elt Ideal)) (j : Fin 128) :
    A2 W (Proc.devRef .tc main_v51) (ix2 0 j) = W (Proc.devRef .tc main_arg9) (ix2 (1 : Fin 3) j) := by
  show StableHlo.after hostOps4_1 (StableHlo.after hostOps4 W) (Proc.devRef .tc main_v51) (ix2 0 j) = _
  rw [scale_term, rowcast_apply, keep_scale]

theorem shift_apply (W : Valuation τ sig (Elt Ideal)) (j : Fin 128) :
    A2 W (Proc.devRef .tc main_v52) (ix2 0 j) = W (Proc.devRef .tc main_arg10) (ix2 (1 : Fin 3) j) := by
  show StableHlo.after hostOps4_1 (StableHlo.after hostOps4 W) (Proc.devRef .tc main_v52) (ix2 0 j) = _
  rw [shift_term, rowcast_apply, keep_shift]

end Cert.KernelIdeal.HostB4
end
-- ==== Proof.KHostB6.lean ====
import proofs.«406057_j79568564126007_2_alg».proof.Proof.Gen.KernelIdeal.Launch
import proofs.«406057_j79568564126007_2_alg».proof.Proof.Spec
import proofs.«406057_j79568564126007_2_alg».proof.Proof.KHostBOps
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.WordArith
import Idealize.ShloMosaic.PureOps.Ideal.Laws

set_option maxRecDepth 16384

noncomputable section

namespace Cert.KernelIdeal.HostB6

open Cert.KernelIdeal Cert.KernelIdeal.Gen
open Idealize.ShloMosaic Idealize.ShloMosaic.ValueIdx Idealize.ShloMosaic.StableHlo
open Cert.KernelIdeal.HostBOps

theorem rowcast_apply {α : Type} (X : S3x128.Idx → α) (j : Fin 128) :
    shapeCast S1x128 (shapeCast S128 (extractStridedSlice S1x128 ![2, 0] X slices_S3x128_S1x128_2_0) shapeCasts_S1x128_S128)
      shapeCasts_S128_S1x128 (ix2 0 j) = X (ix2 (2 : Fin 3) j) := by
  rw [shapeCast_a_1a_apply, shapeCast_1a_a_apply, slice2_axis0_apply _ X _ 0 j (2 : Fin 3) rfl]

abbrev headOps {F : FTy → Type} [FloatOps F] : List (HloOp τ sig (Elt F)) := (hostOps6 (F := F)).take 19

abbrev tailOps {F : FTy → Type} [FloatOps F] : List (HloOp τ sig (Elt F)) := (hostOps6 (F := F)).drop 19

theorem after_cut {F : FTy → Type} [FloatOps F] (W : Valuation τ sig (Elt F)) :
    StableHlo.after hostOps6 W = StableHlo.after tailOps (StableHlo.after headOps W) := by
  rw [← after_app]
  exact congrArg (fun l => StableHlo.after l W) (List.take_append_drop 19 (hostOps6 (F := F))).symm

theorem tail_term {F : FTy → Type} [FloatOps F] (V : Valuation τ sig (Elt F)) :
    StableHlo.after tailOps V (Proc.devRef .tc main_v57)
      = select (broadcastInDim S850000x128 ![0] bcast_S850000_S850000x128_0 (V (Proc.devRef .tc main_call3_v12)))
          (V (Proc.devRef .tc main_call3_v13))
          (broadcastInDim S850000x128 ![] bcast_S_S850000x128 (constant (F := F) S_ .f32 0x7FC00000#32)) := by
  simp only [tailOps, hostOps6, List.drop_succ_cons, List.drop_zero]
  after_results_simp
  simp only [TRef.ofBuf, TRef.toBuf, cast_eq]

theorem tail_keep_bit {F : FTy → Type} [FloatOps F] (V : Valuation τ sig (Elt F)) :
    StableHlo.after tailOps V (Proc.devRef .tc main_call3_v12) = V (Proc.devRef .tc main_call3_v12) := by
  simp only [tailOps, hostOps6, List.drop_succ_cons, List.drop_zero]
  after_results_simp

theorem tail_keep_rows {F : FTy → Type} [FloatOps F] (V : Valuation τ sig (Elt F)) :
    StableHlo.after tailOps V (Proc.devRef .tc main_call3_v13) = V (Proc.devRef .tc main_call3_v13) := by
  simp only [tailOps, hostOps6, List.drop_succ_cons, List.drop_zero]
  after_results_simp

set_option maxHeartbeats 1600000 in

theorem bit_term {F : FTy → Type} [FloatOps F] (W : Valuation τ sig (Elt F)) :
    StableHlo.after hostOps6 W (Proc.devRef .tc main_call3_v12) = maskVec (wrapVec (W (Proc.devRef .tc main_v7))) := by
  after_results_simp
  simp only [TRef.ofBuf, TRef.toBuf, cast_eq]
  rfl

set_option maxHeartbeats 1600000 in

theorem rows_term {F : FTy → Type} [FloatOps F] (W : Valuation τ sig (Elt F)) :
    StableHlo.after hostOps6 W (Proc.devRef .tc main_call3_v13)
      = Host.gather gather_S50000x128_S850000x1_S850000x128_1_0_n_n_0_1_1128 (W (Proc.devRef .tc main_v56))
          (wrapVec (W (Proc.devRef .tc main_v7))) := by
  after_results_simp
  rfl

theorem take_term {F : FTy → Type} [FloatOps F] (W : Valuation τ sig (Elt F)) :
    StableHlo.after hostOps6 W (Proc.devRef .tc main_v57)
      = takeVec (W (Proc.devRef .tc main_v7)) (W (Proc.devRef .tc main_v56)) := by
  have hb : StableHlo.after headOps W (Proc.devRef .tc main_call3_v12) = maskVec (wrapVec (W (Proc.devRef .tc main_v7))) := by
    rw [← tail_keep_bit (StableHlo.after headOps W), ← after_cut]
    exact bit_term W
  have hr : StableHlo.after headOps W (Proc.devRef .tc main_call3_v13)
      = Host.gather gather_S50000x128_S850000x1_S850000x128_1_0_n_n_0_1_1128 (W (Proc.devRef .tc main_v56))
          (wrapVec (W (Proc.devRef .tc main_v7))) := by
    rw [← tail_keep_rows (StableHlo.after headOps W), ← after_cut]
    exact rows_term W
  rw [after_cut, tail_term, hb, hr]
  rfl

theorem take_apply (W : Valuation τ sig (Elt Ideal)) (e : Fin 850000) (j : Fin 128) :
    StableHlo.after hostOps6 W (Proc.devRef .tc main_v57) (ix2 e j)
      = Cert.Gcn.takeRow (fun r j'' => W (Proc.devRef .tc main_v56) (ix2 r j'')) (W (Proc.devRef .tc main_v7) (ix1 e)) j := by
  rw [take_term, takeVec_apply]

theorem agg_term {F : FTy → Type} [FloatOps F] (W' : Valuation τ sig (Elt F)) :
    StableHlo.after hostOps6_1 W' (Proc.devRef .tc main_v60)
      = Host.scatterAdd scatter_S50000x128_S850000x1_S850000x128_1_0_0_1
          (broadcastInDim S50000x128 ![] bcast_S_S50000x128 (constant (F := F) S_ .f32 0x00000000#32))
          (broadcastInDim S850000x1 ![0] bcast_S850000_S850000x1_0 (W' (Proc.devRef .tc main_v10)))
          (W' (Proc.devRef .tc main_v57)) := by
  after_results

theorem agg1_apply (W' : Valuation τ sig (Elt Ideal)) (i : Fin 50000) (j : Fin 128) :
    StableHlo.after hostOps6_1 W' (Proc.devRef .tc main_v60) (ix2 i j)
      = Cert.Gcn.aggOf (fun e : Fin 850000 => W' (Proc.devRef .tc main_v10) (ix1 e))
          (fun e j' => W' (Proc.devRef .tc main_v57) (ix2 e j')) i j := by
  have h0 : broadcastInDim S50000x128 ![] bcast_S_S50000x128 (constant (F := Ideal) S_ .f32 0x00000000#32) (ix2 i j) = 0 :=
    Ideal.ofBits_zero_f32
  rw [agg_term, scatterAdd_ideal, Cert.LibRowOps.scatterAdd_rows_apply _ rfl rfl rfl rfl, h0, Cert.Gcn.aggOf]
  refine congrArg (fun t => (0 : EReal) + t) (Finset.sum_congr rfl fun e _ => ?_)
  rw [col_apply]

theorem bias_term {F : FTy → Type} [FloatOps F] (W' : Valuation τ sig (Elt F)) :
    StableHlo.after hostOps6_1 W' (Proc.devRef .tc main_v67)
      = shapeCast S1x128 (shapeCast S128 (extractStridedSlice S1x128 ![2, 0] (W' (Proc.devRef .tc main_arg8)) slices_S3x128_S1x128_2_0)
          shapeCasts_S1x128_S128) shapeCasts_S128_S1x128 := by
  after_results
  rfl

theorem scale_term {F : FTy → Type} [FloatOps F] (W' : Valuation τ sig (Elt F)) :
    StableHlo.after hostOps6_1 W' (Proc.devRef .tc main_v68)
      = shapeCast S1x128 (shapeCast S128 (extractStridedSlice S1x128 ![2, 0] (W' (Proc.devRef .tc main_arg9)) slices_S3x128_S1x128_2_0)
          shapeCasts_S1x128_S128) shapeCasts_S128_S1x128 := by
  after_results
  rfl

theorem shift_term {F : FTy → Type} [FloatOps F] (W' : Valuation τ sig (Elt F)) :
    StableHlo.after hostOps6_1 W' (Proc.devRef .tc main_v69)
      = shapeCast S1x128 (shapeCast S128 (extractStridedSlice S1x128 ![2, 0] (W' (Proc.devRef .tc main_arg10)) slices_S3x128_S1x128_2_0)
          shapeCasts_S1x128_S128) shapeCasts_S128_S1x128 := by
  after_results
  rfl

set_option maxHeartbeats 1600000 in
theorem keep_dst {F : FTy → Type} [FloatOps F] (W : Valuation τ sig (Elt F)) :
    StableHlo.after hostOps6 W (Proc.devRef .tc main_v10) = W (Proc.devRef .tc main_v10) := by
  after_results_simp

set_option maxHeartbeats 1600000 in
theorem keep_bias {F : FTy → Type} [FloatOps F] (W : Valuation τ sig (Elt F)) :
    StableHlo.after hostOps6 W (Proc.devRef .tc main_arg8) = W (Proc.devRef .tc main_arg8) := by
  after_results_simp

set_option maxHeartbeats 1600000 in
theorem keep_scale {F : FTy → Type} [FloatOps F] (W : Valuation τ sig (Elt F)) :
    StableHlo.after hostOps6 W (Proc.devRef .tc main_arg9) = W (Proc.devRef .tc main_arg9) := by
  after_results_simp

set_option maxHeartbeats 1600000 in
theorem keep_shift {F : FTy → Type} [FloatOps F] (W : Valuation τ sig (Elt F)) :
    StableHlo.after hostOps6 W (Proc.devRef .tc main_arg10) = W (Proc.devRef .tc main_arg10) := by
  after_results_simp

abbrev A2 (W : Valuation τ sig (Elt Ideal)) : Valuation τ sig (Elt Ideal) :=
  StableHlo.after hostOps6_1 (StableHlo.after hostOps6 W)

theorem agg_apply (W : Valuation τ sig (Elt Ideal)) (i : Fin 50000) (j : Fin 128) :
    A2 W (Proc.devRef .tc main_v60) (ix2 i j) = Cert.Gcn.aggOf (fun e : Fin 850000 => W (Proc.devRef .tc main_v10) (ix1 e))
      (fun e j' => Cert.Gcn.takeRow (fun r j'' => W (Proc.devRef .tc main_v56) (ix2 r j'')) (W (Proc.devRef .tc main_v7) (ix1 e)) j') i j := by
  have ht : (fun (e : Fin 850000) (j' : Fin 128) => StableHlo.after hostOps6 W (Proc.devRef .tc main_v57) (ix2 e j'))
      = fun e j' => Cert.Gcn.takeRow (fun r j'' => W (Proc.devRef .tc main_v56) (ix2 r j'')) (W (Proc.devRef .tc main_v7) (ix1 e)) j' :=
    funext fun e => funext fun j' => take_apply W e j'
  show StableHlo.after hostOps6_1 (StableHlo.after hostOps6 W) (Proc.devRef .tc main_v60) (ix2 i j) = _
  rw [agg1_apply, keep_dst, ht]

theorem bias_apply (W : Valuation τ sig (Elt Ideal)) (j : Fin 128) :
    A2 W (Proc.devRef .tc main_v67) (ix2 0 j) = W (Proc.devRef .tc main_arg8) (ix2 (2 : Fin 3) j) := by
  show StableHlo.after hostOps6_1 (StableHlo.after hostOps6 W) (Proc.devRef .tc main_v67) (ix2 0 j) = _
  rw [bias_term, rowcast_apply, keep_bias]

theorem scale_apply (W : Valuation τ sig (Elt Ideal)) (j : Fin 128) :
    A2 W (Proc.devRef .tc main_v68) (ix2 0 j) = W (Proc.devRef .tc main_arg9) (ix2 (2 : Fin 3) j) := by
  show StableHlo.after hostOps6_1 (StableHlo.after hostOps6 W) (Proc.devRef .tc main_v68) (ix2 0 j) = _
  rw [scale_term, rowcast_apply, keep_scale]

theorem shift_apply (W : Valuation τ sig (Elt Ideal)) (j : Fin 128) :
    A2 W (Proc.devRef .tc main_v69) (ix2 0 j) = W (Proc.devRef .tc main_arg10) (ix2 (2 : Fin 3) j) := by
  show StableHlo.after hostOps6_1 (StableHlo.after hostOps6 W) (Proc.devRef .tc main_v69) (ix2 0 j) = _
  rw [shift_term, rowcast_apply, keep_shift]

end Cert.KernelIdeal.HostB6
end
-- ==== Proof.Layer.lean ====
import proofs.«406057_j79568564126007_2_alg».proof.Proof.Spec
import Idealize.ShloMosaic.Lib.StableHlo.Predicate

noncomputable section

namespace Cert.Gcn

open Idealize.ShloMosaic

theorem wrapIdx_of_nonneg (w : BitVec 32) (h : 0 ≤ w.toInt) : wrapIdx w = w := by
  unfold wrapIdx; rw [if_neg (not_lt.mpr h)]

theorem inTable_of_range (w : BitVec 32) (h0 : 0 ≤ w.toInt) (h1 : w.toInt < 50000) : inTable w := by
  unfold inTable; rw [wrapIdx_of_nonneg w h0]; omega

theorem rowOf_of_eq (w : BitVec 32) (i : Fin 50000) (h : w.toInt = (i.val : ℤ)) : rowOf w = i := by
  unfold rowOf
  rw [wrapIdx_of_nonneg w (by omega)]
  unfold Cert.LibRowOps.clampRow
  apply Fin.ext
  have := i.isLt
  simp only
  omega

-- A node's scale D i is non-negative and not +∞, so it moves across the sum over the edges into i; an id in range takes the table's own row.
theorem layer_row_eq (H : Fin 50000 → Fin 128 → EReal) (Wc : Fin 128 → Fin 128 → EReal) (D : Fin 50000 → EReal)
    (src dst : Fin 850000 → BitVec 32) (b g be : Fin 128 → EReal)
    (hD : ∀ i, 0 ≤ D i ∧ D i ≠ ⊤) (hsrc : ∀ e, 0 ≤ (src e).toInt ∧ (src e).toInt < 50000) (i : Fin 50000) (j : Fin 128) :
    postRow (fun j' => aggOf dst (fun e j'' => takeRow (fun r q => linRow (H r) Wc (D r) q) (src e) j'') i j') (D i) b g be (H i) j
      = postRowPre (fun j' => aggOf dst (fun e j'' => (∑ k, H (rowOf (src e)) k * Wc k j'') * (D (rowOf (src e)) * D (rowOf (dst e)))) i j')
          b g be (H i) j := by
  unfold postRow postRowPre
  have hrow : (fun j' => aggOf dst (fun e j'' => takeRow (fun r q => linRow (H r) Wc (D r) q) (src e) j'') i j' * D i + b j')
      = (fun j' => aggOf dst (fun e j'' => (∑ k, H (rowOf (src e)) k * Wc k j'') * (D (rowOf (src e)) * D (rowOf (dst e)))) i j' + b j') := by
    funext j'
    refine congrArg (· + b j') ?_
    unfold aggOf
    have hs := agg_scale (fun e => (dst e).toInt = (i.val : ℤ)) (fun e => ∑ k, H (rowOf (src e)) k * Wc k j')
      (fun e => D (rowOf (src e))) (D i) (hD i).1 (hD i).2
    refine Eq.trans ?_ (hs.trans ?_)
    · refine congrArg (fun s => (0 + s) * D i) (Finset.sum_congr rfl fun e _ => ?_)
      unfold takeRow linRow
      beta_reduce
      rw [if_pos (inTable_of_range _ (hsrc e).1 (hsrc e).2)]
    · refine congrArg (fun s => 0 + s) (Finset.sum_congr rfl fun e _ => ?_)
      beta_reduce
      split_ifs with h
      · rw [rowOf_of_eq (dst e) i h]
      · rfl
  rw [hrow]

def layerK (H : Fin 50000 → Fin 128 → EReal) (Wc : Fin 128 → Fin 128 → EReal) (b g be : Fin 128 → EReal)
    (src dst : Fin 850000 → BitVec 32) (D : Fin 50000 → EReal) (i : Fin 50000) (j : Fin 128) : EReal :=
  postRow (fun j' => aggOf dst (fun e j'' => takeRow (fun r q => linRow (H r) Wc (D r) q) (src e) j'') i j') (D i) b g be (H i) j

def layerR (H : Fin 50000 → Fin 128 → EReal) (Wc : Fin 128 → Fin 128 → EReal) (b g be : Fin 128 → EReal)
    (src dst : Fin 850000 → BitVec 32) (D : Fin 50000 → EReal) (i : Fin 50000) (j : Fin 128) : EReal :=
  postRowPre (fun j' => aggOf dst (fun e j'' => (∑ k, H (rowOf (src e)) k * Wc k j'') * (D (rowOf (src e)) * D (rowOf (dst e)))) i j')
    b g be (H i) j

theorem layerK_eq_layerR (H : Fin 50000 → Fin 128 → EReal) (Wc : Fin 128 → Fin 128 → EReal) (b g be : Fin 128 → EReal)
    (src dst : Fin 850000 → BitVec 32) (D : Fin 50000 → EReal)
    (hD : ∀ i, 0 ≤ D i ∧ D i ≠ ⊤) (hsrc : ∀ e, 0 ≤ (src e).toInt ∧ (src e).toInt < 50000) :
    layerK H Wc b g be src dst D = layerR H Wc b g be src dst D := by
  funext i j
  exact layer_row_eq H Wc D src dst b g be hD hsrc i j

def netK (X : Fin 50000 → Fin 64 → EReal) (We : Fin 64 → Fin 128 → EReal) (b0 g0 be0 : Fin 128 → EReal)
    (Wc : Fin 3 → Fin 128 → Fin 128 → EReal) (bc gl bl : Fin 3 → Fin 128 → EReal)
    (src dst : Fin 850000 → BitVec 32) (bid : Fin 50000 → BitVec 32)
    (W1 : Fin 128 → Fin 64 → EReal) (b1 : Fin 64 → EReal) (W2 : Fin 64 → Fin 12 → EReal) (b2 : Fin 12 → EReal)
    (g : Fin 512) (o : Fin 12) : EReal :=
  readRow (fun q => poolOf bid
    (layerK (layerK (layerK (fun r j => embRow (X r) We b0 g0 be0 j) (Wc 0) (bc 0) (gl 0) (bl 0) src dst (fun i => scaleOf (degOf dst i)))
      (Wc 1) (bc 1) (gl 1) (bl 1) src dst (fun i => scaleOf (degOf dst i)))
      (Wc 2) (bc 2) (gl 2) (bl 2) src dst (fun i => scaleOf (degOf dst i))) g q) W1 b1 W2 b2 o

def netR (X : Fin 50000 → Fin 64 → EReal) (We : Fin 64 → Fin 128 → EReal) (b0 g0 be0 : Fin 128 → EReal)
    (Wc : Fin 3 → Fin 128 → Fin 128 → EReal) (bc gl bl : Fin 3 → Fin 128 → EReal)
    (src dst : Fin 850000 → BitVec 32) (bid : Fin 50000 → BitVec 32)
    (W1 : Fin 128 → Fin 64 → EReal) (b1 : Fin 64 → EReal) (W2 : Fin 64 → Fin 12 → EReal) (b2 : Fin 12 → EReal)
    (g : Fin 512) (o : Fin 12) : EReal :=
  readRow (fun q => poolOf bid
    (layerR (layerR (layerR (fun r j => embRow (X r) We b0 g0 be0 j) (Wc 0) (bc 0) (gl 0) (bl 0) src dst (fun i => scaleOf (degOf dst i)))
      (Wc 1) (bc 1) (gl 1) (bl 1) src dst (fun i => scaleOf (degOf dst i)))
      (Wc 2) (bc 2) (gl 2) (bl 2) src dst (fun i => scaleOf (degOf dst i))) g q) W1 b1 W2 b2 o

-- Layer by layer the two spellings of the network agree where every source id lies in 0 … 49999.
theorem netK_eq_netR (X : Fin 50000 → Fin 64 → EReal) (We : Fin 64 → Fin 128 → EReal) (b0 g0 be0 : Fin 128 → EReal)
    (Wc : Fin 3 → Fin 128 → Fin 128 → EReal) (bc gl bl : Fin 3 → Fin 128 → EReal)
    (src dst : Fin 850000 → BitVec 32) (bid : Fin 50000 → BitVec 32)
    (W1 : Fin 128 → Fin 64 → EReal) (b1 : Fin 64 → EReal) (W2 : Fin 64 → Fin 12 → EReal) (b2 : Fin 12 → EReal)
    (hsrc : ∀ e, 0 ≤ (src e).toInt ∧ (src e).toInt < 50000) (g : Fin 512) (o : Fin 12) :
    netK X We b0 g0 be0 Wc bc gl bl src dst bid W1 b1 W2 b2 g o = netR X We b0 g0 be0 Wc bc gl bl src dst bid W1 b1 W2 b2 g o := by
  have hD : ∀ i, 0 ≤ (fun i => scaleOf (degOf dst i)) i ∧ (fun i => scaleOf (degOf dst i)) i ≠ ⊤ := fun i => scale_nonneg _
  unfold netK netR
  rw [layerK_eq_layerR _ (Wc 0) _ _ _ src dst _ hD hsrc, layerK_eq_layerR _ (Wc 1) _ _ _ src dst _ hD hsrc,
    layerK_eq_layerR _ (Wc 2) _ _ _ src dst _ hD hsrc]

-- A self loop's id e - 800000 lies in 0 … 49999, so the range carries over to the edge list with its self loops.
theorem withLoops_range (ei : Fin 800000 → BitVec 32) (h : ∀ e', 0 ≤ (ei e').toInt ∧ (ei e').toInt < 50000) (e : Fin 850000) :
    0 ≤ (withLoops ei e).toInt ∧ (withLoops ei e).toInt < 50000 := by
  unfold withLoops
  split
  · exact h _
  · have he := e.isLt
    have hlt : e.val - 800000 < 2 ^ 31 := by omega
    rw [StableHlo.Predicate.toInt_ofNat_small _ hlt]
    omega

end Cert.Gcn

end
-- ==== Proof.KValue.lean ====
import proofs.«406057_j79568564126007_2_alg».proof.Proof.KCarry
import proofs.«406057_j79568564126007_2_alg».proof.Proof.RegEmb
import proofs.«406057_j79568564126007_2_alg».proof.Proof.RegLin1
import proofs.«406057_j79568564126007_2_alg».proof.Proof.RegLin3
import proofs.«406057_j79568564126007_2_alg».proof.Proof.RegLin5
import proofs.«406057_j79568564126007_2_alg».proof.Proof.RegPost2
import proofs.«406057_j79568564126007_2_alg».proof.Proof.RegPost4
import proofs.«406057_j79568564126007_2_alg».proof.Proof.RegPost6
import proofs.«406057_j79568564126007_2_alg».proof.Proof.RegRead
import proofs.«406057_j79568564126007_2_alg».proof.Proof.KHostA
import proofs.«406057_j79568564126007_2_alg».proof.Proof.KHostP
import proofs.«406057_j79568564126007_2_alg».proof.Proof.KHostB2
import proofs.«406057_j79568564126007_2_alg».proof.Proof.KHostB4
import proofs.«406057_j79568564126007_2_alg».proof.Proof.KHostB6
import proofs.«406057_j79568564126007_2_alg».proof.Proof.Layer

set_option maxRecDepth 16384

noncomputable section

namespace Cert.KernelIdeal.KValue

open Cert.KernelIdeal Cert.KernelIdeal.Gen Cert.KernelIdeal.Carry
open Idealize.ShloMosaic Idealize.ShloMosaic.TcCoe Idealize.ShloMosaic.ValueIdx Idealize.SL.Sem
open Cert.Gcn

variable (m : (ℓ : Loc nD τ sig) → Buf (Elt Ideal) ℓ) (ρ : Dev nD → PrngReg) (c : Dev nD)

abbrev aX (r : Fin 50000) (k : Fin 64) : EReal := m ((c : Thread nD τ).loc main_arg0) (ix2 r k)
abbrev aEI (a : Fin 2) (e : Fin 800000) : BitVec 32 := m ((c : Thread nD τ).loc main_arg1) (ix2 a e)
abbrev aBid (i : Fin 50000) : BitVec 32 := m ((c : Thread nD τ).loc main_arg2) (ix1 i)
abbrev aWe (k : Fin 64) (j : Fin 128) : EReal := m ((c : Thread nD τ).loc main_arg3) (ix2 k j)
abbrev aB0 (j : Fin 128) : EReal := m ((c : Thread nD τ).loc main_arg4) (ix1 j)
abbrev aG0 (j : Fin 128) : EReal := m ((c : Thread nD τ).loc main_arg5) (ix1 j)
abbrev aBe0 (j : Fin 128) : EReal := m ((c : Thread nD τ).loc main_arg6) (ix1 j)
abbrev aWc (l : Fin 3) (k j : Fin 128) : EReal := m ((c : Thread nD τ).loc main_arg7) (ix3 l k j)
abbrev aBc (l : Fin 3) (j : Fin 128) : EReal := m ((c : Thread nD τ).loc main_arg8) (ix2 l j)
abbrev aGl (l : Fin 3) (j : Fin 128) : EReal := m ((c : Thread nD τ).loc main_arg9) (ix2 l j)
abbrev aBl (l : Fin 3) (j : Fin 128) : EReal := m ((c : Thread nD τ).loc main_arg10) (ix2 l j)
abbrev aW1 (q : Fin 128) (k : Fin 64) : EReal := m ((c : Thread nD τ).loc main_arg11) (ix2 q k)
abbrev aB1 (k : Fin 64) : EReal := m ((c : Thread nD τ).loc main_arg12) (ix1 k)
abbrev aW2 (k : Fin 64) (o : Fin 12) : EReal := m ((c : Thread nD τ).loc main_arg13) (ix2 k o)
abbrev aB2 (o : Fin 12) : EReal := m ((c : Thread nD τ).loc main_arg14) (ix1 o)

abbrev aSrc : Fin 850000 → BitVec 32 := withLoops (aEI m c 0)
abbrev aDst : Fin 850000 → BitVec 32 := withLoops (aEI m c 1)
abbrev aD (i : Fin 50000) : EReal := scaleOf (degOf (aDst m c) i)

def kH0 (r : Fin 50000) (j : Fin 128) : EReal := W2 m ρ c (Proc.devRef .tc main_v3) (ix2 r j)

theorem kH0_eq : kH0 m ρ c = fun r j => embRow (aX m c r) (aWe m c) (aB0 m c) (aG0 m c) (aBe0 m c) j := by
  funext r j
  unfold kH0
  refine (congrFun (W2_arr m ρ c 5) (ix2 r j)).trans ((RegEmb.final (V1 m ρ) c r j).trans ?_)
  have e0 : ∀ k : Fin 64, V1 m ρ c main_arg0 (ix2 r k) = aX m c r k := fun k => congrFun (arg0_at1 m ρ c) (ix2 r k)
  have e3 : ∀ (k : Fin 64) (j' : Fin 128), V1 m ρ c main_arg3 (ix2 k j') = aWe m c k j' := fun k j' => congrFun (arg3_at1 m ρ c) (ix2 k j')
  have e4 : ∀ j' : Fin 128, V1 m ρ c main_v0 (ix2 0 j') = aB0 m c j' := fun j' => HostA.v0_apply (W0 m ρ c) j'
  have e5 : ∀ j' : Fin 128, V1 m ρ c main_v1 (ix2 0 j') = aG0 m c j' := fun j' => HostA.v1_apply (W0 m ρ c) j'
  have e6 : ∀ j' : Fin 128, V1 m ρ c main_v2 (ix2 0 j') = aBe0 m c j' := fun j' => HostA.v2_apply (W0 m ρ c) j'
  simp only [e0, e3, e4, e5, e6]

theorem kSrc_eq (e : Fin 850000) : W5 m ρ c (Proc.devRef .tc main_v7) (ix1 e) = aSrc m c e := by
  refine (HostA.src_apply (W2 m ρ c) e).trans ?_
  have h : ∀ e' : Fin 800000, W2 m ρ c (Proc.devRef .tc main_arg1) (ix2 0 e') = aEI m c 0 e' := fun e' => congrFun (arg1_at2 m ρ c) (ix2 0 e')
  simp only [h]

theorem kDst_eq (e : Fin 850000) : W5 m ρ c (Proc.devRef .tc main_v10) (ix1 e) = aDst m c e := by
  refine (HostA.dst_apply (W2 m ρ c) e).trans ?_
  have h : ∀ e' : Fin 800000, W2 m ρ c (Proc.devRef .tc main_arg1) (ix2 1 e') = aEI m c 1 e' := fun e' => congrFun (arg1_at2 m ρ c) (ix2 1 e')
  simp only [h]

theorem kD_eq (i : Fin 50000) : W5 m ρ c (Proc.devRef .tc main_v19) (ix2 i 0) = aD m c i := by
  refine (HostA.dinv2_apply (W2 m ρ c) i).trans ?_
  have h : ∀ e : Fin 850000, W5 m ρ c (Proc.devRef .tc main_v10) (ix1 e) = aDst m c e := kDst_eq m ρ c
  simp only [h]

theorem kD_at8 (i : Fin 50000) : W8 m ρ c (Proc.devRef .tc main_v19) (ix2 i 0) = aD m c i :=
  (congrFun (v19_at8_from5 m ρ c) (ix2 i 0)).trans (kD_eq m ρ c i)
theorem kD_at10 (i : Fin 50000) : W10 m ρ c (Proc.devRef .tc main_v19) (ix2 i 0) = aD m c i :=
  (congrFun (v19_at10_from5 m ρ c) (ix2 i 0)).trans (kD_eq m ρ c i)
theorem kD_at13 (i : Fin 50000) : W13 m ρ c (Proc.devRef .tc main_v19) (ix2 i 0) = aD m c i :=
  (congrFun (v19_at13_from5 m ρ c) (ix2 i 0)).trans (kD_eq m ρ c i)
theorem kD_at15 (i : Fin 50000) : W15 m ρ c (Proc.devRef .tc main_v19) (ix2 i 0) = aD m c i :=
  (congrFun (v19_at15_from5 m ρ c) (ix2 i 0)).trans (kD_eq m ρ c i)
theorem kD_at18 (i : Fin 50000) : W18 m ρ c (Proc.devRef .tc main_v19) (ix2 i 0) = aD m c i :=
  (congrFun (v19_at18_from5 m ρ c) (ix2 i 0)).trans (kD_eq m ρ c i)

def kM1 (r : Fin 50000) (j : Fin 128) : EReal := W6 m ρ c (Proc.devRef .tc main_v22) (ix2 r j)

theorem kM1_eq : kM1 m ρ c = fun r j => linRow (kH0 m ρ c r) (aWc m c 0) (aD m c r) j := by
  funext r j
  unfold kM1
  refine (congrFun (W6_arr m ρ c 3) (ix2 r j)).trans ((RegLin1.final (V5 m ρ) c r j).trans ?_)
  have e0 : ∀ k : Fin 128, V5 m ρ c main_v3 (ix2 r k) = kH0 m ρ c r k := fun k => congrFun (v3_at5_from2 m ρ c) (ix2 r k)
  have e1 : ∀ k j' : Fin 128, V5 m ρ c main_v21 (ix2 k j') = aWc m c 0 k j' := fun k j' =>
    (HostA.wc0_apply (W2 m ρ c) k j').trans (congrFun (arg7_at2 m ρ c) (ix3 0 k j'))
  have e2 : V5 m ρ c main_v19 (ix2 r 0) = aD m c r := kD_eq m ρ c r
  simp only [e0, e1, e2]

def kA1 (i : Fin 50000) (j : Fin 128) : EReal := W8 m ρ c (Proc.devRef .tc main_v26) (ix2 i j)

theorem kA1_eq : kA1 m ρ c = fun i j => aggOf (aDst m c) (fun e j' => takeRow (kM1 m ρ c) (aSrc m c e) j') i j := by
  funext i j
  unfold kA1
  refine (HostB2.agg_apply (W6 m ρ c) i j).trans ?_
  have ed : ∀ e : Fin 850000, W6 m ρ c (Proc.devRef .tc main_v10) (ix1 e) = aDst m c e := fun e =>
    (congrFun (v10_at6_from5 m ρ c) (ix1 e)).trans (kDst_eq m ρ c e)
  have es : ∀ e : Fin 850000, W6 m ρ c (Proc.devRef .tc main_v7) (ix1 e) = aSrc m c e := fun e =>
    (congrFun (v7_at6_from5 m ρ c) (ix1 e)).trans (kSrc_eq m ρ c e)
  simp only [ed, es]
  rfl

def kH1 (r : Fin 50000) (j : Fin 128) : EReal := W9 m ρ c (Proc.devRef .tc main_v36) (ix2 r j)

theorem kH1_eq : kH1 m ρ c = layerK (kH0 m ρ c) (aWc m c 0) (aBc m c 0) (aGl m c 0) (aBl m c 0) (aSrc m c) (aDst m c) (aD m c) := by
  funext r j
  unfold kH1 layerK
  refine (congrFun (W9_arr m ρ c 6) (ix2 r j)).trans ((RegPost2.final (V8 m ρ) c r j).trans ?_)
  have e0 : ∀ j' : Fin 128, V8 m ρ c main_v26 (ix2 r j') = kA1 m ρ c r j' := fun j' => rfl
  have e1 : V8 m ρ c main_v19 (ix2 r 0) = aD m c r := kD_at8 m ρ c r
  have e2 : ∀ j' : Fin 128, V8 m ρ c main_v33 (ix2 0 j') = aBc m c 0 j' := fun j' =>
    (HostB2.bias_apply (W6 m ρ c) j').trans (congrFun (arg8_at6 m ρ c) (ix2 0 j'))
  have e3 : ∀ j' : Fin 128, V8 m ρ c main_v34 (ix2 0 j') = aGl m c 0 j' := fun j' =>
    (HostB2.scale_apply (W6 m ρ c) j').trans (congrFun (arg9_at6 m ρ c) (ix2 0 j'))
  have e4 : ∀ j' : Fin 128, V8 m ρ c main_v35 (ix2 0 j') = aBl m c 0 j' := fun j' =>
    (HostB2.shift_apply (W6 m ρ c) j').trans (congrFun (arg10_at6 m ρ c) (ix2 0 j'))
  have e5 : ∀ j' : Fin 128, V8 m ρ c main_v3 (ix2 r j') = kH0 m ρ c r j' := fun j' => congrFun (v3_at8_from2 m ρ c) (ix2 r j')
  simp only [e0, e1, e2, e3, e4, e5, kA1_eq, kM1_eq]

def kM2 (r : Fin 50000) (j : Fin 128) : EReal := W11 m ρ c (Proc.devRef .tc main_v39) (ix2 r j)

theorem kM2_eq : kM2 m ρ c = fun r j => linRow (kH1 m ρ c r) (aWc m c 1) (aD m c r) j := by
  funext r j
  unfold kM2
  refine (congrFun (W11_arr m ρ c 3) (ix2 r j)).trans ((RegLin3.final (V10 m ρ) c r j).trans ?_)
  have e0 : ∀ k : Fin 128, V10 m ρ c main_v36 (ix2 r k) = kH1 m ρ c r k := fun k => congrFun (v36_at10_from9 m ρ c) (ix2 r k)
  have e1 : ∀ k j' : Fin 128, V10 m ρ c main_v38 (ix2 k j') = aWc m c 1 k j' := fun k j' =>
    (HostA.wc1_apply (W9 m ρ c) k j').trans (congrFun (arg7_at9 m ρ c) (ix3 1 k j'))
  have e2 : V10 m ρ c main_v19 (ix2 r 0) = aD m c r := kD_at10 m ρ c r
  simp only [e0, e1, e2]

def kA2 (i : Fin 50000) (j : Fin 128) : EReal := W13 m ρ c (Proc.devRef .tc main_v43) (ix2 i j)

theorem kA2_eq : kA2 m ρ c = fun i j => aggOf (aDst m c) (fun e j' => takeRow (kM2 m ρ c) (aSrc m c e) j') i j := by
  funext i j
  unfold kA2
  refine (HostB4.agg_apply (W11 m ρ c) i j).trans ?_
  have ed : ∀ e : Fin 850000, W11 m ρ c (Proc.devRef .tc main_v10) (ix1 e) = aDst m c e := fun e =>
    (congrFun (v10_at11_from5 m ρ c) (ix1 e)).trans (kDst_eq m ρ c e)
  have es : ∀ e : Fin 850000, W11 m ρ c (Proc.devRef .tc main_v7) (ix1 e) = aSrc m c e := fun e =>
    (congrFun (v7_at11_from5 m ρ c) (ix1 e)).trans (kSrc_eq m ρ c e)
  simp only [ed, es]
  rfl

def kH2 (r : Fin 50000) (j : Fin 128) : EReal := W14 m ρ c (Proc.devRef .tc main_v53) (ix2 r j)

theorem kH2_eq : kH2 m ρ c = layerK (kH1 m ρ c) (aWc m c 1) (aBc m c 1) (aGl m c 1) (aBl m c 1) (aSrc m c) (aDst m c) (aD m c) := by
  funext r j
  unfold kH2 layerK
  refine (congrFun (W14_arr m ρ c 6) (ix2 r j)).trans ((RegPost4.final (V13 m ρ) c r j).trans ?_)
  have e0 : ∀ j' : Fin 128, V13 m ρ c main_v43 (ix2 r j') = kA2 m ρ c r j' := fun j' => rfl
  have e1 : V13 m ρ c main_v19 (ix2 r 0) = aD m c r := kD_at13 m ρ c r
  have e2 : ∀ j' : Fin 128, V13 m ρ c main_v50 (ix2 0 j') = aBc m c 1 j' := fun j' =>
    (HostB4.bias_apply (W11 m ρ c) j').trans (congrFun (arg8_at11 m ρ c) (ix2 1 j'))
  have e3 : ∀ j' : Fin 128, V13 m ρ c main_v51 (ix2 0 j') = aGl m c 1 j' := fun j' =>
    (HostB4.scale_apply (W11 m ρ c) j').trans (congrFun (arg9_at11 m ρ c) (ix2 1 j'))
  have e4 : ∀ j' : Fin 128, V13 m ρ c main_v52 (ix2 0 j') = aBl m c 1 j' := fun j' =>
    (HostB4.shift_apply (W11 m ρ c) j').trans (congrFun (arg10_at11 m ρ c) (ix2 1 j'))
  have e5 : ∀ j' : Fin 128, V13 m ρ c main_v36 (ix2 r j') = kH1 m ρ c r j' := fun j' => congrFun (v36_at13_from9 m ρ c) (ix2 r j')
  simp only [e0, e1, e2, e3, e4, e5, kA2_eq, kM2_eq]

def kM3 (r : Fin 50000) (j : Fin 128) : EReal := W16 m ρ c (Proc.devRef .tc main_v56) (ix2 r j)

theorem kM3_eq : kM3 m ρ c = fun r j => linRow (kH2 m ρ c r) (aWc m c 2) (aD m c r) j := by
  funext r j
  unfold kM3
  refine (congrFun (W16_arr m ρ c 3) (ix2 r j)).trans ((RegLin5.final (V15 m ρ) c r j).trans ?_)
  have e0 : ∀ k : Fin 128, V15 m ρ c main_v53 (ix2 r k) = kH2 m ρ c r k := fun k => congrFun (v53_at15_from14 m ρ c) (ix2 r k)
  have e1 : ∀ k j' : Fin 128, V15 m ρ c main_v55 (ix2 k j') = aWc m c 2 k j' := fun k j' =>
    (HostA.wc2_apply (W14 m ρ c) k j').trans (congrFun (arg7_at14 m ρ c) (ix3 2 k j'))
  have e2 : V15 m ρ c main_v19 (ix2 r 0) = aD m c r := kD_at15 m ρ c r
  simp only [e0, e1, e2]

def kA3 (i : Fin 50000) (j : Fin 128) : EReal := W18 m ρ c (Proc.devRef .tc main_v60) (ix2 i j)

theorem kA3_eq : kA3 m ρ c = fun i j => aggOf (aDst m c) (fun e j' => takeRow (kM3 m ρ c) (aSrc m c e) j') i j := by
  funext i j
  unfold kA3
  refine (HostB6.agg_apply (W16 m ρ c) i j).trans ?_
  have ed : ∀ e : Fin 850000, W16 m ρ c (Proc.devRef .tc main_v10) (ix1 e) = aDst m c e := fun e =>
    (congrFun (v10_at16_from5 m ρ c) (ix1 e)).trans (kDst_eq m ρ c e)
  have es : ∀ e : Fin 850000, W16 m ρ c (Proc.devRef .tc main_v7) (ix1 e) = aSrc m c e := fun e =>
    (congrFun (v7_at16_from5 m ρ c) (ix1 e)).trans (kSrc_eq m ρ c e)
  simp only [ed, es]
  rfl

def kH3 (r : Fin 50000) (j : Fin 128) : EReal := W19 m ρ c (Proc.devRef .tc main_v70) (ix2 r j)

theorem kH3_eq : kH3 m ρ c = layerK (kH2 m ρ c) (aWc m c 2) (aBc m c 2) (aGl m c 2) (aBl m c 2) (aSrc m c) (aDst m c) (aD m c) := by
  funext r j
  unfold kH3 layerK
  refine (congrFun (W19_arr m ρ c 6) (ix2 r j)).trans ((RegPost6.final (V18 m ρ) c r j).trans ?_)
  have e0 : ∀ j' : Fin 128, V18 m ρ c main_v60 (ix2 r j') = kA3 m ρ c r j' := fun j' => rfl
  have e1 : V18 m ρ c main_v19 (ix2 r 0) = aD m c r := kD_at18 m ρ c r
  have e2 : ∀ j' : Fin 128, V18 m ρ c main_v67 (ix2 0 j') = aBc m c 2 j' := fun j' =>
    (HostB6.bias_apply (W16 m ρ c) j').trans (congrFun (arg8_at16 m ρ c) (ix2 2 j'))
  have e3 : ∀ j' : Fin 128, V18 m ρ c main_v68 (ix2 0 j') = aGl m c 2 j' := fun j' =>
    (HostB6.scale_apply (W16 m ρ c) j').trans (congrFun (arg9_at16 m ρ c) (ix2 2 j'))
  have e4 : ∀ j' : Fin 128, V18 m ρ c main_v69 (ix2 0 j') = aBl m c 2 j' := fun j' =>
    (HostB6.shift_apply (W16 m ρ c) j').trans (congrFun (arg10_at16 m ρ c) (ix2 2 j'))
  have e5 : ∀ j' : Fin 128, V18 m ρ c main_v53 (ix2 r j') = kH2 m ρ c r j' := fun j' => congrFun (v53_at18_from14 m ρ c) (ix2 r j')
  simp only [e0, e1, e2, e3, e4, e5, kA3_eq, kM3_eq]

theorem kernel_value (g : Fin 512) (o : Fin 12) :
    W21 m ρ c (Proc.devRef .tc main_v85) (ix2 g o)
      = netK (aX m c) (aWe m c) (aB0 m c) (aG0 m c) (aBe0 m c) (aWc m c) (aBc m c) (aGl m c) (aBl m c) (aSrc m c) (aDst m c) (aBid m c)
          (aW1 m c) (aB1 m c) (aW2 m c) (aB2 m c) g o := by
  refine (congrFun (W21_arr m ρ c 5) (ix2 g o)).trans ((RegRead.final (V20 m ρ) c g o).trans ?_)
  have e0 : ∀ q : Fin 128, V20 m ρ c main_v82 (ix2 g q) = poolOf (aBid m c) (kH3 m ρ c) g q := fun q => by
    refine (HostP.pooled_apply (W19 m ρ c) g q).trans ?_
    have hb : ∀ i : Fin 50000, W19 m ρ c (Proc.devRef .tc main_arg2) (ix1 i) = aBid m c i := fun i => congrFun (arg2_at19 m ρ c) (ix1 i)
    simp only [hb]
    rfl
  have e1 : ∀ (q : Fin 128) (k : Fin 64), V20 m ρ c main_arg11 (ix2 q k) = aW1 m c q k := fun q k => congrFun (arg11_at20 m ρ c) (ix2 q k)
  have e2 : ∀ k : Fin 64, V20 m ρ c main_v83 (ix2 0 k) = aB1 m c k := fun k =>
    (HostP.v83_apply (W19 m ρ c) k).trans (congrFun (arg12_at19 m ρ c) (ix1 k))
  have e3 : ∀ (k : Fin 64) (o' : Fin 12), V20 m ρ c main_arg13 (ix2 k o') = aW2 m c k o' := fun k o' => congrFun (arg13_at20 m ρ c) (ix2 k o')
  have e4 : ∀ o' : Fin 12, V20 m ρ c main_v84 (ix2 0 o') = aB2 m c o' := fun o' =>
    (HostP.v84_apply (W19 m ρ c) o').trans (congrFun (arg14_at19 m ρ c) (ix1 o'))
  simp only [e0, e1, e2, e3, e4]
  unfold netK
  rw [kH3_eq, kH2_eq, kH1_eq, kH0_eq]

end Cert.KernelIdeal.KValue

end
-- ==== Proof.RefRun.lean ====
import proofs.«406057_j79568564126007_2_alg».proof.Proof.RefOps
import proofs.«406057_j79568564126007_2_alg».proof.Proof.RefRead
import Idealize.ShloMosaic.Lib.Pipeline.Frame

noncomputable section

namespace Cert.ReferenceIdeal.RunP

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- `W` lists, in order, the reference each operation of `l` writes. -/
def Writes (l : List (HloOp τ sig (Elt F))) (W : List (Ref sig .tc)) : Prop :=
  l.map (·.writes) = W.map fun y => {Proc.devRef .tc y}

theorem Writes.append {l₁ l₂ : List (HloOp τ sig (Elt F))} {W₁ W₂ : List (Ref sig .tc)} (h₁ : Writes l₁ W₁)
    (h₂ : Writes l₂ W₂) : Writes (l₁ ++ l₂) (W₁ ++ W₂) := by
  unfold Writes at *; rw [List.map_append, List.map_append, h₁, h₂]

/-- A reference outside the list of those a line writes holds after the line what it held before. -/
theorem Writes.keep {l : List (HloOp τ sig (Elt F))} {W : List (Ref sig .tc)} (h : Writes l W) {V : Valuation τ sig (Elt F)}
    {r : Ref sig .tc} {x : (Proc.devRef (τ := τ) .tc r).ty.Contents (Elt F)} (hr : r ∉ W) (hx : V (Proc.devRef .tc r) = x) :
    after l V (Proc.devRef .tc r) = x :=
  (after_of_writes_sub l V (List.forall_iff_forall_mem.mpr fun op hop => by
    have hm : op.writes ∈ l.map (·.writes) := List.mem_map_of_mem hop
    rw [show l.map (·.writes) = _ from h] at hm
    obtain ⟨y, hy, he⟩ := List.mem_map.mp hm
    rw [← he, Finset.singleton_subset_iff, List.mem_toFinset]
    exact List.mem_map_of_mem hy) hr).trans hx

/-- A line none of whose operations leaves a buffer undetermined. -/
theorem fresh_of_map {l : List (HloOp τ sig (Elt F))} (h : l.map (·.fresh) = l.map fun _ => ∅) : ∀ op ∈ l, op.fresh = ∅ := by
  intro op hop
  have hm : op.fresh ∈ l.map (·.fresh) := List.mem_map_of_mem hop
  rw [h] at hm
  obtain ⟨_, _, e⟩ := List.mem_map.mp hm
  exact e.symm

noncomputable abbrev opsA : List (HloOp τ sig (Elt F)) := ops.take 36
noncomputable abbrev opsB1 : List (HloOp τ sig (Elt F)) := (ops.drop 36).take 7
noncomputable abbrev opsB2 : List (HloOp τ sig (Elt F)) := (ops.drop 43).take 14
noncomputable abbrev opsB3 : List (HloOp τ sig (Elt F)) := (ops.drop 57).take 19
noncomputable abbrev opsC1a : List (HloOp τ sig (Elt F)) := (ops.drop 76).take 24
noncomputable abbrev opsC1b : List (HloOp τ sig (Elt F)) := (ops.drop 100).take 37
noncomputable abbrev opsC2a : List (HloOp τ sig (Elt F)) := (ops.drop 137).take 24
noncomputable abbrev opsC2b : List (HloOp τ sig (Elt F)) := (ops.drop 161).take 37
noncomputable abbrev opsC3a : List (HloOp τ sig (Elt F)) := (ops.drop 198).take 24
noncomputable abbrev opsC3b : List (HloOp τ sig (Elt F)) := (ops.drop 222).take 37
noncomputable abbrev opsD : List (HloOp τ sig (Elt F)) := ops.drop 259

theorem ops_split : (ops : List (HloOp τ sig (Elt F))) = opsA ++ (opsB1 ++ (opsB2 ++ (opsB3 ++ (opsC1a ++ (opsC1b ++ (opsC2a ++ (opsC2b ++ (opsC3a ++ (opsC3b ++ (opsD)))))))))) := rfl

abbrev opsA_W : List (Ref sig .tc) :=
  [main_v0, main_v1, main_v2, main_v3, main_cst, main_v4, main_v5, main_cst_0, main_v6, main_v7, main_v8, main_v9,
   main_v10, main_cst_1, main_v11, main_v12, main_cst_2, main_v13, main_v14, main_v15, main_v16, main_cst_3,
   main_v17, main_v18, main_v19, main_v20, main_v21, main_v22, main_v23, main_v24, main_v25, main_v26, main_v27,
   main_call0_cst, main_call0_v0, main_v28]
theorem opsA_writes : Writes (F := F) opsA opsA_W := rfl

abbrev opsB1_W : List (Ref sig .tc) :=
  [main_v29, main_v30, main_v31, main_v32, main_v33, main_v34, main_v35]
theorem opsB1_writes : Writes (F := F) opsB1 opsB1_W := rfl

abbrev opsB2_W : List (Ref sig .tc) :=
  [main_cst_4, main_v36, main_cst_5, main_v37, main_v38, main_v39, main_cst_6, main_v40, main_v41, main_v42,
   main_cst_7, main_call1_v0, main_call1_v1, main_v43]
theorem opsB2_writes : Writes (F := F) opsB2 opsB2_W := rfl

abbrev opsB3_W : List (Ref sig .tc) :=
  [main_c, main_v44, main_v45, main_c_8, main_v46, main_v47, main_v48, main_v49, main_v50, main_c_9, main_v51,
   main_v52, main_c_10, main_v53, main_v54, main_v55, main_v56, main_v57, main_v58]
theorem opsB3_writes : Writes (F := F) opsB3 opsB3_W := rfl

abbrev opsC1a_W : List (Ref sig .tc) :=
  [main_v59, main_v60, main_v61, main_c_11, main_v62, main_v63, main_c_12, main_v64, main_v65, main_v66, main_v67,
   main_v68, main_v69, main_v70, main_v71, main_cst_13, main_v72, main_v73, main_v74, main_v75, main_v76, main_v77,
   main_v78, main_v79]
theorem opsC1a_writes : Writes (F := F) opsC1a opsC1a_W := rfl

abbrev opsC1b_W : List (Ref sig .tc) :=
  [main_v80, main_v81, main_v82, main_v83, main_cst_14, main_v84, main_v85, main_cst_15, main_v86, main_v87,
   main_v88, main_v89, main_v90, main_cst_16, main_v91, main_v92, main_cst_17, main_v93, main_v94, main_v95,
   main_v96, main_cst_18, main_v97, main_v98, main_v99, main_v100, main_v101, main_v102, main_v103, main_v104,
   main_v105, main_v106, main_v107, main_call2_cst, main_call2_v0, main_v108, main_v109]
theorem opsC1b_writes : Writes (F := F) opsC1b opsC1b_W := rfl

abbrev opsC2a_W : List (Ref sig .tc) :=
  [main_v110, main_v111, main_v112, main_c_19, main_v113, main_v114, main_c_20, main_v115, main_v116, main_v117,
   main_v118, main_v119, main_v120, main_v121, main_v122, main_cst_21, main_v123, main_v124, main_v125, main_v126,
   main_v127, main_v128, main_v129, main_v130]
theorem opsC2a_writes : Writes (F := F) opsC2a opsC2a_W := rfl

abbrev opsC2b_W : List (Ref sig .tc) :=
  [main_v131, main_v132, main_v133, main_v134, main_cst_22, main_v135, main_v136, main_cst_23, main_v137, main_v138,
   main_v139, main_v140, main_v141, main_cst_24, main_v142, main_v143, main_cst_25, main_v144, main_v145, main_v146,
   main_v147, main_cst_26, main_v148, main_v149, main_v150, main_v151, main_v152, main_v153, main_v154, main_v155,
   main_v156, main_v157, main_v158, main_call3_cst, main_call3_v0, main_v159, main_v160]
theorem opsC2b_writes : Writes (F := F) opsC2b opsC2b_W := rfl

abbrev opsC3a_W : List (Ref sig .tc) :=
  [main_v161, main_v162, main_v163, main_c_27, main_v164, main_v165, main_c_28, main_v166, main_v167, main_v168,
   main_v169, main_v170, main_v171, main_v172, main_v173, main_cst_29, main_v174, main_v175, main_v176, main_v177,
   main_v178, main_v179, main_v180, main_v181]
theorem opsC3a_writes : Writes (F := F) opsC3a opsC3a_W := rfl

abbrev opsC3b_W : List (Ref sig .tc) :=
  [main_v182, main_v183, main_v184, main_v185, main_cst_30, main_v186, main_v187, main_cst_31, main_v188, main_v189,
   main_v190, main_v191, main_v192, main_cst_32, main_v193, main_v194, main_cst_33, main_v195, main_v196, main_v197,
   main_v198, main_cst_34, main_v199, main_v200, main_v201, main_v202, main_v203, main_v204, main_v205, main_v206,
   main_v207, main_v208, main_v209, main_call4_cst, main_call4_v0, main_v210, main_v211]
theorem opsC3b_writes : Writes (F := F) opsC3b opsC3b_W := rfl

abbrev opsD_W : List (Ref sig .tc) :=
  [main_cst_35, main_v212, main_cst_36, main_v213, main_v214, main_v215, main_cst_37, main_v216, main_v217,
   main_v218, main_cst_38, main_v219, main_v220, main_v221, main_v222, main_v223, main_v224, main_v225, main_v226,
   main_v227, main_call5_cst, main_call5_v0, main_v228, main_v229, main_v230, main_v231, main_v232]
theorem opsD_writes : Writes (F := F) opsD opsD_W := rfl

section Stretches

variable (W : Valuation τ sig (Elt F))
variable (x0 : (⟨S50000x64, .f32⟩ : BufTy).Contents (Elt F)) (x1 : (⟨S2x800000, .i32⟩ : BufTy).Contents (Elt F)) (x2 : (⟨S50000, .i32⟩ : BufTy).Contents (Elt F)) (x3 : (⟨S64x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F)) (x9 : (⟨S3x128, .f32⟩ : BufTy).Contents (Elt F)) (x10 : (⟨S3x128, .f32⟩ : BufTy).Contents (Elt F)) (x11 : (⟨S128x64, .f32⟩ : BufTy).Contents (Elt F)) (x12 : (⟨S64, .f32⟩ : BufTy).Contents (Elt F)) (x13 : (⟨S64x12, .f32⟩ : BufTy).Contents (Elt F)) (x14 : (⟨S12, .f32⟩ : BufTy).Contents (Elt F))

theorem outA_v28 (h_arg0 : W (Proc.devRef .tc main_arg0) = x0) (h_arg3 : W (Proc.devRef .tc main_arg3) = x3) (h_arg4 : W (Proc.devRef .tc main_arg4) = x4) (h_arg5 : W (Proc.devRef .tc main_arg5) = x5) (h_arg6 : W (Proc.devRef .tc main_arg6) = x6) :
    after opsA W (Proc.devRef .tc main_v28) = val_main_v28 (F := F) x0 x3 x4 x5 x6 := by
  dsimp only [opsA, ops, List.take, List.drop]
  subst h_arg0 h_arg3 h_arg4 h_arg5 h_arg6
  after_results_simp
  (try simp only [TRef.ofBuf, TRef.toBuf, cast_eq])
  (try rfl)

theorem outB1_v35 (h_arg1 : W (Proc.devRef .tc main_arg1) = x1) :
    after opsB1 W (Proc.devRef .tc main_v35) = val_main_v35 (F := F) x1 := by
  dsimp only [opsB1, ops, List.take, List.drop]
  subst h_arg1
  after_results
  (try simp only [TRef.ofBuf, TRef.toBuf, cast_eq])
  (try rfl)

theorem outB1_v32 (h_arg1 : W (Proc.devRef .tc main_arg1) = x1) :
    after opsB1 W (Proc.devRef .tc main_v32) = val_main_v32 (F := F) x1 := by
  dsimp only [opsB1, ops, List.take, List.drop]
  subst h_arg1
  after_results
  (try simp only [TRef.ofBuf, TRef.toBuf, cast_eq])
  (try rfl)

theorem outB2_v43 (h_v35 : W (Proc.devRef .tc main_v35) = val_main_v35 (F := F) x1) :
    after opsB2 W (Proc.devRef .tc main_v43) = val_main_v43 (F := F) x1 := by
  dsimp only [opsB2, ops, List.take, List.drop]
  after_results_simp
  (try simp only [h_v35])
  (try simp only [TRef.ofBuf, TRef.toBuf, cast_eq])
  (try rfl)

theorem outB3_v58 (h_v32 : W (Proc.devRef .tc main_v32) = val_main_v32 (F := F) x1) (h_v43 : W (Proc.devRef .tc main_v43) = val_main_v43 (F := F) x1) (h_v35 : W (Proc.devRef .tc main_v35) = val_main_v35 (F := F) x1) :
    after opsB3 W (Proc.devRef .tc main_v58) = val_main_v58 (F := F) x1 := by
  dsimp only [opsB3, ops, List.take, List.drop]
  after_results_simp
  (try simp only [h_v32, h_v43, h_v35])
  (try simp only [TRef.ofBuf, TRef.toBuf, cast_eq])
  (try rfl)

theorem outC1a_v79 (h_arg7 : W (Proc.devRef .tc main_arg7) = x7) (h_v28 : W (Proc.devRef .tc main_v28) = val_main_v28 (F := F) x0 x3 x4 x5 x6) (h_v32 : W (Proc.devRef .tc main_v32) = val_main_v32 (F := F) x1) (h_v58 : W (Proc.devRef .tc main_v58) = val_main_v58 (F := F) x1) (h_v35 : W (Proc.devRef .tc main_v35) = val_main_v35 (F := F) x1) (h_arg8 : W (Proc.devRef .tc main_arg8) = x8) :
    after opsC1a W (Proc.devRef .tc main_v79) = val_main_v79 (F := F) x0 x1 x3 x4 x5 x6 x7 x8 := by
  dsimp only [opsC1a, ops, List.take, List.drop]
  subst h_arg7 h_arg8
  after_results_simp
  (try simp only [h_v28, h_v32, h_v58, h_v35])
  (try simp only [TRef.ofBuf, TRef.toBuf, cast_eq])
  (try rfl)

theorem outC1b_v109 (h_arg9 : W (Proc.devRef .tc main_arg9) = x9) (h_arg10 : W (Proc.devRef .tc main_arg10) = x10) (h_v79 : W (Proc.devRef .tc main_v79) = val_main_v79 (F := F) x0 x1 x3 x4 x5 x6 x7 x8) (h_v28 : W (Proc.devRef .tc main_v28) = val_main_v28 (F := F) x0 x3 x4 x5 x6) :
    after opsC1b W (Proc.devRef .tc main_v109) = val_main_v109 (F := F) x0 x1 x3 x4 x5 x6 x7 x8 x9 x10 := by
  dsimp only [opsC1b, ops, List.take, List.drop]
  subst h_arg9 h_arg10
  after_results_simp
  (try simp only [h_v79, h_v28])
  (try simp only [TRef.ofBuf, TRef.toBuf, cast_eq])
  (try rfl)

theorem outC2a_v130 (h_arg7 : W (Proc.devRef .tc main_arg7) = x7) (h_v109 : W (Proc.devRef .tc main_v109) = val_main_v109 (F := F) x0 x1 x3 x4 x5 x6 x7 x8 x9 x10) (h_v32 : W (Proc.devRef .tc main_v32) = val_main_v32 (F := F) x1) (h_v58 : W (Proc.devRef .tc main_v58) = val_main_v58 (F := F) x1) (h_v35 : W (Proc.devRef .tc main_v35) = val_main_v35 (F := F) x1) (h_arg8 : W (Proc.devRef .tc main_arg8) = x8) :
    after opsC2a W (Proc.devRef .tc main_v130) = val_main_v130 (F := F) x0 x1 x3 x4 x5 x6 x7 x8 x9 x10 := by
  dsimp only [opsC2a, ops, List.take, List.drop]
  subst h_arg7 h_arg8
  after_results_simp
  (try simp only [h_v109, h_v32, h_v58, h_v35])
  (try simp only [TRef.ofBuf, TRef.toBuf, cast_eq])
  (try rfl)

theorem outC2b_v160 (h_arg9 : W (Proc.devRef .tc main_arg9) = x9) (h_arg10 : W (Proc.devRef .tc main_arg10) = x10) (h_v130 : W (Proc.devRef .tc main_v130) = val_main_v130 (F := F) x0 x1 x3 x4 x5 x6 x7 x8 x9 x10) (h_v109 : W (Proc.devRef .tc main_v109) = val_main_v109 (F := F) x0 x1 x3 x4 x5 x6 x7 x8 x9 x10) :
    after opsC2b W (Proc.devRef .tc main_v160) = val_main_v160 (F := F) x0 x1 x3 x4 x5 x6 x7 x8 x9 x10 := by
  dsimp only [opsC2b, ops, List.take, List.drop]
  subst h_arg9 h_arg10
  after_results_simp
  (try simp only [h_v130, h_v109])
  (try simp only [TRef.ofBuf, TRef.toBuf, cast_eq])
  (try rfl)

theorem outC3a_v181 (h_arg7 : W (Proc.devRef .tc main_arg7) = x7) (h_v160 : W (Proc.devRef .tc main_v160) = val_main_v160 (F := F) x0 x1 x3 x4 x5 x6 x7 x8 x9 x10) (h_v32 : W (Proc.devRef .tc main_v32) = val_main_v32 (F := F) x1) (h_v58 : W (Proc.devRef .tc main_v58) = val_main_v58 (F := F) x1) (h_v35 : W (Proc.devRef .tc main_v35) = val_main_v35 (F := F) x1) (h_arg8 : W (Proc.devRef .tc main_arg8) = x8) :
    after opsC3a W (Proc.devRef .tc main_v181) = val_main_v181 (F := F) x0 x1 x3 x4 x5 x6 x7 x8 x9 x10 := by
  dsimp only [opsC3a, ops, List.take, List.drop]
  subst h_arg7 h_arg8
  after_results_simp
  (try simp only [h_v160, h_v32, h_v58, h_v35])
  (try simp only [TRef.ofBuf, TRef.toBuf, cast_eq])
  (try rfl)

theorem outC3b_v211 (h_arg9 : W (Proc.devRef .tc main_arg9) = x9) (h_arg10 : W (Proc.devRef .tc main_arg10) = x10) (h_v181 : W (Proc.devRef .tc main_v181) = val_main_v181 (F := F) x0 x1 x3 x4 x5 x6 x7 x8 x9 x10) (h_v160 : W (Proc.devRef .tc main_v160) = val_main_v160 (F := F) x0 x1 x3 x4 x5 x6 x7 x8 x9 x10) :
    after opsC3b W (Proc.devRef .tc main_v211) = val_main_v211 (F := F) x0 x1 x3 x4 x5 x6 x7 x8 x9 x10 := by
  dsimp only [opsC3b, ops, List.take, List.drop]
  subst h_arg9 h_arg10
  after_results_simp
  (try simp only [h_v181, h_v160])
  (try simp only [TRef.ofBuf, TRef.toBuf, cast_eq])
  (try rfl)

theorem outD_v232 (h_arg2 : W (Proc.devRef .tc main_arg2) = x2) (h_v211 : W (Proc.devRef .tc main_v211) = val_main_v211 (F := F) x0 x1 x3 x4 x5 x6 x7 x8 x9 x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after opsD W (Proc.devRef .tc main_v232) = val_main_v232 (F := F) x0 x1 x2 x3 x4 x5 x6 x7 x8 x9 x10 x11 x12 x13 x14 := by
  dsimp only [opsD, ops, List.take, List.drop]
  subst h_arg2 h_arg11 h_arg12 h_arg13 h_arg14
  after_results_simp
  (try simp only [h_v211])
  (try simp only [TRef.ofBuf, TRef.toBuf, cast_eq])
  (try rfl)

end Stretches

section Levels

variable (m : (ℓ : Loc nD τ sig) → Buf (Elt F) ℓ) (d : Dev nD)

abbrev a0 : (⟨S50000x64, .f32⟩ : BufTy).Contents (Elt F) := m ((d.tc : Thread nD τ).loc main_arg0)
abbrev a1 : (⟨S2x800000, .i32⟩ : BufTy).Contents (Elt F) := m ((d.tc : Thread nD τ).loc main_arg1)
abbrev a2 : (⟨S50000, .i32⟩ : BufTy).Contents (Elt F) := m ((d.tc : Thread nD τ).loc main_arg2)
abbrev a3 : (⟨S64x128, .f32⟩ : BufTy).Contents (Elt F) := m ((d.tc : Thread nD τ).loc main_arg3)
abbrev a4 : (⟨S128, .f32⟩ : BufTy).Contents (Elt F) := m ((d.tc : Thread nD τ).loc main_arg4)
abbrev a5 : (⟨S128, .f32⟩ : BufTy).Contents (Elt F) := m ((d.tc : Thread nD τ).loc main_arg5)
abbrev a6 : (⟨S128, .f32⟩ : BufTy).Contents (Elt F) := m ((d.tc : Thread nD τ).loc main_arg6)
abbrev a7 : (⟨S3x128x128, .f32⟩ : BufTy).Contents (Elt F) := m ((d.tc : Thread nD τ).loc main_arg7)
abbrev a8 : (⟨S3x128, .f32⟩ : BufTy).Contents (Elt F) := m ((d.tc : Thread nD τ).loc main_arg8)
abbrev a9 : (⟨S3x128, .f32⟩ : BufTy).Contents (Elt F) := m ((d.tc : Thread nD τ).loc main_arg9)
abbrev a10 : (⟨S3x128, .f32⟩ : BufTy).Contents (Elt F) := m ((d.tc : Thread nD τ).loc main_arg10)
abbrev a11 : (⟨S128x64, .f32⟩ : BufTy).Contents (Elt F) := m ((d.tc : Thread nD τ).loc main_arg11)
abbrev a12 : (⟨S64, .f32⟩ : BufTy).Contents (Elt F) := m ((d.tc : Thread nD τ).loc main_arg12)
abbrev a13 : (⟨S64x12, .f32⟩ : BufTy).Contents (Elt F) := m ((d.tc : Thread nD τ).loc main_arg13)
abbrev a14 : (⟨S12, .f32⟩ : BufTy).Contents (Elt F) := m ((d.tc : Thread nD τ).loc main_arg14)

noncomputable abbrev L0 : Valuation τ sig (Elt F) := launchContents m d
noncomputable abbrev L1 : Valuation τ sig (Elt F) := after opsA (L0 m d)
noncomputable abbrev L2 : Valuation τ sig (Elt F) := after opsB1 (L1 m d)
noncomputable abbrev L3 : Valuation τ sig (Elt F) := after opsB2 (L2 m d)
noncomputable abbrev L4 : Valuation τ sig (Elt F) := after opsB3 (L3 m d)
noncomputable abbrev L5 : Valuation τ sig (Elt F) := after opsC1a (L4 m d)
noncomputable abbrev L6 : Valuation τ sig (Elt F) := after opsC1b (L5 m d)
noncomputable abbrev L7 : Valuation τ sig (Elt F) := after opsC2a (L6 m d)
noncomputable abbrev L8 : Valuation τ sig (Elt F) := after opsC2b (L7 m d)
noncomputable abbrev L9 : Valuation τ sig (Elt F) := after opsC3a (L8 m d)
noncomputable abbrev L10 : Valuation τ sig (Elt F) := after opsC3b (L9 m d)
noncomputable abbrev L11 : Valuation τ sig (Elt F) := after opsD (L10 m d)

abbrev Wall : List (Ref sig .tc) :=
  opsA_W ++ (opsB1_W ++ (opsB2_W ++ (opsB3_W ++ (opsC1a_W ++ (opsC1b_W ++ (opsC2a_W ++ (opsC2b_W ++ (opsC3a_W ++ (opsC3b_W ++ (opsD_W))))))))))

theorem L1_of (r : Ref sig .tc) (h : r ∉ Wall) : L1 m d (Proc.devRef .tc r) = m ((d.tc : Thread nD τ).loc r) :=
  opsA_writes.keep (fun hx => h (by simp only [Wall, List.mem_append, hx, true_or, or_true])) rfl
theorem L2_of (r : Ref sig .tc) (h : r ∉ Wall) : L2 m d (Proc.devRef .tc r) = m ((d.tc : Thread nD τ).loc r) :=
  opsB1_writes.keep (fun hx => h (by simp only [Wall, List.mem_append, hx, true_or, or_true])) (L1_of m d r h)
theorem L3_of (r : Ref sig .tc) (h : r ∉ Wall) : L3 m d (Proc.devRef .tc r) = m ((d.tc : Thread nD τ).loc r) :=
  opsB2_writes.keep (fun hx => h (by simp only [Wall, List.mem_append, hx, true_or, or_true])) (L2_of m d r h)
theorem L4_of (r : Ref sig .tc) (h : r ∉ Wall) : L4 m d (Proc.devRef .tc r) = m ((d.tc : Thread nD τ).loc r) :=
  opsB3_writes.keep (fun hx => h (by simp only [Wall, List.mem_append, hx, true_or, or_true])) (L3_of m d r h)
theorem L5_of (r : Ref sig .tc) (h : r ∉ Wall) : L5 m d (Proc.devRef .tc r) = m ((d.tc : Thread nD τ).loc r) :=
  opsC1a_writes.keep (fun hx => h (by simp only [Wall, List.mem_append, hx, true_or, or_true])) (L4_of m d r h)
theorem L6_of (r : Ref sig .tc) (h : r ∉ Wall) : L6 m d (Proc.devRef .tc r) = m ((d.tc : Thread nD τ).loc r) :=
  opsC1b_writes.keep (fun hx => h (by simp only [Wall, List.mem_append, hx, true_or, or_true])) (L5_of m d r h)
theorem L7_of (r : Ref sig .tc) (h : r ∉ Wall) : L7 m d (Proc.devRef .tc r) = m ((d.tc : Thread nD τ).loc r) :=
  opsC2a_writes.keep (fun hx => h (by simp only [Wall, List.mem_append, hx, true_or, or_true])) (L6_of m d r h)
theorem L8_of (r : Ref sig .tc) (h : r ∉ Wall) : L8 m d (Proc.devRef .tc r) = m ((d.tc : Thread nD τ).loc r) :=
  opsC2b_writes.keep (fun hx => h (by simp only [Wall, List.mem_append, hx, true_or, or_true])) (L7_of m d r h)
theorem L9_of (r : Ref sig .tc) (h : r ∉ Wall) : L9 m d (Proc.devRef .tc r) = m ((d.tc : Thread nD τ).loc r) :=
  opsC3a_writes.keep (fun hx => h (by simp only [Wall, List.mem_append, hx, true_or, or_true])) (L8_of m d r h)
theorem L10_of (r : Ref sig .tc) (h : r ∉ Wall) : L10 m d (Proc.devRef .tc r) = m ((d.tc : Thread nD τ).loc r) :=
  opsC3b_writes.keep (fun hx => h (by simp only [Wall, List.mem_append, hx, true_or, or_true])) (L9_of m d r h)

theorem L1_v28 : L1 m d (Proc.devRef .tc main_v28) = val_main_v28 (F := F) (a0 m d) (a3 m d) (a4 m d) (a5 m d) (a6 m d) :=
  outA_v28 (L0 m d) _ _ _ _ _ rfl rfl rfl rfl rfl
theorem L2_v35 : L2 m d (Proc.devRef .tc main_v35) = val_main_v35 (F := F) (a1 m d) :=
  outB1_v35 (L1 m d) _ (L1_of m d main_arg1 (by decide))
theorem L2_v32 : L2 m d (Proc.devRef .tc main_v32) = val_main_v32 (F := F) (a1 m d) :=
  outB1_v32 (L1 m d) _ (L1_of m d main_arg1 (by decide))
theorem L3_v43 : L3 m d (Proc.devRef .tc main_v43) = val_main_v43 (F := F) (a1 m d) :=
  outB2_v43 (L2 m d) _ (L2_v35 m d)
theorem L3_v32 : L3 m d (Proc.devRef .tc main_v32) = val_main_v32 (F := F) (a1 m d) :=
  opsB2_writes.keep (by decide) (L2_v32 m d)
theorem L3_v35 : L3 m d (Proc.devRef .tc main_v35) = val_main_v35 (F := F) (a1 m d) :=
  opsB2_writes.keep (by decide) (L2_v35 m d)
theorem L4_v58 : L4 m d (Proc.devRef .tc main_v58) = val_main_v58 (F := F) (a1 m d) :=
  outB3_v58 (L3 m d) _ (L3_v32 m d) (L3_v43 m d) (L3_v35 m d)
theorem L4_v28 : L4 m d (Proc.devRef .tc main_v28) = val_main_v28 (F := F) (a0 m d) (a3 m d) (a4 m d) (a5 m d) (a6 m d) :=
  opsB3_writes.keep (by decide) (opsB2_writes.keep (by decide) (opsB1_writes.keep (by decide) (L1_v28 m d)))
theorem L4_v32 : L4 m d (Proc.devRef .tc main_v32) = val_main_v32 (F := F) (a1 m d) :=
  opsB3_writes.keep (by decide) (L3_v32 m d)
theorem L4_v35 : L4 m d (Proc.devRef .tc main_v35) = val_main_v35 (F := F) (a1 m d) :=
  opsB3_writes.keep (by decide) (L3_v35 m d)
theorem L5_v79 : L5 m d (Proc.devRef .tc main_v79) = val_main_v79 (F := F) (a0 m d) (a1 m d) (a3 m d) (a4 m d) (a5 m d) (a6 m d) (a7 m d) (a8 m d) :=
  outC1a_v79 (L4 m d) _ _ _ _ _ _ _ _ (L4_of m d main_arg7 (by decide)) (L4_v28 m d) (L4_v32 m d) (L4_v58 m d) (L4_v35 m d) (L4_of m d main_arg8 (by decide))
theorem L5_v28 : L5 m d (Proc.devRef .tc main_v28) = val_main_v28 (F := F) (a0 m d) (a3 m d) (a4 m d) (a5 m d) (a6 m d) :=
  opsC1a_writes.keep (by decide) (L4_v28 m d)
theorem L6_v109 : L6 m d (Proc.devRef .tc main_v109) = val_main_v109 (F := F) (a0 m d) (a1 m d) (a3 m d) (a4 m d) (a5 m d) (a6 m d) (a7 m d) (a8 m d) (a9 m d) (a10 m d) :=
  outC1b_v109 (L5 m d) _ _ _ _ _ _ _ _ _ _ (L5_of m d main_arg9 (by decide)) (L5_of m d main_arg10 (by decide)) (L5_v79 m d) (L5_v28 m d)
theorem L6_v32 : L6 m d (Proc.devRef .tc main_v32) = val_main_v32 (F := F) (a1 m d) :=
  opsC1b_writes.keep (by decide) (opsC1a_writes.keep (by decide) (L4_v32 m d))
theorem L6_v35 : L6 m d (Proc.devRef .tc main_v35) = val_main_v35 (F := F) (a1 m d) :=
  opsC1b_writes.keep (by decide) (opsC1a_writes.keep (by decide) (L4_v35 m d))
theorem L6_v58 : L6 m d (Proc.devRef .tc main_v58) = val_main_v58 (F := F) (a1 m d) :=
  opsC1b_writes.keep (by decide) (opsC1a_writes.keep (by decide) (L4_v58 m d))
theorem L7_v130 : L7 m d (Proc.devRef .tc main_v130) = val_main_v130 (F := F) (a0 m d) (a1 m d) (a3 m d) (a4 m d) (a5 m d) (a6 m d) (a7 m d) (a8 m d) (a9 m d) (a10 m d) :=
  outC2a_v130 (L6 m d) _ _ _ _ _ _ _ _ _ _ (L6_of m d main_arg7 (by decide)) (L6_v109 m d) (L6_v32 m d) (L6_v58 m d) (L6_v35 m d) (L6_of m d main_arg8 (by decide))
theorem L7_v109 : L7 m d (Proc.devRef .tc main_v109) = val_main_v109 (F := F) (a0 m d) (a1 m d) (a3 m d) (a4 m d) (a5 m d) (a6 m d) (a7 m d) (a8 m d) (a9 m d) (a10 m d) :=
  opsC2a_writes.keep (by decide) (L6_v109 m d)
theorem L8_v160 : L8 m d (Proc.devRef .tc main_v160) = val_main_v160 (F := F) (a0 m d) (a1 m d) (a3 m d) (a4 m d) (a5 m d) (a6 m d) (a7 m d) (a8 m d) (a9 m d) (a10 m d) :=
  outC2b_v160 (L7 m d) _ _ _ _ _ _ _ _ _ _ (L7_of m d main_arg9 (by decide)) (L7_of m d main_arg10 (by decide)) (L7_v130 m d) (L7_v109 m d)
theorem L8_v32 : L8 m d (Proc.devRef .tc main_v32) = val_main_v32 (F := F) (a1 m d) :=
  opsC2b_writes.keep (by decide) (opsC2a_writes.keep (by decide) (L6_v32 m d))
theorem L8_v35 : L8 m d (Proc.devRef .tc main_v35) = val_main_v35 (F := F) (a1 m d) :=
  opsC2b_writes.keep (by decide) (opsC2a_writes.keep (by decide) (L6_v35 m d))
theorem L8_v58 : L8 m d (Proc.devRef .tc main_v58) = val_main_v58 (F := F) (a1 m d) :=
  opsC2b_writes.keep (by decide) (opsC2a_writes.keep (by decide) (L6_v58 m d))
theorem L9_v181 : L9 m d (Proc.devRef .tc main_v181) = val_main_v181 (F := F) (a0 m d) (a1 m d) (a3 m d) (a4 m d) (a5 m d) (a6 m d) (a7 m d) (a8 m d) (a9 m d) (a10 m d) :=
  outC3a_v181 (L8 m d) _ _ _ _ _ _ _ _ _ _ (L8_of m d main_arg7 (by decide)) (L8_v160 m d) (L8_v32 m d) (L8_v58 m d) (L8_v35 m d) (L8_of m d main_arg8 (by decide))
theorem L9_v160 : L9 m d (Proc.devRef .tc main_v160) = val_main_v160 (F := F) (a0 m d) (a1 m d) (a3 m d) (a4 m d) (a5 m d) (a6 m d) (a7 m d) (a8 m d) (a9 m d) (a10 m d) :=
  opsC3a_writes.keep (by decide) (L8_v160 m d)
theorem L10_v211 : L10 m d (Proc.devRef .tc main_v211) = val_main_v211 (F := F) (a0 m d) (a1 m d) (a3 m d) (a4 m d) (a5 m d) (a6 m d) (a7 m d) (a8 m d) (a9 m d) (a10 m d) :=
  outC3b_v211 (L9 m d) _ _ _ _ _ _ _ _ _ _ (L9_of m d main_arg9 (by decide)) (L9_of m d main_arg10 (by decide)) (L9_v181 m d) (L9_v160 m d)
theorem L11_v232 : L11 m d (Proc.devRef .tc main_v232) = val_main_v232 (F := F) (a0 m d) (a1 m d) (a2 m d) (a3 m d) (a4 m d) (a5 m d) (a6 m d) (a7 m d) (a8 m d) (a9 m d) (a10 m d) (a11 m d) (a12 m d) (a13 m d) (a14 m d) :=
  outD_v232 (L10 m d) _ _ _ _ _ _ _ _ _ _ _ _ _ _ _ (L10_of m d main_arg2 (by decide)) (L10_v211 m d) (L10_of m d main_arg11 (by decide)) (L10_of m d main_arg12 (by decide)) (L10_of m d main_arg13 (by decide)) (L10_of m d main_arg14 (by decide))

theorem after_result : after (ops : List (HloOp τ sig (Elt F))) (launchContents m d) (Proc.devRef .tc main_v232) = val_main_v232 (F := F) (a0 m d) (a1 m d) (a2 m d) (a3 m d) (a4 m d) (a5 m d) (a6 m d) (a7 m d) (a8 m d) (a9 m d) (a10 m d) (a11 m d) (a12 m d) (a13 m d) (a14 m d) := by
  rw [ops_split]
  simp only [StableHlo.after_append]
  exact L11_v232 m d

theorem ops_writes : Writes (F := F) ops Wall := by
  rw [ops_split]
  exact opsA_writes.append (opsB1_writes.append (opsB2_writes.append (opsB3_writes.append (opsC1a_writes.append (opsC1b_writes.append (opsC2a_writes.append (opsC2b_writes.append (opsC3a_writes.append (opsC3b_writes.append (opsD_writes))))))))))

theorem after_arg (r : Ref sig .tc) (h : r ∉ Wall) :
    after (ops : List (HloOp τ sig (Elt F))) (launchContents m d) (Proc.devRef .tc r) = m ((d.tc : Thread nD τ).loc r) :=
  ops_writes.keep h rfl

end Levels

theorem ops_fresh : ∀ op ∈ (ops : List (HloOp τ sig (Elt F))), op.fresh = ∅ := fresh_of_map rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v232) = val_main_v232 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v232).trans (after_result m c),
      (h c main_arg0).trans (after_arg m c _ (by decide)),
      (h c main_arg1).trans (after_arg m c _ (by decide)),
      (h c main_arg2).trans (after_arg m c _ (by decide)),
      (h c main_arg3).trans (after_arg m c _ (by decide)),
      (h c main_arg4).trans (after_arg m c _ (by decide)),
      (h c main_arg5).trans (after_arg m c _ (by decide)),
      (h c main_arg6).trans (after_arg m c _ (by decide)),
      (h c main_arg7).trans (after_arg m c _ (by decide)),
      (h c main_arg8).trans (after_arg m c _ (by decide)),
      (h c main_arg9).trans (after_arg m c _ (by decide)),
      (h c main_arg10).trans (after_arg m c _ (by decide)),
      (h c main_arg11).trans (after_arg m c _ (by decide)),
      (h c main_arg12).trans (after_arg m c _ (by decide)),
      (h c main_arg13).trans (after_arg m c _ (by decide)),
      (h c main_arg14).trans (after_arg m c _ (by decide))⟩)
    (run_seq scopedRefs_eq scopedSems_eq defs main (fun _ => ops) main_eq (fun _ => ops_sub) m ρ (fun _ => ops_fresh))

end Cert.ReferenceIdeal.RunP

end
-- ==== Proof.RefA.lean ====
import proofs.«406057_j79568564126007_2_alg».proof.Proof.RefRead
import proofs.«406057_j79568564126007_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.ReferenceIdeal.RefA

open Cert.ReferenceIdeal Cert.ReferenceIdeal.Gen Cert.ReferenceIdeal.Read Idealize.ShloMosaic Idealize.ShloMosaic.ValueIdx

section General

theorem join1_apply {α : Type} {n₁ n₂ n : Nat} (hn : n = n₁ + n₂)
    (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ (0 : Fin 1)) (e : Fin n) :
    concatenate (⟨1, ![n]⟩ : Shape) (0 : Fin 1) [⟨⟨1, ![n₁]⟩, x₁⟩, ⟨⟨1, ![n₂]⟩, x₂⟩] h (ix1 e)
      = if hlt : e.val < n₁ then x₁ (ix1 ⟨e.val, hlt⟩) else x₂ (ix1 ⟨e.val - n₁, by have := e.isLt; omega⟩) := by
  split
  · rename_i hlt
    exact concatenate_pair_apply_left (0 : Fin 1) x₁ x₂ h (ix1 e) rfl (ix1 ⟨e.val, hlt⟩)
      (fun b => by match b with | ⟨0, _⟩ => rfl)
  · rename_i hge
    exact concatenate_pair_apply_right (0 : Fin 1) x₁ x₂ h (ix1 e) rfl rfl (ix1 ⟨e.val - n₁, by have := e.isLt; omega⟩)
      (fun b hb => by match b, hb with | ⟨0, _⟩, hb => exact absurd rfl hb)
      (by show (e.val - n₁) + n₁ = e.val; omega)

theorem gather_vec_apply {α : Type} {N E w : Nat} (hN : 0 < N) (d : GatherDims ⟨1, ![N]⟩ ⟨2, ![E, 1]⟩ ⟨1, ![E]⟩)
    (hc : d.collapsedSliceDims = [0]) (hb : d.operandBatchingDims = []) (hm : d.startIndexMap = [0])
    (hv : d.indexVectorDim = 1) (x : (⟨1, ![N]⟩ : Shape).Idx → α) (idx : IVec ⟨2, ![E, 1]⟩ w) (e : Fin E) :
    Host.gather d x idx (ix1 e) = x (ix1 (Cert.LibRowOps.clampRow N hN (idx (ix2 e 0)).toInt)) := by
  have h := StableHlo.Predicate.gather_take d hc hb hm hv x idx e hN
  have e1 : (Shape.Idx.ofFin e : (⟨1, ![E]⟩ : Shape).Idx) = ix1 e :=
    funext fun a => by match a with | ⟨0, _⟩ => exact Fin.ext rfl
  have e2 : (StableHlo.Predicate.ixP e : (⟨2, ![E, 1]⟩ : Shape).Idx) = ix2 e (0 : Fin 1) :=
    funext fun a => by match a with | ⟨0, _⟩ => rfl | ⟨1, _⟩ => rfl
  rw [e1] at h
  rw [h]
  congr 1
  funext a
  match a with
  | ⟨0, _⟩ =>
    refine Fin.ext ?_
    show min (idx (StableHlo.Predicate.ixP e)).toInt.toNat (N - 1)
      = (min (max (idx (ix2 e 0)).toInt 0) ((N - 1 : Nat) : Int)).toNat
    rw [e2]
    omega

theorem host_scatterAdd_eq {s si u : Shape} {w : Nat} (d : ScatterDims s si u) (x : FVec Ideal s .f32) (idx : IVec si w)
    (upd : FVec Ideal u .f32) : Host.scatterAdd d x idx upd = Ideal.hostScatterAdd d x idx upd := rfl

theorem wrap_select (w : BitVec 32) :
    Scalar.select (IntOp.cmpi .slt w 0#32) (IntOp.addi w 50000#32) w = Cert.Gcn.wrapIdx w := by
  unfold Scalar.select IntOp.cmpi IntOp.addi Cert.Gcn.wrapIdx
  by_cases h : w.toInt < 0
  · have hs : w.slt 0#32 = true := by simp [BitVec.slt, h]
    simp [hs, h]
  · have hs : w.slt 0#32 = false := by simp [BitVec.slt, h]
    simp [hs, h]

theorem select_gt (d A B : EReal) : Scalar.select (Ideal.cmp .ogt d 0) A B = if 0 < d then A else B := by
  unfold Scalar.select Ideal.cmp
  by_cases h : 0 < d <;> simp [h]

end General

section Emb

variable (x0 : (⟨S50000x64, .f32⟩ : BufTy).Contents (Elt Ideal)) (x3 : (⟨S64x128, .f32⟩ : BufTy).Contents (Elt Ideal))
  (x4 x5 x6 : (⟨S128, .f32⟩ : BufTy).Contents (Elt Ideal))

def pre (r : Fin 50000) : Fin 128 → EReal :=
  fun j' => (∑ k : Fin 64, x0 (ix2 r k) * x3 (ix2 k j')) + x4 (ix1 j')

theorem i_l0 (r : Fin 50000) (j : Fin 128) (k : Fin 64) : lidx_main_v0 (ix2 r j) k = ix2 r k :=
  funext fun a => Fin.ext (by match a with | ⟨0, _⟩ => rfl | ⟨1, _⟩ => rfl)
theorem i_r0 (r : Fin 50000) (j : Fin 128) (k : Fin 64) : ridx_main_v0 (ix2 r j) k = ix2 k j :=
  funext fun a => Fin.ext (by match a with | ⟨0, _⟩ => rfl | ⟨1, _⟩ => rfl)
theorem i_2 (r : Fin 50000) (j : Fin 128) : idx_main_v2 (ix2 r j) = ix2 (0 : Fin 1) j :=
  funext fun a => Fin.ext (by match a with | ⟨0, _⟩ => rfl | ⟨1, _⟩ => rfl)
theorem i_1 (j : Fin 128) : idx_main_v1 (ix2 (0 : Fin 1) j) = ix1 j :=
  funext fun a => Fin.ext (by match a with | ⟨0, _⟩ => rfl)
theorem i_4 (r : Fin 50000) (k : Fin 128) : idx_main_v4 (ix1 r) k = ix2 r k :=
  funext fun a => Fin.ext (by match a with | ⟨0, _⟩ => rfl | ⟨1, _⟩ => rfl)
theorem i_5 (r : Fin 50000) : idx_main_v5 (ix2 r (0 : Fin 1)) = ix1 r :=
  funext fun a => Fin.ext (by match a with | ⟨0, _⟩ => rfl)
theorem i_8 (r : Fin 50000) (j : Fin 128) : idx_main_v8 (ix2 r j) = ix2 r (0 : Fin 1) :=
  funext fun a => Fin.ext (by match a with | ⟨0, _⟩ => rfl | ⟨1, _⟩ => rfl)
theorem i_11 (r : Fin 50000) (k : Fin 128) : idx_main_v11 (ix1 r) k = ix2 r k :=
  funext fun a => Fin.ext (by match a with | ⟨0, _⟩ => rfl | ⟨1, _⟩ => rfl)
theorem i_12 (r : Fin 50000) : idx_main_v12 (ix2 r (0 : Fin 1)) = ix1 r :=
  funext fun a => Fin.ext (by match a with | ⟨0, _⟩ => rfl)
theorem i_15 (r : Fin 50000) (j : Fin 128) : idx_main_v15 (ix2 r j) = ix2 r (0 : Fin 1) :=
  funext fun a => Fin.ext (by match a with | ⟨0, _⟩ => rfl | ⟨1, _⟩ => rfl)
theorem i_20 (r : Fin 50000) (j : Fin 128) : idx_main_v20 (ix2 r j) = ix2 r (0 : Fin 1) :=
  funext fun a => Fin.ext (by match a with | ⟨0, _⟩ => rfl | ⟨1, _⟩ => rfl)
theorem i_23 (r : Fin 50000) (j : Fin 128) : idx_main_v23 (ix2 r j) = ix2 (0 : Fin 1) j :=
  funext fun a => Fin.ext (by match a with | ⟨0, _⟩ => rfl | ⟨1, _⟩ => rfl)
theorem i_22 (j : Fin 128) : idx_main_v22 (ix2 (0 : Fin 1) j) = ix1 j :=
  funext fun a => Fin.ext (by match a with | ⟨0, _⟩ => rfl)
theorem i_26 (r : Fin 50000) (j : Fin 128) : idx_main_v26 (ix2 r j) = ix2 (0 : Fin 1) j :=
  funext fun a => Fin.ext (by match a with | ⟨0, _⟩ => rfl | ⟨1, _⟩ => rfl)
theorem i_25 (j : Fin 128) : idx_main_v25 (ix2 (0 : Fin 1) j) = ix1 j :=
  funext fun a => Fin.ext (by match a with | ⟨0, _⟩ => rfl)

theorem v3_at (r : Fin 50000) (j : Fin 128) :
    val_main_v3 (F := Ideal) x0 x3 x4 (ix2 r j) = pre x0 x3 x4 r j := by
  rw [val_main_v3_apply, val_main_v0_apply, val_main_v2_apply, val_main_v1_apply, i_2, i_1]
  simp only [i_l0, i_r0, Ideal.addf_def]
  rfl

theorem v4_at (r : Fin 50000) :
    val_main_v4 (F := Ideal) x0 x3 x4 (ix1 r) = ∑ k : Fin 128, pre x0 x3 x4 r k := by
  rw [val_main_v4_apply, val_main_cst_apply]
  simp only [i_4, v3_at, Ideal.ofBits_def, Ideal.ofBits_zero_f32, zero_add]

theorem v7_at (r : Fin 50000) :
    val_main_v7 (F := Ideal) x0 x3 x4 (ix2 r (0 : Fin 1)) = Cert.Gcn.mean (pre x0 x3 x4 r) := by
  rw [val_main_v7_apply, val_main_v5_apply, val_main_v6_apply, val_main_cst_0_apply, i_5, v4_at]
  simp only [Ideal.hostDivf_def, Ideal.ofBits_def]
  rfl

theorem v9_at (r : Fin 50000) (j : Fin 128) :
    val_main_v9 (F := Ideal) x0 x3 x4 (ix2 r j) = pre x0 x3 x4 r j - Cert.Gcn.mean (pre x0 x3 x4 r) := by
  rw [val_main_v9_apply, v3_at, val_main_v8_apply, i_8, v7_at, Ideal.subf_def]

theorem v11_at (r : Fin 50000) :
    val_main_v11 (F := Ideal) x0 x3 x4 (ix1 r)
      = ∑ k : Fin 128, (pre x0 x3 x4 r k - Cert.Gcn.mean (pre x0 x3 x4 r)) * (pre x0 x3 x4 r k - Cert.Gcn.mean (pre x0 x3 x4 r)) := by
  rw [val_main_v11_apply, val_main_cst_1_apply]
  simp only [i_11, val_main_v10_apply, v9_at, Ideal.mulf_def, Ideal.ofBits_def, Ideal.ofBits_zero_f32, zero_add]

theorem v14_at (r : Fin 50000) :
    val_main_v14 (F := Ideal) x0 x3 x4 (ix2 r (0 : Fin 1)) = Cert.Gcn.var (pre x0 x3 x4 r) := by
  rw [val_main_v14_apply, val_main_v12_apply, val_main_v13_apply, val_main_cst_2_apply, i_12, v11_at]
  simp only [Ideal.hostDivf_def, Ideal.ofBits_def]
  rfl

theorem v19_at (r : Fin 50000) :
    val_main_v19 (F := Ideal) x0 x3 x4 (ix2 r (0 : Fin 1))
      = Ideal.rsqrt (Cert.Gcn.var (pre x0 x3 x4 r) + Cert.Gcn.eps) := by
  rw [val_main_v19_apply, val_main_v18_apply, v14_at, val_main_v17_apply, val_main_cst_3_apply]
  simp only [Ideal.hostUnary_rsqrt_def, Ideal.addf_def, Ideal.ofBits_def]

theorem emb_apply (r : Fin 50000) (j : Fin 128) :
    val_main_v28 (F := Ideal) x0 x3 x4 x5 x6 (ix2 r j)
      = Cert.Gcn.embRow (fun k : Fin 64 => x0 (ix2 r k)) (fun (k : Fin 64) (j' : Fin 128) => x3 (ix2 k j'))
          (fun j' => x4 (ix1 j')) (fun j' => x5 (ix1 j')) (fun j' => x6 (ix1 j')) j := by
  rw [val_main_v28_apply, val_main_v27_apply, val_main_v24_apply, val_main_v21_apply, val_main_v16_apply, v3_at,
    val_main_v15_apply, i_15, v7_at, val_main_v20_apply, i_20, v19_at, val_main_v23_apply, val_main_v22_apply, i_23, i_22,
    val_main_v26_apply, val_main_v25_apply, i_26, i_25, val_main_call0_v0_apply, val_main_call0_cst_apply]
  simp only [Ideal.maximumf_def, Ideal.addf_def, Ideal.mulf_def, Ideal.subf_def, Ideal.ofBits_def, Ideal.ofBits_zero_f32]
  rfl

end Emb

section Edges

variable (x1 : (⟨S2x800000, .i32⟩ : BufTy).Contents (Elt Ideal))

theorem i_31_30 (e : Fin 800000) : idx_main_v30 (idx_main_v31 (ix1 e)) = ix2 (0 : Fin 2) e :=
  funext fun a => Fin.ext (by
    match a with
    | ⟨0, _⟩ => rfl
    | ⟨1, _⟩ => exact Nat.mod_eq_of_lt e.isLt)
theorem i_34_33 (e : Fin 800000) : idx_main_v33 (idx_main_v34 (ix1 e)) = ix2 (1 : Fin 2) e :=
  funext fun a => Fin.ext (by
    match a with
    | ⟨0, _⟩ => rfl
    | ⟨1, _⟩ => exact Nat.mod_eq_of_lt e.isLt)

theorem src_apply (e : Fin 850000) :
    val_main_v32 (F := Ideal) x1 (ix1 e) = Cert.Gcn.withLoops (fun e' : Fin 800000 => x1 (ix2 (0 : Fin 2) e')) e := by
  unfold val_main_v32 Cert.Gcn.withLoops
  refine (join1_apply (n₁ := 800000) (n₂ := 50000) (n := 850000) rfl (val_main_v31 (F := Ideal) x1)
    (val_main_v29 (F := Ideal)) concatenates_S800000_S50000_S850000_d0 e).trans ?_
  by_cases hlt : e.val < 800000
  · rw [dif_pos hlt, dif_pos hlt, val_main_v31_apply, val_main_v30_apply, i_31_30]
  · rw [dif_neg hlt, dif_neg hlt]
    rfl

theorem dst_apply (e : Fin 850000) :
    val_main_v35 (F := Ideal) x1 (ix1 e) = Cert.Gcn.withLoops (fun e' : Fin 800000 => x1 (ix2 (1 : Fin 2) e')) e := by
  unfold val_main_v35 Cert.Gcn.withLoops
  refine (join1_apply (n₁ := 800000) (n₂ := 50000) (n := 850000) rfl (val_main_v34 (F := Ideal) x1)
    (val_main_v29 (F := Ideal)) concatenates_S800000_S50000_S850000_d0 e).trans ?_
  by_cases hlt : e.val < 800000
  · rw [dif_pos hlt, dif_pos hlt, val_main_v34_apply, val_main_v33_apply, i_34_33]
  · rw [dif_neg hlt, dif_neg hlt]
    rfl

theorem i_38 (e : Fin 850000) : idx_main_v38 (ix2 e (0 : Fin 1)) = ix1 e :=
  funext fun a => Fin.ext (by match a with | ⟨0, _⟩ => rfl)
theorem i_49 (e : Fin 850000) : idx_main_v49 (ix2 e (0 : Fin 1)) = ix1 e :=
  funext fun a => Fin.ext (by match a with | ⟨0, _⟩ => rfl)
theorem i_56 (e : Fin 850000) : idx_main_v56 (ix2 e (0 : Fin 1)) = ix1 e :=
  funext fun a => Fin.ext (by match a with | ⟨0, _⟩ => rfl)

theorem v39_at (i : Fin 50000) :
    val_main_v39 (F := Ideal) x1 (ix1 i) = Cert.Gcn.degOf (fun e => val_main_v35 (F := Ideal) x1 (ix1 e)) i := by
  unfold val_main_v39 Cert.Gcn.degOf
  rw [host_scatterAdd_eq, Cert.LibRowOps.scatterAdd_vec_apply scatter_S50000_S850000x1_S850000_n_0_0_1 rfl rfl rfl rfl,
    val_main_v37_apply, val_main_cst_5_apply, Ideal.ofBits_def, Ideal.ofBits_zero_f32]
  refine congrArg (0 + ·) (Finset.sum_congr rfl fun e _ => ?_)
  rw [val_main_v38_apply, i_38, val_main_v36_apply, val_main_cst_4_apply, Ideal.ofBits_def]

theorem dinv_apply (i : Fin 50000) :
    val_main_v43 (F := Ideal) x1 (ix1 i)
      = Cert.Gcn.scaleOf (Cert.Gcn.degOf (fun e => val_main_v35 (F := Ideal) x1 (ix1 e)) i) := by
  rw [val_main_v43_apply, val_main_v41_apply, val_main_v42_apply, v39_at, val_main_v40_apply, val_main_cst_6_apply,
    val_main_call1_v1_apply, val_main_call1_v0_apply, val_main_cst_7_apply]
  simp only [Ideal.cmpf_def, Ideal.hostUnary_rsqrt_def, Ideal.ofBits_def, Ideal.ofBits_zero_f32]
  exact select_gt _ _ _

theorem v50_at (e : Fin 850000) :
    val_main_v50 (F := Ideal) x1 (ix1 e)
      = val_main_v43 (F := Ideal) x1 (ix1 (Cert.Gcn.rowOf (val_main_v32 (F := Ideal) x1 (ix1 e)))) := by
  unfold val_main_v50
  refine (gather_vec_apply (by decide) gather_S50000_S850000x1_S850000_n_0_n_n_0_1_1 rfl rfl rfl rfl
    (val_main_v43 (F := Ideal) x1) (val_main_v49 (F := Ideal) x1) e).trans ?_
  rw [val_main_v49_apply, i_49, val_main_v48_apply, val_main_v45_apply, val_main_v47_apply, val_main_v44_apply,
    val_main_c_apply, val_main_v46_apply, val_main_c_8_apply, wrap_select]
  rfl

theorem v57_at (e : Fin 850000) :
    val_main_v57 (F := Ideal) x1 (ix1 e)
      = val_main_v43 (F := Ideal) x1 (ix1 (Cert.Gcn.rowOf (val_main_v35 (F := Ideal) x1 (ix1 e)))) := by
  unfold val_main_v57
  refine (gather_vec_apply (by decide) gather_S50000_S850000x1_S850000_n_0_n_n_0_1_1 rfl rfl rfl rfl
    (val_main_v43 (F := Ideal) x1) (val_main_v56 (F := Ideal) x1) e).trans ?_
  rw [val_main_v56_apply, i_56, val_main_v55_apply, val_main_v52_apply, val_main_v54_apply, val_main_v51_apply,
    val_main_c_9_apply, val_main_v53_apply, val_main_c_10_apply, wrap_select]
  rfl

theorem norm_apply (e : Fin 850000) :
    val_main_v58 (F := Ideal) x1 (ix1 e)
      = val_main_v43 (F := Ideal) x1 (ix1 (Cert.Gcn.rowOf (val_main_v32 (F := Ideal) x1 (ix1 e))))
        * val_main_v43 (F := Ideal) x1 (ix1 (Cert.Gcn.rowOf (val_main_v35 (F := Ideal) x1 (ix1 e)))) := by
  rw [val_main_v58_apply, v50_at, v57_at, Ideal.mulf_def]

end Edges

section Out

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x128, .f32⟩ : BufTy).Contents (Elt Ideal))
  (x4 x5 x6 : (⟨S128, .f32⟩ : BufTy).Contents (Elt Ideal)) (x7 : (⟨S3x128x128, .f32⟩ : BufTy).Contents (Elt Ideal))
  (x8 x9 x10 : (⟨S3x128, .f32⟩ : BufTy).Contents (Elt Ideal)) (x11 : (⟨S128x64, .f32⟩ : BufTy).Contents (Elt Ideal))
  (x12 : (⟨S64, .f32⟩ : BufTy).Contents (Elt Ideal)) (x13 : (⟨S64x12, .f32⟩ : BufTy).Contents (Elt Ideal))
  (x14 : (⟨S12, .f32⟩ : BufTy).Contents (Elt Ideal))

theorem i_214 (i : Fin 50000) : idx_main_v214 (ix2 i (0 : Fin 1)) = ix1 i :=
  funext fun a => Fin.ext (by match a with | ⟨0, _⟩ => rfl)
theorem i_217 (i : Fin 50000) : idx_main_v217 (ix2 i (0 : Fin 1)) = ix1 i :=
  funext fun a => Fin.ext (by match a with | ⟨0, _⟩ => rfl)
theorem i_222 (g : Fin 512) (q : Fin 128) : idx_main_v222 (ix2 g q) = ix2 g (0 : Fin 1) :=
  funext fun a => Fin.ext (by match a with | ⟨0, _⟩ => rfl | ⟨1, _⟩ => rfl)
theorem i_221 (g : Fin 512) : idx_main_v221 (ix2 g (0 : Fin 1)) = ix1 g :=
  funext fun a => Fin.ext (by match a with | ⟨0, _⟩ => rfl)
theorem i_l224 (g : Fin 512) (k : Fin 64) (q : Fin 128) : lidx_main_v224 (ix2 g k) q = ix2 g q :=
  funext fun a => Fin.ext (by match a with | ⟨0, _⟩ => rfl | ⟨1, _⟩ => rfl)
theorem i_r224 (g : Fin 512) (k : Fin 64) (q : Fin 128) : ridx_main_v224 (ix2 g k) q = ix2 q k :=
  funext fun a => Fin.ext (by match a with | ⟨0, _⟩ => rfl | ⟨1, _⟩ => rfl)
theorem i_226 (g : Fin 512) (k : Fin 64) : idx_main_v226 (ix2 g k) = ix2 (0 : Fin 1) k :=
  funext fun a => Fin.ext (by match a with | ⟨0, _⟩ => rfl | ⟨1, _⟩ => rfl)
theorem i_225 (k : Fin 64) : idx_main_v225 (ix2 (0 : Fin 1) k) = ix1 k :=
  funext fun a => Fin.ext (by match a with | ⟨0, _⟩ => rfl)
theorem i_l229 (g : Fin 512) (o : Fin 12) (k : Fin 64) : lidx_main_v229 (ix2 g o) k = ix2 g k :=
  funext fun a => Fin.ext (by match a with | ⟨0, _⟩ => rfl | ⟨1, _⟩ => rfl)
theorem i_r229 (g : Fin 512) (o : Fin 12) (k : Fin 64) : ridx_main_v229 (ix2 g o) k = ix2 k o :=
  funext fun a => Fin.ext (by match a with | ⟨0, _⟩ => rfl | ⟨1, _⟩ => rfl)
theorem i_231 (g : Fin 512) (o : Fin 12) : idx_main_v231 (ix2 g o) = ix2 (0 : Fin 1) o :=
  funext fun a => Fin.ext (by match a with | ⟨0, _⟩ => rfl | ⟨1, _⟩ => rfl)
theorem i_230 (o : Fin 12) : idx_main_v230 (ix2 (0 : Fin 1) o) = ix1 o :=
  funext fun a => Fin.ext (by match a with | ⟨0, _⟩ => rfl)

theorem v215_at (g : Fin 512) :
    val_main_v215 (F := Ideal) x2 (ix1 g)
      = 0 + ∑ i : Fin 50000, (if (x2 (ix1 i)).toInt = (g.val : ℤ) then Cert.Gcn.one32 else 0) := by
  unfold val_main_v215
  rw [host_scatterAdd_eq, Cert.LibRowOps.scatterAdd_vec_apply scatter_S512_S50000x1_S50000_n_0_0_1 rfl rfl rfl rfl,
    val_main_v213_apply, val_main_cst_36_apply, Ideal.ofBits_def, Ideal.ofBits_zero_f32]
  refine congrArg (0 + ·) (Finset.sum_congr rfl fun i _ => ?_)
  rw [val_main_v214_apply, i_214, val_main_v212_apply, val_main_cst_35_apply, Ideal.ofBits_def]

theorem v218_at (g : Fin 512) (q : Fin 128) :
    val_main_v218 (F := Ideal) x0 x1 x2 x3 x4 x5 x6 x7 x8 x9 x10 (ix2 g q)
      = 0 + ∑ i : Fin 50000, (if (x2 (ix1 i)).toInt = (g.val : ℤ)
          then val_main_v211 (F := Ideal) x0 x1 x3 x4 x5 x6 x7 x8 x9 x10 (ix2 i q) else 0) := by
  unfold val_main_v218
  rw [host_scatterAdd_eq, Cert.LibRowOps.scatterAdd_rows_apply scatter_S512x128_S50000x1_S50000x128_1_0_0_1 rfl rfl rfl rfl,
    val_main_v216_apply, val_main_cst_37_apply, Ideal.ofBits_def, Ideal.ofBits_zero_f32]
  refine congrArg (0 + ·) (Finset.sum_congr rfl fun i _ => ?_)
  rw [val_main_v217_apply, i_217]

theorem v223_at (g : Fin 512) (q : Fin 128) :
    val_main_v223 (F := Ideal) x0 x1 x2 x3 x4 x5 x6 x7 x8 x9 x10 (ix2 g q)
      = Cert.Gcn.poolOf (fun i : Fin 50000 => x2 (ix1 i))
          (fun i q' => val_main_v211 (F := Ideal) x0 x1 x3 x4 x5 x6 x7 x8 x9 x10 (ix2 i q')) g q := by
  rw [val_main_v223_apply, v218_at, val_main_v222_apply, i_222, val_main_v221_apply, i_221, val_main_v220_apply, v215_at,
    val_main_v219_apply, val_main_cst_38_apply]
  simp only [Ideal.hostDivf_def, Ideal.maximumf_def, Ideal.ofBits_def]
  rfl

theorem v228_at (g : Fin 512) (k : Fin 64) :
    val_main_v228 (F := Ideal) x0 x1 x2 x3 x4 x5 x6 x7 x8 x9 x10 x11 x12 (ix2 g k)
      = max ((∑ q : Fin 128, Cert.Gcn.poolOf (fun i : Fin 50000 => x2 (ix1 i))
          (fun i q' => val_main_v211 (F := Ideal) x0 x1 x3 x4 x5 x6 x7 x8 x9 x10 (ix2 i q')) g q * x11 (ix2 q k))
          + x12 (ix1 k)) 0 := by
  rw [val_main_v228_apply, val_main_v227_apply, val_main_v224_apply, val_main_v226_apply, val_main_v225_apply, i_226, i_225,
    val_main_call5_v0_apply, val_main_call5_cst_apply]
  simp only [i_l224, i_r224, v223_at, Ideal.maximumf_def, Ideal.addf_def, Ideal.ofBits_def, Ideal.ofBits_zero_f32]

theorem out_apply (g : Fin 512) (o : Fin 12) :
    val_main_v232 (F := Ideal) x0 x1 x2 x3 x4 x5 x6 x7 x8 x9 x10 x11 x12 x13 x14 (ix2 g o)
      = Cert.Gcn.readRow (fun q : Fin 128 => Cert.Gcn.poolOf (fun i : Fin 50000 => x2 (ix1 i))
            (fun i q' => val_main_v211 (F := Ideal) x0 x1 x3 x4 x5 x6 x7 x8 x9 x10 (ix2 i q')) g q)
          (fun q k => x11 (ix2 q k)) (fun k => x12 (ix1 k)) (fun k o' => x13 (ix2 k o')) (fun o' => x14 (ix1 o')) o := by
  rw [val_main_v232_apply, val_main_v229_apply, val_main_v231_apply, val_main_v230_apply, i_231, i_230]
  simp only [i_l229, i_r229, v228_at, Ideal.addf_def]
  rfl

end Out

end Cert.ReferenceIdeal.RefA

end
-- ==== Proof.RefLOps.lean ====
import proofs.«406057_j79568564126007_2_alg».proof.Proof.RefRead
import proofs.«406057_j79568564126007_2_alg».proof.Proof.Spec
import Idealize.ShloMosaic.Lib.ValueIdx
import Idealize.ShloMosaic.PureOps.Ideal
import Idealize.ShloMosaic.PureOps.Ideal.Laws

noncomputable section

namespace Cert.ReferenceIdeal.RefLOps

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem gather_rows_read (tbl : (⟨S50000x128, .f32⟩ : BufTy).Contents (Elt Ideal))
    (ids : (⟨S850000x1, .i32⟩ : BufTy).Contents (Elt Ideal)) (e : Fin 850000) (j : Fin 128) :
    Host.gather gather_S50000x128_S850000x1_S850000x128_1_0_n_n_0_1_1128 tbl ids (ix2 e j)
      = tbl (ix2 (Cert.LibRowOps.clampRow 50000 (by decide) (BitVec.toInt (ids (ix2 e 0)))) j) :=
  Cert.LibRowOps.gather_rows_apply (by decide) gather_S50000x128_S850000x1_S850000x128_1_0_n_n_0_1_1128
    rfl rfl rfl rfl rfl rfl rfl tbl ids e j

theorem scatter_rows_read (tbl : (⟨S50000x128, .f32⟩ : BufTy).Contents (Elt Ideal))
    (ids : (⟨S850000x1, .i32⟩ : BufTy).Contents (Elt Ideal))
    (rows : (⟨S850000x128, .f32⟩ : BufTy).Contents (Elt Ideal)) (i : Fin 50000) (j : Fin 128) :
    Host.scatterAdd (F := Ideal) (φ := .f32) scatter_S50000x128_S850000x1_S850000x128_1_0_0_1 tbl ids rows (ix2 i j)
      = tbl (ix2 i j)
          + ∑ e : Fin 850000, (if BitVec.toInt (ids (ix2 e 0)) = (i.val : ℤ) then rows (ix2 e j) else 0) := by
  unfold Host.scatterAdd
  rw [Ideal.hostScatterAdd_def]
  exact Cert.LibRowOps.scatterAdd_rows_apply scatter_S50000x128_S850000x1_S850000x128_1_0_0_1 rfl rfl rfl rfl
    tbl ids rows i j

theorem wrap_select (w : BitVec 32) :
    Scalar.select (IntOp.cmpi .slt w 0#32) (IntOp.addi w 50000#32) w = Cert.Gcn.wrapIdx w := by
  unfold Cert.Gcn.wrapIdx
  show (if BitVec.ofBool (w.slt 0#32) = 1#1 then w + 50000#32 else w) = if w.toInt < 0 then w + 50000#32 else w
  have h0 : (0#32 : BitVec 32).toInt = 0 := by decide
  by_cases h : w.toInt < 0
  · have hs : w.slt 0#32 = true := BitVec.slt_iff_toInt_lt.mpr (by rw [h0]; exact h)
    rw [hs, if_pos h, if_pos (show BitVec.ofBool true = 1#1 by decide)]
  · have hs : w.slt 0#32 = false := by
      rw [Bool.eq_false_iff]; intro hh
      exact h (by have := BitVec.slt_iff_toInt_lt.mp hh; rwa [h0] at this)
    rw [hs, if_neg h, if_neg (show ¬ BitVec.ofBool false = 1#1 by decide)]

end Cert.ReferenceIdeal.RefLOps

end
-- ==== Proof.RefL1.lean ====
import proofs.«406057_j79568564126007_2_alg».proof.Proof.RefRead
import proofs.«406057_j79568564126007_2_alg».proof.Proof.Spec
import proofs.«406057_j79568564126007_2_alg».proof.Proof.RefLOps
import Idealize.ShloMosaic.Lib.ValueIdx
import Idealize.ShloMosaic.PureOps.Ideal
import Idealize.ShloMosaic.PureOps.Ideal.Laws

noncomputable section

namespace Cert.ReferenceIdeal.RefL1

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.ReferenceIdeal.RefLOps

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x128, .f32⟩ : BufTy).Contents (Elt Ideal))
  (x4 x5 x6 : (⟨S128, .f32⟩ : BufTy).Contents (Elt Ideal)) (x7 : (⟨S3x128x128, .f32⟩ : BufTy).Contents (Elt Ideal))
  (x8 x9 x10 : (⟨S3x128, .f32⟩ : BufTy).Contents (Elt Ideal)) (x11 : (⟨S128x64, .f32⟩ : BufTy).Contents (Elt Ideal))
  (x12 : (⟨S64, .f32⟩ : BufTy).Contents (Elt Ideal)) (x13 : (⟨S64x12, .f32⟩ : BufTy).Contents (Elt Ideal))
  (x14 : (⟨S12, .f32⟩ : BufTy).Contents (Elt Ideal))

theorem weight_idx (k j : Fin 128) : idx_main_v59 (idx_main_v60 (ix2 k j)) = ix3 (0 : Fin 3) k j :=
  funext fun a => Fin.ext (by
    match a with
    | ⟨0, _⟩ => rfl
    | ⟨1, _⟩ =>
      show (k.val * 128 + j.val) / 128 % 128 = k.val
      have hk := k.isLt; have hj := j.isLt; omega
    | ⟨2, _⟩ =>
      show (k.val * 128 + j.val) % 128 = j.val
      have hk := k.isLt; have hj := j.isLt; omega)

theorem dot_lidx (r : Fin 50000) (j k : Fin 128) : lidx_main_v61 (ix2 r j) k = ix2 r k :=
  funext fun a => Fin.ext (by match a with | ⟨0, _⟩ => rfl | ⟨1, _⟩ => rfl)

theorem dot_ridx (r : Fin 50000) (j k : Fin 128) : ridx_main_v61 (ix2 r j) k = ix2 k j :=
  funext fun a => Fin.ext (by match a with | ⟨0, _⟩ => rfl | ⟨1, _⟩ => rfl)

theorem src_idx (e : Fin 850000) : idx_main_v67 (ix2 e 0) = ix1 e :=
  funext fun a => Fin.ext (by match a with | ⟨0, _⟩ => rfl)

theorem norm_idx (e : Fin 850000) (j : Fin 128) : idx_main_v69 (idx_main_v70 (ix2 e j)) = ix1 e :=
  funext fun a => Fin.ext (by match a with | ⟨0, _⟩ => rfl)

theorem dst_idx (e : Fin 850000) : idx_main_v73 (ix2 e 0) = ix1 e :=
  funext fun a => Fin.ext (by match a with | ⟨0, _⟩ => rfl)

theorem bias_idx (i : Fin 50000) (j : Fin 128) :
    idx_main_v75 (idx_main_v76 (idx_main_v77 (idx_main_v78 (ix2 i j)))) = ix2 (0 : Fin 3) j :=
  funext fun a => Fin.ext (by
    match a with
    | ⟨0, _⟩ => rfl
    | ⟨1, _⟩ => exact Nat.mod_eq_of_lt j.isLt)

theorem scale_idx (i : Fin 50000) (j : Fin 128) :
    idx_main_v80 (idx_main_v81 (idx_main_v102 (idx_main_v103 (ix2 i j)))) = ix2 (0 : Fin 3) j :=
  funext fun a => Fin.ext (by
    match a with
    | ⟨0, _⟩ => rfl
    | ⟨1, _⟩ => exact Nat.mod_eq_of_lt j.isLt)

theorem shift_idx (i : Fin 50000) (j : Fin 128) :
    idx_main_v82 (idx_main_v83 (idx_main_v105 (idx_main_v106 (ix2 i j)))) = ix2 (0 : Fin 3) j :=
  funext fun a => Fin.ext (by
    match a with
    | ⟨0, _⟩ => rfl
    | ⟨1, _⟩ => exact Nat.mod_eq_of_lt j.isLt)

theorem rowsum_idx (i : Fin 50000) (k : Fin 128) : idx_main_v84 (ix1 i) k = ix2 i k :=
  funext fun a => Fin.ext (by match a with | ⟨0, _⟩ => rfl | ⟨1, _⟩ => rfl)

theorem sqsum_idx (i : Fin 50000) (k : Fin 128) : idx_main_v91 (ix1 i) k = ix2 i k :=
  funext fun a => Fin.ext (by match a with | ⟨0, _⟩ => rfl | ⟨1, _⟩ => rfl)

theorem rowsum_col_idx (i : Fin 50000) : idx_main_v85 (ix2 i 0) = ix1 i :=
  funext fun a => Fin.ext (by match a with | ⟨0, _⟩ => rfl)

theorem sqsum_col_idx (i : Fin 50000) : idx_main_v92 (ix2 i 0) = ix1 i :=
  funext fun a => Fin.ext (by match a with | ⟨0, _⟩ => rfl)

theorem mean_bcast_idx (i : Fin 50000) (j : Fin 128) : idx_main_v88 (ix2 i j) = ix2 i 0 :=
  funext fun a => Fin.ext (by match a with | ⟨0, _⟩ => rfl | ⟨1, _⟩ => rfl)

theorem mean_bcast_idx' (i : Fin 50000) (j : Fin 128) : idx_main_v95 (ix2 i j) = ix2 i 0 :=
  funext fun a => Fin.ext (by match a with | ⟨0, _⟩ => rfl | ⟨1, _⟩ => rfl)

theorem rstd_bcast_idx (i : Fin 50000) (j : Fin 128) : idx_main_v100 (ix2 i j) = ix2 i 0 :=
  funext fun a => Fin.ext (by match a with | ⟨0, _⟩ => rfl | ⟨1, _⟩ => rfl)

theorem src_apply (e : Fin 850000) :
    val_main_v67 x1 (ix2 e 0) = Cert.Gcn.wrapIdx (val_main_v32 x1 (ix1 e)) := by
  rw [val_main_v67_apply, src_idx, val_main_v66_apply, val_main_v63_apply, val_main_v65_apply, val_main_v62_apply,
    val_main_v64_apply, val_main_c_11_apply, val_main_c_12_apply]
  exact wrap_select _

theorem gather_apply (e : Fin 850000) (j : Fin 128) :
    val_main_v68 x0 x1 x3 x4 x5 x6 x7 (ix2 e j)
      = val_main_v61 x0 x3 x4 x5 x6 x7 (ix2 (Cert.Gcn.rowOf (val_main_v32 x1 (ix1 e))) j) := by
  unfold val_main_v68 Cert.Gcn.rowOf
  rw [gather_rows_read, src_apply]

theorem msg_apply (e : Fin 850000) (j : Fin 128) :
    val_main_v71 x0 x1 x3 x4 x5 x6 x7 (ix2 e j)
      = (∑ k : Fin 128, val_main_v28 x0 x3 x4 x5 x6 (ix2 (Cert.Gcn.rowOf (val_main_v32 x1 (ix1 e))) k) * x7 (ix3 (0 : Fin 3) k j))
          * val_main_v58 x1 (ix1 e) := by
  rw [val_main_v71_apply, gather_apply, val_main_v61_apply, val_main_v70_apply, val_main_v69_apply, norm_idx,
    Ideal.mulf_def]
  refine congrArg (· * val_main_v58 x1 (ix1 e)) (Finset.sum_congr rfl fun k _ => ?_)
  rw [dot_lidx, dot_ridx, val_main_v60_apply, val_main_v59_apply, weight_idx]

theorem agg_apply (i : Fin 50000) (j : Fin 128) :
    val_main_v74 x0 x1 x3 x4 x5 x6 x7 (ix2 i j)
      = Cert.Gcn.aggOf (fun e : Fin 850000 => val_main_v35 x1 (ix1 e))
          (fun e j'' => val_main_v71 x0 x1 x3 x4 x5 x6 x7 (ix2 e j'')) i j := by
  unfold val_main_v74
  rw [scatter_rows_read]
  rw [val_main_v72_apply, val_main_cst_13_apply, Ideal.ofBits_def, Ideal.ofBits_zero_f32]
  rw [Cert.Gcn.aggOf]
  refine congrArg (0 + ·) (Finset.sum_congr rfl fun e _ => ?_)
  rw [val_main_v73_apply, dst_idx]

theorem pre_apply (i : Fin 50000) (j : Fin 128) :
    val_main_v79 x0 x1 x3 x4 x5 x6 x7 x8 (ix2 i j)
      = val_main_v74 x0 x1 x3 x4 x5 x6 x7 (ix2 i j) + x8 (ix2 (0 : Fin 3) j) := by
  rw [val_main_v79_apply, val_main_v78_apply, val_main_v77_apply, val_main_v76_apply, val_main_v75_apply, bias_idx,
    Ideal.addf_def]

theorem mean_apply (i : Fin 50000) :
    val_main_v87 x0 x1 x3 x4 x5 x6 x7 x8 (ix2 i 0)
      = Cert.Gcn.mean (fun j' : Fin 128 => val_main_v79 x0 x1 x3 x4 x5 x6 x7 x8 (ix2 i j')) := by
  unfold Cert.Gcn.mean
  rw [val_main_v87_apply, val_main_v85_apply, rowsum_col_idx, val_main_v84_apply, val_main_v86_apply,
    val_main_cst_15_apply, val_main_cst_14_apply, Ideal.hostDivf_def, Ideal.ofBits_def, Ideal.ofBits_def,
    Ideal.ofBits_zero_f32, zero_add]
  refine congrArg (Ideal.div · Cert.Gcn.c128) (Finset.sum_congr rfl fun k _ => ?_)
  rw [rowsum_idx]

theorem dev_apply (i : Fin 50000) (j : Fin 128) :
    val_main_v89 x0 x1 x3 x4 x5 x6 x7 x8 (ix2 i j)
      = val_main_v79 x0 x1 x3 x4 x5 x6 x7 x8 (ix2 i j)
          - Cert.Gcn.mean (fun j' : Fin 128 => val_main_v79 x0 x1 x3 x4 x5 x6 x7 x8 (ix2 i j')) := by
  rw [val_main_v89_apply, val_main_v88_apply, mean_bcast_idx, mean_apply, Ideal.subf_def]

theorem var_apply (i : Fin 50000) :
    val_main_v94 x0 x1 x3 x4 x5 x6 x7 x8 (ix2 i 0)
      = Cert.Gcn.var (fun j' : Fin 128 => val_main_v79 x0 x1 x3 x4 x5 x6 x7 x8 (ix2 i j')) := by
  unfold Cert.Gcn.var
  rw [val_main_v94_apply, val_main_v92_apply, sqsum_col_idx, val_main_v91_apply, val_main_v93_apply,
    val_main_cst_17_apply, val_main_cst_16_apply, Ideal.hostDivf_def, Ideal.ofBits_def, Ideal.ofBits_def,
    Ideal.ofBits_zero_f32, zero_add]
  refine congrArg (Ideal.div · Cert.Gcn.c128) (Finset.sum_congr rfl fun k _ => ?_)
  rw [sqsum_idx, val_main_v90_apply, dev_apply, Ideal.mulf_def]

theorem norm_apply (i : Fin 50000) (j : Fin 128) :
    val_main_v109 x0 x1 x3 x4 x5 x6 x7 x8 x9 x10 (ix2 i j)
      = max (Cert.Gcn.lnAff (fun j' : Fin 128 => val_main_v79 x0 x1 x3 x4 x5 x6 x7 x8 (ix2 i j'))
              (fun j' => x9 (ix2 (0 : Fin 3) j')) (fun j' => x10 (ix2 (0 : Fin 3) j')) j) 0
          + val_main_v28 x0 x3 x4 x5 x6 (ix2 i j) := by
  unfold Cert.Gcn.lnAff
  rw [val_main_v109_apply, val_main_v108_apply, val_main_v107_apply, val_main_v104_apply, val_main_v101_apply,
    val_main_v96_apply, val_main_v95_apply, mean_bcast_idx', mean_apply, val_main_v100_apply, rstd_bcast_idx,
    val_main_v99_apply, val_main_v98_apply, var_apply, val_main_v97_apply, val_main_cst_18_apply,
    val_main_v103_apply, val_main_v102_apply, val_main_v81_apply, val_main_v80_apply, scale_idx,
    val_main_v106_apply, val_main_v105_apply, val_main_v83_apply, val_main_v82_apply, shift_idx,
    val_main_call2_v0_apply, val_main_call2_cst_apply]
  simp only [Ideal.addf_def, Ideal.subf_def, Ideal.mulf_def, Ideal.maximumf_def, Ideal.hostUnary_rsqrt_def,
    Ideal.ofBits_def, Ideal.ofBits_zero_f32]

theorem layer_apply (i : Fin 50000) (j : Fin 128) :
    val_main_v109 x0 x1 x3 x4 x5 x6 x7 x8 x9 x10 (ix2 i j)
      = Cert.Gcn.postRowPre
          (fun j' : Fin 128 => Cert.Gcn.aggOf (fun e : Fin 850000 => val_main_v35 x1 (ix1 e))
              (fun e j'' => (∑ k : Fin 128, val_main_v28 x0 x3 x4 x5 x6 (ix2 (Cert.Gcn.rowOf (val_main_v32 x1 (ix1 e))) k) * x7 (ix3 (0 : Fin 3) k j'')) * val_main_v58 x1 (ix1 e)) i j')
          (fun j' => x8 (ix2 (0 : Fin 3) j')) (fun j' => x9 (ix2 (0 : Fin 3) j')) (fun j' => x10 (ix2 (0 : Fin 3) j'))
          (fun j' => val_main_v28 x0 x3 x4 x5 x6 (ix2 i j')) j := by
  have hrow : (fun j' : Fin 128 => val_main_v79 x0 x1 x3 x4 x5 x6 x7 x8 (ix2 i j'))
      = fun j' : Fin 128 => Cert.Gcn.aggOf (fun e : Fin 850000 => val_main_v35 x1 (ix1 e))
          (fun e j'' => (∑ k : Fin 128, val_main_v28 x0 x3 x4 x5 x6 (ix2 (Cert.Gcn.rowOf (val_main_v32 x1 (ix1 e))) k) * x7 (ix3 (0 : Fin 3) k j'')) * val_main_v58 x1 (ix1 e)) i j'
          + x8 (ix2 (0 : Fin 3) j') := by
    have hmsg : (fun (e : Fin 850000) (j'' : Fin 128) => val_main_v71 x0 x1 x3 x4 x5 x6 x7 (ix2 e j''))
        = fun e j'' => (∑ k : Fin 128, val_main_v28 x0 x3 x4 x5 x6 (ix2 (Cert.Gcn.rowOf (val_main_v32 x1 (ix1 e))) k) * x7 (ix3 (0 : Fin 3) k j'')) * val_main_v58 x1 (ix1 e) := by
      funext e j''
      rw [msg_apply]
    funext j'
    rw [pre_apply, agg_apply, hmsg]
  unfold Cert.Gcn.postRowPre
  rw [norm_apply, hrow]

end Cert.ReferenceIdeal.RefL1

end
-- ==== Proof.RefL2.lean ====
import proofs.«406057_j79568564126007_2_alg».proof.Proof.RefRead
import proofs.«406057_j79568564126007_2_alg».proof.Proof.Spec
import proofs.«406057_j79568564126007_2_alg».proof.Proof.RefLOps
import Idealize.ShloMosaic.Lib.ValueIdx
import Idealize.ShloMosaic.PureOps.Ideal
import Idealize.ShloMosaic.PureOps.Ideal.Laws

noncomputable section

namespace Cert.ReferenceIdeal.RefL2

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.ReferenceIdeal.RefLOps

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x128, .f32⟩ : BufTy).Contents (Elt Ideal))
  (x4 x5 x6 : (⟨S128, .f32⟩ : BufTy).Contents (Elt Ideal)) (x7 : (⟨S3x128x128, .f32⟩ : BufTy).Contents (Elt Ideal))
  (x8 x9 x10 : (⟨S3x128, .f32⟩ : BufTy).Contents (Elt Ideal)) (x11 : (⟨S128x64, .f32⟩ : BufTy).Contents (Elt Ideal))
  (x12 : (⟨S64, .f32⟩ : BufTy).Contents (Elt Ideal)) (x13 : (⟨S64x12, .f32⟩ : BufTy).Contents (Elt Ideal))
  (x14 : (⟨S12, .f32⟩ : BufTy).Contents (Elt Ideal))

theorem weight_idx (k j : Fin 128) : idx_main_v110 (idx_main_v111 (ix2 k j)) = ix3 (1 : Fin 3) k j :=
  funext fun a => Fin.ext (by
    match a with
    | ⟨0, _⟩ => rfl
    | ⟨1, _⟩ =>
      show (k.val * 128 + j.val) / 128 % 128 = k.val
      have hk := k.isLt; have hj := j.isLt; omega
    | ⟨2, _⟩ =>
      show (k.val * 128 + j.val) % 128 = j.val
      have hk := k.isLt; have hj := j.isLt; omega)

theorem dot_lidx (r : Fin 50000) (j k : Fin 128) : lidx_main_v112 (ix2 r j) k = ix2 r k :=
  funext fun a => Fin.ext (by match a with | ⟨0, _⟩ => rfl | ⟨1, _⟩ => rfl)

theorem dot_ridx (r : Fin 50000) (j k : Fin 128) : ridx_main_v112 (ix2 r j) k = ix2 k j :=
  funext fun a => Fin.ext (by match a with | ⟨0, _⟩ => rfl | ⟨1, _⟩ => rfl)

theorem src_idx (e : Fin 850000) : idx_main_v118 (ix2 e 0) = ix1 e :=
  funext fun a => Fin.ext (by match a with | ⟨0, _⟩ => rfl)

theorem norm_idx (e : Fin 850000) (j : Fin 128) : idx_main_v120 (idx_main_v121 (ix2 e j)) = ix1 e :=
  funext fun a => Fin.ext (by match a with | ⟨0, _⟩ => rfl)

theorem dst_idx (e : Fin 850000) : idx_main_v124 (ix2 e 0) = ix1 e :=
  funext fun a => Fin.ext (by match a with | ⟨0, _⟩ => rfl)

theorem bias_idx (i : Fin 50000) (j : Fin 128) :
    idx_main_v126 (idx_main_v127 (idx_main_v128 (idx_main_v129 (ix2 i j)))) = ix2 (1 : Fin 3) j :=
  funext fun a => Fin.ext (by
    match a with
    | ⟨0, _⟩ => rfl
    | ⟨1, _⟩ => exact Nat.mod_eq_of_lt j.isLt)

theorem scale_idx (i : Fin 50000) (j : Fin 128) :
    idx_main_v131 (idx_main_v132 (idx_main_v153 (idx_main_v154 (ix2 i j)))) = ix2 (1 : Fin 3) j :=
  funext fun a => Fin.ext (by
    match a with
    | ⟨0, _⟩ => rfl
    | ⟨1, _⟩ => exact Nat.mod_eq_of_lt j.isLt)

theorem shift_idx (i : Fin 50000) (j : Fin 128) :
    idx_main_v133 (idx_main_v134 (idx_main_v156 (idx_main_v157 (ix2 i j)))) = ix2 (1 : Fin 3) j :=
  funext fun a => Fin.ext (by
    match a with
    | ⟨0, _⟩ => rfl
    | ⟨1, _⟩ => exact Nat.mod_eq_of_lt j.isLt)

theorem rowsum_idx (i : Fin 50000) (k : Fin 128) : idx_main_v135 (ix1 i) k = ix2 i k :=
  funext fun a => Fin.ext (by match a with | ⟨0, _⟩ => rfl | ⟨1, _⟩ => rfl)

theorem sqsum_idx (i : Fin 50000) (k : Fin 128) : idx_main_v142 (ix1 i) k = ix2 i k :=
  funext fun a => Fin.ext (by match a with | ⟨0, _⟩ => rfl | ⟨1, _⟩ => rfl)

theorem rowsum_col_idx (i : Fin 50000) : idx_main_v136 (ix2 i 0) = ix1 i :=
  funext fun a => Fin.ext (by match a with | ⟨0, _⟩ => rfl)

theorem sqsum_col_idx (i : Fin 50000) : idx_main_v143 (ix2 i 0) = ix1 i :=
  funext fun a => Fin.ext (by match a with | ⟨0, _⟩ => rfl)

theorem mean_bcast_idx (i : Fin 50000) (j : Fin 128) : idx_main_v139 (ix2 i j) = ix2 i 0 :=
  funext fun a => Fin.ext (by match a with | ⟨0, _⟩ => rfl | ⟨1, _⟩ => rfl)

theorem mean_bcast_idx' (i : Fin 50000) (j : Fin 128) : idx_main_v146 (ix2 i j) = ix2 i 0 :=
  funext fun a => Fin.ext (by match a with | ⟨0, _⟩ => rfl | ⟨1, _⟩ => rfl)

theorem rstd_bcast_idx (i : Fin 50000) (j : Fin 128) : idx_main_v151 (ix2 i j) = ix2 i 0 :=
  funext fun a => Fin.ext (by match a with | ⟨0, _⟩ => rfl | ⟨1, _⟩ => rfl)

theorem src_apply (e : Fin 850000) :
    val_main_v118 x1 (ix2 e 0) = Cert.Gcn.wrapIdx (val_main_v32 x1 (ix1 e)) := by
  rw [val_main_v118_apply, src_idx, val_main_v117_apply, val_main_v114_apply, val_main_v116_apply, val_main_v113_apply,
    val_main_v115_apply, val_main_c_19_apply, val_main_c_20_apply]
  exact wrap_select _

theorem gather_apply (e : Fin 850000) (j : Fin 128) :
    val_main_v119 x0 x1 x3 x4 x5 x6 x7 x8 x9 x10 (ix2 e j)
      = val_main_v112 x0 x1 x3 x4 x5 x6 x7 x8 x9 x10 (ix2 (Cert.Gcn.rowOf (val_main_v32 x1 (ix1 e))) j) := by
  unfold val_main_v119 Cert.Gcn.rowOf
  rw [gather_rows_read, src_apply]

theorem msg_apply (e : Fin 850000) (j : Fin 128) :
    val_main_v122 x0 x1 x3 x4 x5 x6 x7 x8 x9 x10 (ix2 e j)
      = (∑ k : Fin 128, val_main_v109 x0 x1 x3 x4 x5 x6 x7 x8 x9 x10 (ix2 (Cert.Gcn.rowOf (val_main_v32 x1 (ix1 e))) k) * x7 (ix3 (1 : Fin 3) k j))
          * val_main_v58 x1 (ix1 e) := by
  rw [val_main_v122_apply, gather_apply, val_main_v112_apply, val_main_v121_apply, val_main_v120_apply, norm_idx,
    Ideal.mulf_def]
  refine congrArg (· * val_main_v58 x1 (ix1 e)) (Finset.sum_congr rfl fun k _ => ?_)
  rw [dot_lidx, dot_ridx, val_main_v111_apply, val_main_v110_apply, weight_idx]

theorem agg_apply (i : Fin 50000) (j : Fin 128) :
    val_main_v125 x0 x1 x3 x4 x5 x6 x7 x8 x9 x10 (ix2 i j)
      = Cert.Gcn.aggOf (fun e : Fin 850000 => val_main_v35 x1 (ix1 e))
          (fun e j'' => val_main_v122 x0 x1 x3 x4 x5 x6 x7 x8 x9 x10 (ix2 e j'')) i j := by
  unfold val_main_v125
  rw [scatter_rows_read]
  rw [val_main_v123_apply, val_main_cst_21_apply, Ideal.ofBits_def, Ideal.ofBits_zero_f32]
  rw [Cert.Gcn.aggOf]
  refine congrArg (0 + ·) (Finset.sum_congr rfl fun e _ => ?_)
  rw [val_main_v124_apply, dst_idx]

theorem pre_apply (i : Fin 50000) (j : Fin 128) :
    val_main_v130 x0 x1 x3 x4 x5 x6 x7 x8 x9 x10 (ix2 i j)
      = val_main_v125 x0 x1 x3 x4 x5 x6 x7 x8 x9 x10 (ix2 i j) + x8 (ix2 (1 : Fin 3) j) := by
  rw [val_main_v130_apply, val_main_v129_apply, val_main_v128_apply, val_main_v127_apply, val_main_v126_apply, bias_idx,
    Ideal.addf_def]

theorem mean_apply (i : Fin 50000) :
    val_main_v138 x0 x1 x3 x4 x5 x6 x7 x8 x9 x10 (ix2 i 0)
      = Cert.Gcn.mean (fun j' : Fin 128 => val_main_v130 x0 x1 x3 x4 x5 x6 x7 x8 x9 x10 (ix2 i j')) := by
  unfold Cert.Gcn.mean
  rw [val_main_v138_apply, val_main_v136_apply, rowsum_col_idx, val_main_v135_apply, val_main_v137_apply,
    val_main_cst_23_apply, val_main_cst_22_apply, Ideal.hostDivf_def, Ideal.ofBits_def, Ideal.ofBits_def,
    Ideal.ofBits_zero_f32, zero_add]
  refine congrArg (Ideal.div · Cert.Gcn.c128) (Finset.sum_congr rfl fun k _ => ?_)
  rw [rowsum_idx]

theorem dev_apply (i : Fin 50000) (j : Fin 128) :
    val_main_v140 x0 x1 x3 x4 x5 x6 x7 x8 x9 x10 (ix2 i j)
      = val_main_v130 x0 x1 x3 x4 x5 x6 x7 x8 x9 x10 (ix2 i j)
          - Cert.Gcn.mean (fun j' : Fin 128 => val_main_v130 x0 x1 x3 x4 x5 x6 x7 x8 x9 x10 (ix2 i j')) := by
  rw [val_main_v140_apply, val_main_v139_apply, mean_bcast_idx, mean_apply, Ideal.subf_def]

theorem var_apply (i : Fin 50000) :
    val_main_v145 x0 x1 x3 x4 x5 x6 x7 x8 x9 x10 (ix2 i 0)
      = Cert.Gcn.var (fun j' : Fin 128 => val_main_v130 x0 x1 x3 x4 x5 x6 x7 x8 x9 x10 (ix2 i j')) := by
  unfold Cert.Gcn.var
  rw [val_main_v145_apply, val_main_v143_apply, sqsum_col_idx, val_main_v142_apply, val_main_v144_apply,
    val_main_cst_25_apply, val_main_cst_24_apply, Ideal.hostDivf_def, Ideal.ofBits_def, Ideal.ofBits_def,
    Ideal.ofBits_zero_f32, zero_add]
  refine congrArg (Ideal.div · Cert.Gcn.c128) (Finset.sum_congr rfl fun k _ => ?_)
  rw [sqsum_idx, val_main_v141_apply, dev_apply, Ideal.mulf_def]

theorem norm_apply (i : Fin 50000) (j : Fin 128) :
    val_main_v160 x0 x1 x3 x4 x5 x6 x7 x8 x9 x10 (ix2 i j)
      = max (Cert.Gcn.lnAff (fun j' : Fin 128 => val_main_v130 x0 x1 x3 x4 x5 x6 x7 x8 x9 x10 (ix2 i j'))
              (fun j' => x9 (ix2 (1 : Fin 3) j')) (fun j' => x10 (ix2 (1 : Fin 3) j')) j) 0
          + val_main_v109 x0 x1 x3 x4 x5 x6 x7 x8 x9 x10 (ix2 i j) := by
  unfold Cert.Gcn.lnAff
  rw [val_main_v160_apply, val_main_v159_apply, val_main_v158_apply, val_main_v155_apply, val_main_v152_apply,
    val_main_v147_apply, val_main_v146_apply, mean_bcast_idx', mean_apply, val_main_v151_apply, rstd_bcast_idx,
    val_main_v150_apply, val_main_v149_apply, var_apply, val_main_v148_apply, val_main_cst_26_apply,
    val_main_v154_apply, val_main_v153_apply, val_main_v132_apply, val_main_v131_apply, scale_idx,
    val_main_v157_apply, val_main_v156_apply, val_main_v134_apply, val_main_v133_apply, shift_idx,
    val_main_call3_v0_apply, val_main_call3_cst_apply]
  simp only [Ideal.addf_def, Ideal.subf_def, Ideal.mulf_def, Ideal.maximumf_def, Ideal.hostUnary_rsqrt_def,
    Ideal.ofBits_def, Ideal.ofBits_zero_f32]

theorem layer_apply (i : Fin 50000) (j : Fin 128) :
    val_main_v160 x0 x1 x3 x4 x5 x6 x7 x8 x9 x10 (ix2 i j)
      = Cert.Gcn.postRowPre
          (fun j' : Fin 128 => Cert.Gcn.aggOf (fun e : Fin 850000 => val_main_v35 x1 (ix1 e))
              (fun e j'' => (∑ k : Fin 128, val_main_v109 x0 x1 x3 x4 x5 x6 x7 x8 x9 x10 (ix2 (Cert.Gcn.rowOf (val_main_v32 x1 (ix1 e))) k) * x7 (ix3 (1 : Fin 3) k j'')) * val_main_v58 x1 (ix1 e)) i j')
          (fun j' => x8 (ix2 (1 : Fin 3) j')) (fun j' => x9 (ix2 (1 : Fin 3) j')) (fun j' => x10 (ix2 (1 : Fin 3) j'))
          (fun j' => val_main_v109 x0 x1 x3 x4 x5 x6 x7 x8 x9 x10 (ix2 i j')) j := by
  have hrow : (fun j' : Fin 128 => val_main_v130 x0 x1 x3 x4 x5 x6 x7 x8 x9 x10 (ix2 i j'))
      = fun j' : Fin 128 => Cert.Gcn.aggOf (fun e : Fin 850000 => val_main_v35 x1 (ix1 e))
          (fun e j'' => (∑ k : Fin 128, val_main_v109 x0 x1 x3 x4 x5 x6 x7 x8 x9 x10 (ix2 (Cert.Gcn.rowOf (val_main_v32 x1 (ix1 e))) k) * x7 (ix3 (1 : Fin 3) k j'')) * val_main_v58 x1 (ix1 e)) i j'
          + x8 (ix2 (1 : Fin 3) j') := by
    have hmsg : (fun (e : Fin 850000) (j'' : Fin 128) => val_main_v122 x0 x1 x3 x4 x5 x6 x7 x8 x9 x10 (ix2 e j''))
        = fun e j'' => (∑ k : Fin 128, val_main_v109 x0 x1 x3 x4 x5 x6 x7 x8 x9 x10 (ix2 (Cert.Gcn.rowOf (val_main_v32 x1 (ix1 e))) k) * x7 (ix3 (1 : Fin 3) k j'')) * val_main_v58 x1 (ix1 e) := by
      funext e j''
      rw [msg_apply]
    funext j'
    rw [pre_apply, agg_apply, hmsg]
  unfold Cert.Gcn.postRowPre
  rw [norm_apply, hrow]

end Cert.ReferenceIdeal.RefL2

end
-- ==== Proof.RefL3.lean ====
import proofs.«406057_j79568564126007_2_alg».proof.Proof.RefRead
import proofs.«406057_j79568564126007_2_alg».proof.Proof.Spec
import proofs.«406057_j79568564126007_2_alg».proof.Proof.RefLOps
import Idealize.ShloMosaic.Lib.ValueIdx
import Idealize.ShloMosaic.PureOps.Ideal
import Idealize.ShloMosaic.PureOps.Ideal.Laws

noncomputable section

namespace Cert.ReferenceIdeal.RefL3

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.ReferenceIdeal.RefLOps

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x128, .f32⟩ : BufTy).Contents (Elt Ideal))
  (x4 x5 x6 : (⟨S128, .f32⟩ : BufTy).Contents (Elt Ideal)) (x7 : (⟨S3x128x128, .f32⟩ : BufTy).Contents (Elt Ideal))
  (x8 x9 x10 : (⟨S3x128, .f32⟩ : BufTy).Contents (Elt Ideal)) (x11 : (⟨S128x64, .f32⟩ : BufTy).Contents (Elt Ideal))
  (x12 : (⟨S64, .f32⟩ : BufTy).Contents (Elt Ideal)) (x13 : (⟨S64x12, .f32⟩ : BufTy).Contents (Elt Ideal))
  (x14 : (⟨S12, .f32⟩ : BufTy).Contents (Elt Ideal))

theorem weight_idx (k j : Fin 128) : idx_main_v161 (idx_main_v162 (ix2 k j)) = ix3 (2 : Fin 3) k j :=
  funext fun a => Fin.ext (by
    match a with
    | ⟨0, _⟩ => rfl
    | ⟨1, _⟩ =>
      show (k.val * 128 + j.val) / 128 % 128 = k.val
      have hk := k.isLt; have hj := j.isLt; omega
    | ⟨2, _⟩ =>
      show (k.val * 128 + j.val) % 128 = j.val
      have hk := k.isLt; have hj := j.isLt; omega)

theorem dot_lidx (r : Fin 50000) (j k : Fin 128) : lidx_main_v163 (ix2 r j) k = ix2 r k :=
  funext fun a => Fin.ext (by match a with | ⟨0, _⟩ => rfl | ⟨1, _⟩ => rfl)

theorem dot_ridx (r : Fin 50000) (j k : Fin 128) : ridx_main_v163 (ix2 r j) k = ix2 k j :=
  funext fun a => Fin.ext (by match a with | ⟨0, _⟩ => rfl | ⟨1, _⟩ => rfl)

theorem src_idx (e : Fin 850000) : idx_main_v169 (ix2 e 0) = ix1 e :=
  funext fun a => Fin.ext (by match a with | ⟨0, _⟩ => rfl)

theorem norm_idx (e : Fin 850000) (j : Fin 128) : idx_main_v171 (idx_main_v172 (ix2 e j)) = ix1 e :=
  funext fun a => Fin.ext (by match a with | ⟨0, _⟩ => rfl)

theorem dst_idx (e : Fin 850000) : idx_main_v175 (ix2 e 0) = ix1 e :=
  funext fun a => Fin.ext (by match a with | ⟨0, _⟩ => rfl)

theorem bias_idx (i : Fin 50000) (j : Fin 128) :
    idx_main_v177 (idx_main_v178 (idx_main_v179 (idx_main_v180 (ix2 i j)))) = ix2 (2 : Fin 3) j :=
  funext fun a => Fin.ext (by
    match a with
    | ⟨0, _⟩ => rfl
    | ⟨1, _⟩ => exact Nat.mod_eq_of_lt j.isLt)

theorem scale_idx (i : Fin 50000) (j : Fin 128) :
    idx_main_v182 (idx_main_v183 (idx_main_v204 (idx_main_v205 (ix2 i j)))) = ix2 (2 : Fin 3) j :=
  funext fun a => Fin.ext (by
    match a with
    | ⟨0, _⟩ => rfl
    | ⟨1, _⟩ => exact Nat.mod_eq_of_lt j.isLt)

theorem shift_idx (i : Fin 50000) (j : Fin 128) :
    idx_main_v184 (idx_main_v185 (idx_main_v207 (idx_main_v208 (ix2 i j)))) = ix2 (2 : Fin 3) j :=
  funext fun a => Fin.ext (by
    match a with
    | ⟨0, _⟩ => rfl
    | ⟨1, _⟩ => exact Nat.mod_eq_of_lt j.isLt)

theorem rowsum_idx (i : Fin 50000) (k : Fin 128) : idx_main_v186 (ix1 i) k = ix2 i k :=
  funext fun a => Fin.ext (by match a with | ⟨0, _⟩ => rfl | ⟨1, _⟩ => rfl)

theorem sqsum_idx (i : Fin 50000) (k : Fin 128) : idx_main_v193 (ix1 i) k = ix2 i k :=
  funext fun a => Fin.ext (by match a with | ⟨0, _⟩ => rfl | ⟨1, _⟩ => rfl)

theorem rowsum_col_idx (i : Fin 50000) : idx_main_v187 (ix2 i 0) = ix1 i :=
  funext fun a => Fin.ext (by match a with | ⟨0, _⟩ => rfl)

theorem sqsum_col_idx (i : Fin 50000) : idx_main_v194 (ix2 i 0) = ix1 i :=
  funext fun a => Fin.ext (by match a with | ⟨0, _⟩ => rfl)

theorem mean_bcast_idx (i : Fin 50000) (j : Fin 128) : idx_main_v190 (ix2 i j) = ix2 i 0 :=
  funext fun a => Fin.ext (by match a with | ⟨0, _⟩ => rfl | ⟨1, _⟩ => rfl)

theorem mean_bcast_idx' (i : Fin 50000) (j : Fin 128) : idx_main_v197 (ix2 i j) = ix2 i 0 :=
  funext fun a => Fin.ext (by match a with | ⟨0, _⟩ => rfl | ⟨1, _⟩ => rfl)

theorem rstd_bcast_idx (i : Fin 50000) (j : Fin 128) : idx_main_v202 (ix2 i j) = ix2 i 0 :=
  funext fun a => Fin.ext (by match a with | ⟨0, _⟩ => rfl | ⟨1, _⟩ => rfl)

theorem src_apply (e : Fin 850000) :
    val_main_v169 x1 (ix2 e 0) = Cert.Gcn.wrapIdx (val_main_v32 x1 (ix1 e)) := by
  rw [val_main_v169_apply, src_idx, val_main_v168_apply, val_main_v165_apply, val_main_v167_apply, val_main_v164_apply,
    val_main_v166_apply, val_main_c_27_apply, val_main_c_28_apply]
  exact wrap_select _

theorem gather_apply (e : Fin 850000) (j : Fin 128) :
    val_main_v170 x0 x1 x3 x4 x5 x6 x7 x8 x9 x10 (ix2 e j)
      = val_main_v163 x0 x1 x3 x4 x5 x6 x7 x8 x9 x10 (ix2 (Cert.Gcn.rowOf (val_main_v32 x1 (ix1 e))) j) := by
  unfold val_main_v170 Cert.Gcn.rowOf
  rw [gather_rows_read, src_apply]

theorem msg_apply (e : Fin 850000) (j : Fin 128) :
    val_main_v173 x0 x1 x3 x4 x5 x6 x7 x8 x9 x10 (ix2 e j)
      = (∑ k : Fin 128, val_main_v160 x0 x1 x3 x4 x5 x6 x7 x8 x9 x10 (ix2 (Cert.Gcn.rowOf (val_main_v32 x1 (ix1 e))) k) * x7 (ix3 (2 : Fin 3) k j))
          * val_main_v58 x1 (ix1 e) := by
  rw [val_main_v173_apply, gather_apply, val_main_v163_apply, val_main_v172_apply, val_main_v171_apply, norm_idx,
    Ideal.mulf_def]
  refine congrArg (· * val_main_v58 x1 (ix1 e)) (Finset.sum_congr rfl fun k _ => ?_)
  rw [dot_lidx, dot_ridx, val_main_v162_apply, val_main_v161_apply, weight_idx]

theorem agg_apply (i : Fin 50000) (j : Fin 128) :
    val_main_v176 x0 x1 x3 x4 x5 x6 x7 x8 x9 x10 (ix2 i j)
      = Cert.Gcn.aggOf (fun e : Fin 850000 => val_main_v35 x1 (ix1 e))
          (fun e j'' => val_main_v173 x0 x1 x3 x4 x5 x6 x7 x8 x9 x10 (ix2 e j'')) i j := by
  unfold val_main_v176
  rw [scatter_rows_read]
  rw [val_main_v174_apply, val_main_cst_29_apply, Ideal.ofBits_def, Ideal.ofBits_zero_f32]
  rw [Cert.Gcn.aggOf]
  refine congrArg (0 + ·) (Finset.sum_congr rfl fun e _ => ?_)
  rw [val_main_v175_apply, dst_idx]

theorem pre_apply (i : Fin 50000) (j : Fin 128) :
    val_main_v181 x0 x1 x3 x4 x5 x6 x7 x8 x9 x10 (ix2 i j)
      = val_main_v176 x0 x1 x3 x4 x5 x6 x7 x8 x9 x10 (ix2 i j) + x8 (ix2 (2 : Fin 3) j) := by
  rw [val_main_v181_apply, val_main_v180_apply, val_main_v179_apply, val_main_v178_apply, val_main_v177_apply, bias_idx,
    Ideal.addf_def]

theorem mean_apply (i : Fin 50000) :
    val_main_v189 x0 x1 x3 x4 x5 x6 x7 x8 x9 x10 (ix2 i 0)
      = Cert.Gcn.mean (fun j' : Fin 128 => val_main_v181 x0 x1 x3 x4 x5 x6 x7 x8 x9 x10 (ix2 i j')) := by
  unfold Cert.Gcn.mean
  rw [val_main_v189_apply, val_main_v187_apply, rowsum_col_idx, val_main_v186_apply, val_main_v188_apply,
    val_main_cst_31_apply, val_main_cst_30_apply, Ideal.hostDivf_def, Ideal.ofBits_def, Ideal.ofBits_def,
    Ideal.ofBits_zero_f32, zero_add]
  refine congrArg (Ideal.div · Cert.Gcn.c128) (Finset.sum_congr rfl fun k _ => ?_)
  rw [rowsum_idx]

theorem dev_apply (i : Fin 50000) (j : Fin 128) :
    val_main_v191 x0 x1 x3 x4 x5 x6 x7 x8 x9 x10 (ix2 i j)
      = val_main_v181 x0 x1 x3 x4 x5 x6 x7 x8 x9 x10 (ix2 i j)
          - Cert.Gcn.mean (fun j' : Fin 128 => val_main_v181 x0 x1 x3 x4 x5 x6 x7 x8 x9 x10 (ix2 i j')) := by
  rw [val_main_v191_apply, val_main_v190_apply, mean_bcast_idx, mean_apply, Ideal.subf_def]

theorem var_apply (i : Fin 50000) :
    val_main_v196 x0 x1 x3 x4 x5 x6 x7 x8 x9 x10 (ix2 i 0)
      = Cert.Gcn.var (fun j' : Fin 128 => val_main_v181 x0 x1 x3 x4 x5 x6 x7 x8 x9 x10 (ix2 i j')) := by
  unfold Cert.Gcn.var
  rw [val_main_v196_apply, val_main_v194_apply, sqsum_col_idx, val_main_v193_apply, val_main_v195_apply,
    val_main_cst_33_apply, val_main_cst_32_apply, Ideal.hostDivf_def, Ideal.ofBits_def, Ideal.ofBits_def,
    Ideal.ofBits_zero_f32, zero_add]
  refine congrArg (Ideal.div · Cert.Gcn.c128) (Finset.sum_congr rfl fun k _ => ?_)
  rw [sqsum_idx, val_main_v192_apply, dev_apply, Ideal.mulf_def]

theorem norm_apply (i : Fin 50000) (j : Fin 128) :
    val_main_v211 x0 x1 x3 x4 x5 x6 x7 x8 x9 x10 (ix2 i j)
      = max (Cert.Gcn.lnAff (fun j' : Fin 128 => val_main_v181 x0 x1 x3 x4 x5 x6 x7 x8 x9 x10 (ix2 i j'))
              (fun j' => x9 (ix2 (2 : Fin 3) j')) (fun j' => x10 (ix2 (2 : Fin 3) j')) j) 0
          + val_main_v160 x0 x1 x3 x4 x5 x6 x7 x8 x9 x10 (ix2 i j) := by
  unfold Cert.Gcn.lnAff
  rw [val_main_v211_apply, val_main_v210_apply, val_main_v209_apply, val_main_v206_apply, val_main_v203_apply,
    val_main_v198_apply, val_main_v197_apply, mean_bcast_idx', mean_apply, val_main_v202_apply, rstd_bcast_idx,
    val_main_v201_apply, val_main_v200_apply, var_apply, val_main_v199_apply, val_main_cst_34_apply,
    val_main_v205_apply, val_main_v204_apply, val_main_v183_apply, val_main_v182_apply, scale_idx,
    val_main_v208_apply, val_main_v207_apply, val_main_v185_apply, val_main_v184_apply, shift_idx,
    val_main_call4_v0_apply, val_main_call4_cst_apply]
  simp only [Ideal.addf_def, Ideal.subf_def, Ideal.mulf_def, Ideal.maximumf_def, Ideal.hostUnary_rsqrt_def,
    Ideal.ofBits_def, Ideal.ofBits_zero_f32]

theorem layer_apply (i : Fin 50000) (j : Fin 128) :
    val_main_v211 x0 x1 x3 x4 x5 x6 x7 x8 x9 x10 (ix2 i j)
      = Cert.Gcn.postRowPre
          (fun j' : Fin 128 => Cert.Gcn.aggOf (fun e : Fin 850000 => val_main_v35 x1 (ix1 e))
              (fun e j'' => (∑ k : Fin 128, val_main_v160 x0 x1 x3 x4 x5 x6 x7 x8 x9 x10 (ix2 (Cert.Gcn.rowOf (val_main_v32 x1 (ix1 e))) k) * x7 (ix3 (2 : Fin 3) k j'')) * val_main_v58 x1 (ix1 e)) i j')
          (fun j' => x8 (ix2 (2 : Fin 3) j')) (fun j' => x9 (ix2 (2 : Fin 3) j')) (fun j' => x10 (ix2 (2 : Fin 3) j'))
          (fun j' => val_main_v160 x0 x1 x3 x4 x5 x6 x7 x8 x9 x10 (ix2 i j')) j := by
  have hrow : (fun j' : Fin 128 => val_main_v181 x0 x1 x3 x4 x5 x6 x7 x8 x9 x10 (ix2 i j'))
      = fun j' : Fin 128 => Cert.Gcn.aggOf (fun e : Fin 850000 => val_main_v35 x1 (ix1 e))
          (fun e j'' => (∑ k : Fin 128, val_main_v160 x0 x1 x3 x4 x5 x6 x7 x8 x9 x10 (ix2 (Cert.Gcn.rowOf (val_main_v32 x1 (ix1 e))) k) * x7 (ix3 (2 : Fin 3) k j'')) * val_main_v58 x1 (ix1 e)) i j'
          + x8 (ix2 (2 : Fin 3) j') := by
    have hmsg : (fun (e : Fin 850000) (j'' : Fin 128) => val_main_v173 x0 x1 x3 x4 x5 x6 x7 x8 x9 x10 (ix2 e j''))
        = fun e j'' => (∑ k : Fin 128, val_main_v160 x0 x1 x3 x4 x5 x6 x7 x8 x9 x10 (ix2 (Cert.Gcn.rowOf (val_main_v32 x1 (ix1 e))) k) * x7 (ix3 (2 : Fin 3) k j'')) * val_main_v58 x1 (ix1 e) := by
      funext e j''
      rw [msg_apply]
    funext j'
    rw [pre_apply, agg_apply, hmsg]
  unfold Cert.Gcn.postRowPre
  rw [norm_apply, hrow]

end Cert.ReferenceIdeal.RefL3

end
-- ==== Proof.RValue.lean ====
import proofs.«406057_j79568564126007_2_alg».proof.Proof.RefA
import proofs.«406057_j79568564126007_2_alg».proof.Proof.RefL1
import proofs.«406057_j79568564126007_2_alg».proof.Proof.RefL2
import proofs.«406057_j79568564126007_2_alg».proof.Proof.RefL3
import proofs.«406057_j79568564126007_2_alg».proof.Proof.Layer

set_option maxRecDepth 16384

noncomputable section

namespace Cert.ReferenceIdeal.RValue

open Cert.ReferenceIdeal Cert.ReferenceIdeal.Read
open Idealize.ShloMosaic Idealize.ShloMosaic.ValueIdx
open Cert.Gcn

variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x128, .f32⟩ : BufTy).Contents (Elt Ideal))
  (x4 x5 x6 : (⟨S128, .f32⟩ : BufTy).Contents (Elt Ideal)) (x7 : (⟨S3x128x128, .f32⟩ : BufTy).Contents (Elt Ideal))
  (x8 x9 x10 : (⟨S3x128, .f32⟩ : BufTy).Contents (Elt Ideal)) (x11 : (⟨S128x64, .f32⟩ : BufTy).Contents (Elt Ideal))
  (x12 : (⟨S64, .f32⟩ : BufTy).Contents (Elt Ideal)) (x13 : (⟨S64x12, .f32⟩ : BufTy).Contents (Elt Ideal))
  (x14 : (⟨S12, .f32⟩ : BufTy).Contents (Elt Ideal))

abbrev rX (r : Fin 50000) (k : Fin 64) : EReal := x0 (ix2 r k)
abbrev rEI (a : Fin 2) (e : Fin 800000) : BitVec 32 := x1 (ix2 a e)
abbrev rBid (i : Fin 50000) : BitVec 32 := x2 (ix1 i)
abbrev rWe (k : Fin 64) (j : Fin 128) : EReal := x3 (ix2 k j)
abbrev rB0 (j : Fin 128) : EReal := x4 (ix1 j)
abbrev rG0 (j : Fin 128) : EReal := x5 (ix1 j)
abbrev rBe0 (j : Fin 128) : EReal := x6 (ix1 j)
abbrev rWc (l : Fin 3) (k j : Fin 128) : EReal := x7 (ix3 l k j)
abbrev rBc (l : Fin 3) (j : Fin 128) : EReal := x8 (ix2 l j)
abbrev rGl (l : Fin 3) (j : Fin 128) : EReal := x9 (ix2 l j)
abbrev rBl (l : Fin 3) (j : Fin 128) : EReal := x10 (ix2 l j)
abbrev rW1 (q : Fin 128) (k : Fin 64) : EReal := x11 (ix2 q k)
abbrev rB1 (k : Fin 64) : EReal := x12 (ix1 k)
abbrev rW2 (k : Fin 64) (o : Fin 12) : EReal := x13 (ix2 k o)
abbrev rB2 (o : Fin 12) : EReal := x14 (ix1 o)
abbrev rSrc : Fin 850000 → BitVec 32 := withLoops (rEI x1 0)
abbrev rDst : Fin 850000 → BitVec 32 := withLoops (rEI x1 1)
abbrev rD (i : Fin 50000) : EReal := scaleOf (degOf (rDst x1) i)

theorem src_eq (e : Fin 850000) : val_main_v32 (F := Ideal) x1 (ix1 e) = rSrc x1 e := RefA.src_apply x1 e
theorem dst_eq (e : Fin 850000) : val_main_v35 (F := Ideal) x1 (ix1 e) = rDst x1 e := RefA.dst_apply x1 e

theorem dinv_eq (i : Fin 50000) : val_main_v43 (F := Ideal) x1 (ix1 i) = rD x1 i := by
  refine (RefA.dinv_apply x1 i).trans ?_
  simp only [dst_eq]

theorem norm_eq (e : Fin 850000) : val_main_v58 (F := Ideal) x1 (ix1 e) = rD x1 (rowOf (rSrc x1 e)) * rD x1 (rowOf (rDst x1 e)) := by
  refine (RefA.norm_apply x1 e).trans ?_
  simp only [src_eq, dst_eq, dinv_eq]

def rH0 (r : Fin 50000) (j : Fin 128) : EReal := val_main_v28 (F := Ideal) x0 x3 x4 x5 x6 (ix2 r j)

theorem rH0_eq : rH0 x0 x3 x4 x5 x6 = fun r j => embRow (rX x0 r) (rWe x3) (rB0 x4) (rG0 x5) (rBe0 x6) j := by
  funext r j
  exact RefA.emb_apply x0 x3 x4 x5 x6 r j

def rH1 (r : Fin 50000) (j : Fin 128) : EReal := val_main_v109 (F := Ideal) x0 x1 x3 x4 x5 x6 x7 x8 x9 x10 (ix2 r j)
def rH2 (r : Fin 50000) (j : Fin 128) : EReal := val_main_v160 (F := Ideal) x0 x1 x3 x4 x5 x6 x7 x8 x9 x10 (ix2 r j)
def rH3 (r : Fin 50000) (j : Fin 128) : EReal := val_main_v211 (F := Ideal) x0 x1 x3 x4 x5 x6 x7 x8 x9 x10 (ix2 r j)

theorem rH1_eq : rH1 x0 x1 x3 x4 x5 x6 x7 x8 x9 x10 = layerR (rH0 x0 x3 x4 x5 x6) (rWc x7 0) (rBc x8 0) (rGl x9 0) (rBl x10 0) (rSrc x1) (rDst x1) (rD x1) := by
  funext i j
  unfold rH1 layerR
  refine (RefL1.layer_apply x0 x1 x3 x4 x5 x6 x7 x8 x9 x10 i j).trans ?_
  simp only [src_eq, dst_eq, norm_eq]
  rfl

theorem rH2_eq : rH2 x0 x1 x3 x4 x5 x6 x7 x8 x9 x10 = layerR (rH1 x0 x1 x3 x4 x5 x6 x7 x8 x9 x10) (rWc x7 1) (rBc x8 1) (rGl x9 1) (rBl x10 1) (rSrc x1) (rDst x1) (rD x1) := by
  funext i j
  unfold rH2 layerR
  refine (RefL2.layer_apply x0 x1 x3 x4 x5 x6 x7 x8 x9 x10 i j).trans ?_
  simp only [src_eq, dst_eq, norm_eq]
  rfl

theorem rH3_eq : rH3 x0 x1 x3 x4 x5 x6 x7 x8 x9 x10 = layerR (rH2 x0 x1 x3 x4 x5 x6 x7 x8 x9 x10) (rWc x7 2) (rBc x8 2) (rGl x9 2) (rBl x10 2) (rSrc x1) (rDst x1) (rD x1) := by
  funext i j
  unfold rH3 layerR
  refine (RefL3.layer_apply x0 x1 x3 x4 x5 x6 x7 x8 x9 x10 i j).trans ?_
  simp only [src_eq, dst_eq, norm_eq]
  rfl

theorem ref_value (g : Fin 512) (o : Fin 12) :
    val_main_v232 (F := Ideal) x0 x1 x2 x3 x4 x5 x6 x7 x8 x9 x10 x11 x12 x13 x14 (ix2 g o)
      = netR (rX x0) (rWe x3) (rB0 x4) (rG0 x5) (rBe0 x6) (rWc x7) (rBc x8) (rGl x9) (rBl x10) (rSrc x1) (rDst x1) (rBid x2)
          (rW1 x11) (rB1 x12) (rW2 x13) (rB2 x14) g o := by
  refine (RefA.out_apply x0 x1 x2 x3 x4 x5 x6 x7 x8 x9 x10 x11 x12 x13 x14 g o).trans ?_
  unfold netR
  rw [← rH0_eq, ← rH1_eq, ← rH2_eq, ← rH3_eq]
  rfl

end Cert.ReferenceIdeal.RValue

end
-- ==== Proof.PreRange.lean ====
import proofs.«406057_j79568564126007_2_alg».proof.Defs
import proofs.«406057_j79568564126007_2_alg».proof.Proof.Gen.Pre_finite_inputs
import Idealize.ShloMosaic.Lib.ReduceAll
import Idealize.ShloMosaic.Lib.ValueIdx
import Idealize.ShloMosaic.Lib.ValueLayout
import Idealize.ShloMosaic.Lib.StableHlo.Predicate

noncomputable section

namespace Cert.PreRange

open Idealize.ShloMosaic Idealize.ShloMosaic.ValueIdx Cert.Pre_finite_inputs

variable [Facts]

instance : Subsingleton S_.Idx := ⟨fun a b => funext fun d => d.elim0⟩

theorem row0_apply (a1 : IVec S2x800000 32) (hs : S2x800000.Slices ![0, 0] S1x800000) (hc : S1x800000.ShapeCasts S800000) (e : Fin 800000) :
    shapeCast S800000 (extractStridedSlice S1x800000 ![0, 0] a1 hs) hc (ix1 e) = a1 (ix2 0 e) := by
  rw [shapeCast_apply _ hc (ix1 e) (ix2 0 e) (by rw [Shape.rowMajor_val_two, Shape.rowMajor_val_one]; show 0 * 800000 + e.val = e.val; omega)]
  show a1 _ = a1 _
  congr 1
  funext a
  apply Fin.ext
  match a with
  | ⟨0, _⟩ => rfl
  | ⟨1, _⟩ => show 0 + e.val = e.val; omega

theorem word_range (w : BitVec 32) (hge : IntOp.cmpi .sge w 0#32 = 1#1) (hlt : IntOp.cmpi .slt w 50000#32 = 1#1) :
    0 ≤ w.toInt ∧ w.toInt < 50000 := by
  unfold IntOp.cmpi at hge hlt
  rw [StableHlo.Predicate.ofBool_eq_one_iff] at hge hlt
  simp only [BitVec.slt, BitVec.sle, decide_eq_true_eq] at hge hlt
  have e0 : (0#32 : BitVec 32).toInt = 0 := by decide
  have e1 : (50000#32 : BitVec 32).toInt = 50000 := by decide
  omega

theorem src_words (a0 : FVec Ideal S50000x64 .f32) (a1 : IVec S2x800000 32) (a2 : IVec S50000 32) (a3 : FVec Ideal S64x128 .f32)
    (a4 a5 a6 : FVec Ideal S128 .f32) (a7 : FVec Ideal S3x128x128 .f32) (a8 a9 a10 : FVec Ideal S3x128 .f32)
    (a11 : FVec Ideal S128x64 .f32) (a12 : FVec Ideal S64 .f32) (a13 : FVec Ideal S64x12 .f32) (a14 : FVec Ideal S12 .f32)
    (h : fn (F := Ideal) a0 a1 a2 a3 a4 a5 a6 a7 a8 a9 a10 a11 a12 a13 a14 = fun _ => 1#1) (e : Fin 800000) :
    0 ≤ (a1 (ix2 0 e)).toInt ∧ (a1 (ix2 0 e)).toInt < 50000 := by
  have h0 := congrFun h ix0
  unfold fn fn_part1 fn_part2 fn_part3 fn_part4 at h0
  dsimp only [andi] at h0
  obtain ⟨h1, hlt⟩ := IntOp.andi_eq_one.1 h0
  obtain ⟨-, hge⟩ := IntOp.andi_eq_one.1 h1
  have hge' := Host.reduce_andi_all _ _ _ _ _ hge (ix1 e)
  have hlt' := Host.reduce_andi_all _ _ _ _ _ hlt (ix1 e)
  clear h0 h1 hge hlt h
  have r0 := row0_apply a1 Facts.slices_S2x800000_S1x800000_0_0 Facts.shapeCasts_S1x800000_S800000 e
  refine word_range _ ?_ ?_
  · rw [← r0]; exact hge'
  · rw [← r0]; exact hlt'

end Cert.PreRange

end
-- ==== Proof.lean ====
import proofs.«406057_j79568564126007_2_alg».proof.Defs
import proofs.«406057_j79568564126007_2_alg».proof.Proof.Gen.Kernel
import proofs.«406057_j79568564126007_2_alg».proof.Proof.Gen.Kernel.Frame
import proofs.«406057_j79568564126007_2_alg».proof.Proof.Gen.KernelIdeal
import proofs.«406057_j79568564126007_2_alg».proof.Proof.Gen.KernelIdeal.Frame
import proofs.«406057_j79568564126007_2_alg».proof.Proof.Gen.ReferenceIdeal
import proofs.«406057_j79568564126007_2_alg».proof.Proof.Gen.Pre_finite_inputs
import proofs.«406057_j79568564126007_2_alg».proof.Proof.KRun
import proofs.«406057_j79568564126007_2_alg».proof.Proof.KValue
import proofs.«406057_j79568564126007_2_alg».proof.Proof.RefRun
import proofs.«406057_j79568564126007_2_alg».proof.Proof.RValue
import proofs.«406057_j79568564126007_2_alg».proof.Proof.PreRange
import proofs.«406057_j79568564126007_2_alg».proof.Proof.Layer
import Idealize.ShloMosaic.Adequacy
import Idealize.ShloMosaic.Init

set_option maxRecDepth 16384

noncomputable section

namespace Cert.Proof

open Idealize.ShloMosaic Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

-- A run that ends with the arguments as launched is in particular a frame.
theorem frame_reference : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

-- The precondition puts every source id in 0 … 49999; there the kernel's network and the reference's are one function.
theorem algebraic : Cert.algebraic_KernelIdeal_ReferenceIdeal := by
  intro m g m' g' hpre hagree
  refine ⟨fun c => Cert.KernelIdeal.Gen.W21 m g c (Proc.devRef .tc Cert.KernelIdeal.main_v85),
    Cert.KernelIdeal.ValueRun.run_value (F := Ideal) m g, ?_⟩
  refine (θ_run Cert.ReferenceIdeal.defs _ _).mono (fun r h c => ⟨(h c).1.trans ?_, (h c).2⟩)
    (Cert.ReferenceIdeal.RunP.run (F := Ideal) m' g')
  show _ = Cert.KernelIdeal.Gen.W21 m g c (Proc.devRef .tc Cert.KernelIdeal.main_v85)
  obtain ⟨h0, h1, h2, h3, h4, h5, h6, h7, h8, h9, h10, h11, h12, h13, h14⟩ := hagree c
  rw [h0, h1, h2, h3, h4, h5, h6, h7, h8, h9, h10, h11, h12, h13, h14]
  funext i
  obtain ⟨gg, o, rfl⟩ : ∃ (gg : Fin 512) (o : Fin 12), i = ix2 gg o := ⟨i 0, i 1, eq_ix2 i⟩
  refine (Cert.ReferenceIdeal.RValue.ref_value _ _ _ _ _ _ _ _ _ _ _ _ _ _ _ gg o).trans ?_
  refine Eq.trans ?_ (Cert.KernelIdeal.KValue.kernel_value m g c gg o).symm
  refine (Cert.Gcn.netK_eq_netR _ _ _ _ _ _ _ _ _ _ _ _ _ _ _ _ ?_ gg o).symm
  exact Cert.Gcn.withLoops_range _ fun e' =>
    Cert.PreRange.src_words _ _ _ _ _ _ _ _ _ _ _ _ _ _ _ (hpre c) e'

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
